-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_fill" .f32 0xC0000000#32 ⊥
  ∧ IdealRules.named_const.Statement Cert.KernelIdeal.κ "neg_fill" .f32 0xC0000000#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384 : Shape := ⟨1, ![16384]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x64 .f32) (main_arg1 : IVec S16384 32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 64#32
  let main_v6 : IVec S16384 32 := broadcastInDim S16384 ![] bcast_S_S16384 main_c_1
  let main_v7 : IVec S16384 1 := cmpi .slt main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384x64 : Shape := ⟨2, ![16384, 64]⟩
abbrev S16384 : Shape := ⟨1, ![16384]⟩
abbrev S_ : Shape := ⟨0, ![]⟩
abbrev S16384x1 : Shape := ⟨2, ![16384, 1]⟩
abbrev S2048x64 : Shape := ⟨2, ![2048, 64]⟩
abbrev S2048x1 : Shape := ⟨2, ![2048, 1]⟩
abbrev S2048 : Shape := ⟨1, ![2048]⟩
abbrev S8x2048 : Shape := ⟨2, ![8, 2048]⟩
abbrev S8x1 : Shape := ⟨2, ![8, 1]⟩
abbrev S8 : Shape := ⟨1, ![8]⟩
abbrev S16x1024 : Shape := ⟨2, ![16, 1024]⟩
abbrev S16x1 : Shape := ⟨2, ![16, 1]⟩
abbrev S16 : Shape := ⟨1, ![16]⟩
abbrev S1x16384 : Shape := ⟨2, ![1, 16384]⟩
abbrev S1024x64 : Shape := ⟨2, ![1024, 64]⟩
abbrev S1x1024 : Shape := ⟨2, ![1, 1024]⟩
abbrev S64x1024 : Shape := ⟨2, ![64, 1024]⟩
abbrev S2048x1024 : Shape := ⟨2, ![2048, 1024]⟩
abbrev S1 : Shape := ⟨1, ![1]⟩

abbrev nBuf : Space → Nat
  | .hbm => 78
  | .vmem => 20
  | .smem => 4
  | _ => 0

abbrev bufTy : (tb : Table) → Fin (tcTables nBuf tb) → BufTy
  | .hbm, ⟨0, _⟩ => ⟨S16384x64, .f32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x64, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S16384, .i32⟩
  | .hbm, ⟨23, _⟩ => ⟨S16384x1, .i32⟩
  | .hbm, ⟨24, _⟩ => ⟨S16384x64, .bf16⟩
  | .hbm, ⟨25, _⟩ => ⟨S16384x1, .f32⟩
  | .hbm, ⟨26, _⟩ => ⟨S8x2048, .i32⟩
  | .hbm, ⟨27, _⟩ => ⟨S8x1, .i32⟩
  | .hbm, ⟨28, _⟩ => ⟨S8x1, .i32⟩
  | .hbm, ⟨29, _⟩ => ⟨S16x1024, .i32⟩
  | .hbm, ⟨30, _⟩ => ⟨S16x1, .i32⟩
  | .hbm, ⟨31, _⟩ => ⟨S16x1, .i32⟩
  | .hbm, ⟨32, _⟩ => ⟨S1x16384, .i32⟩
  | .hbm, ⟨33, _⟩ => ⟨S16384x1, .f32⟩
  | .hbm, ⟨34, _⟩ => ⟨S16384x1, .f32⟩
  | .hbm, ⟨35, _⟩ => ⟨S16384, .f32⟩
  | .hbm, ⟨36, _⟩ => ⟨S16384, .f32⟩
  | .hbm, ⟨37, _⟩ => ⟨S_, .f32⟩
  | .hbm, ⟨38, _⟩ => ⟨S16384, .f32⟩
  | .hbm, ⟨39, _⟩ => ⟨S16384, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S16384, .f32⟩
  | .hbm, ⟨50, _⟩ => ⟨S16384, .f32⟩
  | .hbm, ⟨51, _⟩ => ⟨S_, .f32⟩
  | .hbm, ⟨52, _⟩ => ⟨S16384, .f32⟩
  | .hbm, ⟨53, _⟩ => ⟨S16384, .f32⟩
  | .hbm, ⟨54, _⟩ => ⟨S_, .f32⟩
  | .hbm, ⟨55, _⟩ => ⟨S16384, .f32⟩
  | .hbm, ⟨56, _⟩ => ⟨S16384, .f32⟩
  | .hbm, ⟨57, _⟩ => ⟨S_, .f32⟩
  | .hbm, ⟨58, _⟩ => ⟨S16384, .f32⟩
  | .hbm, ⟨59, _⟩ => ⟨S16384, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S16384, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S2048x1, .i32⟩
  | .local _ .vmem, ⟨3, _⟩ => ⟨S2048x1, .i32⟩
  | .local _ .vmem, ⟨4, _⟩ => ⟨S2048x64, .bf16⟩
  | .local _ .vmem, ⟨5, _⟩ => ⟨S2048x64, .bf16⟩
  | .local _ .vmem, ⟨6, _⟩ => ⟨S2048x1, .f32⟩
  | .local _ .vmem, ⟨7, _⟩ => ⟨S2048x1, .f32⟩
  | .local _ .vmem, ⟨8, _⟩ => ⟨S2048x64, .bf16⟩
  | .local _ .vmem, ⟨9, _⟩ => ⟨S2048x64, .bf16⟩
  | .local _ .vmem, ⟨10, _⟩ => ⟨S1024x64, .bf16⟩
  | .local _ .vmem, ⟨11, _⟩ => ⟨S1024x64, .bf16⟩
  | .local _ .vmem, ⟨12, _⟩ => ⟨S2048x1, .i32⟩
  | .local _ .vmem, ⟨13, _⟩ => ⟨S2048x1, .i32⟩
  | .local _ .vmem, ⟨14, _⟩ => ⟨S1x1024, .i32⟩
  | .local _ .vmem, ⟨15, _⟩ => ⟨S1x1024, .i32⟩
  | .local _ .vmem, ⟨16, _⟩ => ⟨S2048x1, .f32⟩
  | .local _ .vmem, ⟨17, _⟩ => ⟨S2048x1, .f32⟩
  | .local _ .vmem, ⟨18, _⟩ => ⟨S2048x1, .f32⟩
  | .local _ .vmem, ⟨19, _⟩ => ⟨S2048x1, .f32⟩
  | .local _ .smem, ⟨0, _⟩ => ⟨S8, .i32⟩
  | .local _ .smem, ⟨1, _⟩ => ⟨S8, .i32⟩
  | .local _ .smem, ⟨2, _⟩ => ⟨S16, .i32⟩
  | .local _ .smem, ⟨3, _⟩ => ⟨S16, .i32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v17 : Ref sig .tc := ⟨.hbm, 26, rfl⟩
abbrev main_v18 : Ref sig .tc := ⟨.hbm, 27, rfl⟩
abbrev main_v20 : Ref sig .tc := ⟨.hbm, 28, rfl⟩
abbrev main_v22 : Ref sig .tc := ⟨.hbm, 29, rfl⟩
abbrev main_v23 : Ref sig .tc := ⟨.hbm, 30, rfl⟩
abbrev main_v25 : Ref sig .tc := ⟨.hbm, 31, rfl⟩
abbrev main_v27 : Ref sig .tc := ⟨.hbm, 32, rfl⟩
abbrev main_v28_0 : Ref sig .tc := ⟨.hbm, 33, rfl⟩
abbrev main_v28_1 : Ref sig .tc := ⟨.hbm, 34, rfl⟩
abbrev main_v29 : Ref sig .tc := ⟨.hbm, 35, rfl⟩
abbrev main_v30 : Ref sig .tc := ⟨.hbm, 36, rfl⟩
abbrev main_cst : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call1_cst : Ref sig .tc := ⟨.hbm, 41, rfl⟩
abbrev main_call1_v0 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_call2_cst : Ref sig .tc := ⟨.hbm, 51, rfl⟩
abbrev main_call2_v0 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_call3_cst : Ref sig .tc := ⟨.hbm, 57, rfl⟩
abbrev main_call3_v0 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_v53 : Ref sig .tc := ⟨.hbm, 77, rfl⟩
abbrev main_v19 : Ref sig .tc := ⟨.smem, 0, rfl⟩
abbrev main_v21 : Ref sig .tc := ⟨.smem, 1, rfl⟩
abbrev main_v24 : Ref sig .tc := ⟨.smem, 2, rfl⟩
abbrev main_v26 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 16], ![false, false]⟩

abbrev pre1 : Pipeline.Prefetch sig := ⟨4, ![main_v19.idx, main_v21.idx, main_v24.idx, main_v26.idx], fun | 0 => main_v19.names | 1 => main_v21.names | 2 => main_v24.names | 3 => main_v26.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k1_off1 (i : grid1.Coords) : Fin 1 → Nat :=
  let arg0 : BitVec 32 := BitVec.ofNat 32 (i 0).val
  let v9 : Index := Scalar.indexCast arg0
  ![v9.toNat]
def k1_off2 (i : grid1.Coords) : Fin 1 → Nat :=
  let arg1 : BitVec 32 := BitVec.ofNat 32 (i 1).val
  let v13 : Index := Scalar.indexCast arg1
  ![v13.toNat]
def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond3 (v10 : BitVec 32) (v12 : BitVec 32) (v14 : BitVec 32) (v16 : BitVec 32) : BitVec 1 :=
  let v17 : BitVec 1 := Scalar.cmpi .slt v12 v14
  let v18 : BitVec 1 := Scalar.cmpi .slt v16 v10
  let v19 : BitVec 1 := Scalar.ori v17 v18
  let v_true : BitVec 1 := 1#1
  let v22 : BitVec 1 := Scalar.xori v19 v_true
  let v23 : BitVec 32 := Scalar.extui v22
  let c0_i32_5 : BitVec 32 := 0#32
  let v24 : BitVec 1 := Scalar.cmpi .ne v23 c0_i32_5
  v24

def k1_cond2 (v10 : BitVec 32) (v12 : BitVec 32) (v14 : BitVec 32) (v16 : BitVec 32) : BitVec 1 :=
  let v17 : BitVec 1 := Scalar.cmpi .slt v12 v14
  let v18 : BitVec 1 := Scalar.cmpi .slt v16 v10
  let v19 : BitVec 1 := Scalar.ori v17 v18
  let v20 : BitVec 32 := Scalar.extui v19
  let c0_i32_4 : BitVec 32 := 0#32
  let v21 : BitVec 1 := Scalar.cmpi .ne v20 c0_i32_4
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  shapeCasts_S16384_S16384x1 : S16384.ShapeCasts S16384x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  shapeCasts_S2048_S2048x1 : S2048.ShapeCasts S2048x1
  broadcasts_S2048x1_S2048x64 : S2048x1.Broadcasts S2048x64
  bitsLt_bf16_f32 : FTy.bits .bf16 < FTy.bits .f32
  packedbf16_S2048x64_S2048x64_0_0 : (Rect.unit (s := S2048x64) ![0, 0] S2048x64.size inb_S2048x64_S2048x64_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x64_d1_w32 : S2048x64.Iotas .tc 32 [1]
  shapeCasts_S16384_S8x2048 : S16384.ShapeCasts S8x2048
  slices_S8x2048_S8x1_0_0 : S8x2048.Slices ![0, 0] S8x1
  shapeCasts_S8x1_S8 : S8x1.ShapeCasts S8
  slices_S8x2048_S8x1_0_2047 : S8x2048.Slices ![0, 2047] S8x1
  shapeCasts_S16384_S16x1024 : S16384.ShapeCasts S16x1024
  slices_S16x1024_S16x1_0_0 : S16x1024.Slices ![0, 0] S16x1
  shapeCasts_S16x1_S16 : S16x1.ShapeCasts S16
  slices_S16x1024_S16x1_0_1023 : S16x1024.Slices ![0, 1023] S16x1
  shapeCasts_S16384_S1x16384 : S16384.ShapeCasts S1x16384
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  numel1_S1 : S1.numel = 1
  reduces_S2048x1024_S2048 : S2048x1024.Reduces [1] S2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  shapeCasts_S16384x1_S16384 : S16384x1.ShapeCasts S16384
  reducesTo_S16384_S_d0 : S16384.ReducesTo [0] S_
  h_S_ : 0 < S_.numel
  gather_S16384x64_S16384x1_S16384x64_1_0_n_n_0_1_164_wf : GatherDims.WF S16384x64 S16384x1 S16384x64 [1] [0] [] [0] [] 1 ![1, 64]
  gather_S16384_S16384x1_S16384_n_0_n_n_0_1_1_wf : GatherDims.WF S16384 S16384x1 S16384 [] [0] [] [0] [] 1 ![1]
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .i32 = 32 ∨ (Rect.block (s := S16384x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .bf16 = 32 ∨ (Rect.block (s := S16384x64) S2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S16384x1.size a
  hwx0_3 : ∀ i : grid0.Coords, EltTy.bits .f32 = 32 ∨ (Rect.block (s := S16384x1) S2048x1.size (cc0_transform_3 i) (hinb0_3 i)).WholeWords (EltTy.packing .f32)
  hrank1 : 0 < grid1.rank
  k1_off1_inb : ∀ i : grid1.Coords, ∀ a, (k1_off1 i) a + S1.size a ≤ S8.size a
  k1_off2_inb : ∀ i : grid1.Coords, ∀ a, (k1_off2 i) a + S1.size a ≤ S16.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .bf16 = 32 ∨ (Rect.block (s := S16384x64) S2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S16384x64.size a
  hwx1_1 : ∀ i : grid1.Coords, EltTy.bits .bf16 = 32 ∨ (Rect.block (s := S16384x64) S1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .i32 = 32 ∨ (Rect.block (s := S16384x1) S2048x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x16384.size a
  hwx1_3 : ∀ i : grid1.Coords, EltTy.bits .i32 = 32 ∨ (Rect.block (s := S1x16384) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S16384x1.size a
  hwx1_4 : ∀ i : grid1.Coords, EltTy.bits .f32 = 32 ∨ (Rect.block (s := S16384x1) S2048x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x1.size a ≤ S16384x1.size a
  hwx1_5 : ∀ i : grid1.Coords, EltTy.bits .f32 = 32 ∨ (Rect.block (s := S16384x1) S2048x1.size (cc1_transform_5 i) (hinb1_5 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S16384x64_S16384x1_S16384x64_1_0_n_n_0_1_164 : GatherDims S16384x64 S16384x1 S16384x64 where
  offsetDims := [1]
  collapsedSliceDims := [0]
  operandBatchingDims := []
  startIndicesBatchingDims := []
  startIndexMap := [0]
  indexVectorDim := 1
  sliceSizes := ![1, 64]
  wf := gather_S16384x64_S16384x1_S16384x64_1_0_n_n_0_1_164_wf
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_v7) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16_0) S2048x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16_1) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev spec1_0 : Pipeline.WinSpec sig grid1.rank :=
  Pipeline.WinSpec.ofSpec (Memref.whole main_v16_0) S2048x64.size reads1_0 false false 2 stage1_0 sem1_0 nbuf1_0 hstage1_0

abbrev spec1_1 : Pipeline.WinSpec sig grid1.rank :=
  Pipeline.WinSpec.ofSpec (Memref.whole main_v16_0) S1024x64.size reads1_1 false false 2 stage1_1 sem1_1 nbuf1_1 hstage1_1

abbrev spec1_2 : Pipeline.WinSpec sig grid1.rank :=
  Pipeline.WinSpec.ofSpec (Memref.whole main_v15) S2048x1.size reads1_2 false false 2 stage1_2 sem1_2 nbuf1_2 hstage1_2

abbrev spec1_3 : Pipeline.WinSpec sig grid1.rank :=
  Pipeline.WinSpec.ofSpec (Memref.whole main_v27) S1x1024.size reads1_3 false false 2 stage1_3 sem1_3 nbuf1_3 hstage1_3

abbrev spec1_4 : Pipeline.WinSpec sig grid1.rank :=
  Pipeline.WinSpec.ofSpec (Memref.whole main_v28_0) S2048x1.size reads1_4 true false 2 stage1_4 sem1_4 nbuf1_4 hstage1_4

abbrev spec1_5 : Pipeline.WinSpec sig grid1.rank :=
  Pipeline.WinSpec.ofSpec (Memref.whole main_v28_1) S2048x1.size reads1_5 true false 2 stage1_5 sem1_5 nbuf1_5 hstage1_5

abbrev spec1 : Fin 6 → Pipeline.WinSpec sig grid1.rank := fun | 0 => spec1_0 | 1 => spec1_1 | 2 => spec1_2 | 3 => spec1_3 | 4 => spec1_4 | 5 => spec1_5 | ⟨_ + 6, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | ⟨_ + 6, h⟩ => absurd h (Nat.not_lt.2 (Nat.le_add_left _ _))
abbrev ix1 (pf : pre1.Contents (Elt F)) : (w : Fin 6) → grid1.Coords → Fin (spec1 w).shape.rank → Nat := fun | 0 => cc1_transform_0 | 1 => cc1_transform_1 | 2 => cc1_transform_2 | 3 => cc1_transform_3 | 4 => cc1_transform_4 | 5 => cc1_transform_5 | ⟨_ + 6, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | 4 => hreads1_4 | 5 => hreads1_5 | ⟨_ + 6, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | 4 => hinb1_4 | 5 => hinb1_5 | ⟨_ + 6, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | 4 => hwx1_4 | 5 => hwx1_5 | ⟨_ + 6, h⟩ => absurd h (Nat.not_lt.2 (Nat.le_add_left _ _))
abbrev idle1 (pf : pre1.Contents (Elt F)) : Fin 6 → grid1.Coords → Bool := fun | 0 => fun _ => false | 1 => fun _ => false | 2 => fun _ => false | 3 => fun _ => false | 4 => fun i => !(k1_cond1 i == 1#1) && !(k1_cond3 (pf.atD 0 (k1_off1 i)) (pf.atD 1 (k1_off1 i)) (pf.atD 2 (k1_off2 i)) (pf.atD 3 (k1_off2 i)) == 1#1) | 5 => fun i => !(k1_cond1 i == 1#1) && !(k1_cond2 (pf.atD 0 (k1_off1 i)) (pf.atD 1 (k1_off1 i)) (pf.atD 2 (k1_off2 i)) (pf.atD 3 (k1_off2 i)) == 1#1) && !(k1_cond3 (pf.atD 0 (k1_off1 i)) (pf.atD 1 (k1_off1 i)) (pf.atD 2 (k1_off2 i)) (pf.atD 3 (k1_off2 i)) == 1#1) | ⟨_ + 6, h⟩ => absurd h (Nat.not_lt.2 (Nat.le_add_left _ _))

class Facts : Prop extends Facts₀ where
  harr1 : ∀ w, (spec1 w).arr.IsWhole

variable [Facts]
-- ==== ReferenceIdeal.lean ====
abbrev S16384x64 : Shape := ⟨2, ![16384, 64]⟩
abbrev S16384 : Shape := ⟨1, ![16384]⟩
abbrev S_ : Shape := ⟨0, ![]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S64x16384 : Shape := ⟨2, ![64, 16384]⟩
abbrev S16384x16384 : Shape := ⟨2, ![16384, 16384]⟩
abbrev S1x16384 : Shape := ⟨2, ![1, 16384]⟩

abbrev nBuf : Space → Nat
  | .hbm => 107
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384, .i32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S16384x64, .f32⟩
  | .hbm, ⟨8, _⟩ => ⟨S16384x64, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x1, .f32⟩
  | .hbm, ⟨22, _⟩ => ⟨S16384x64, .f32⟩
  | .hbm, ⟨23, _⟩ => ⟨S16384x64, .f32⟩
  | .hbm, ⟨24, _⟩ => ⟨S16384x1, .i32⟩
  | .hbm, ⟨25, _⟩ => ⟨S_, .i32⟩
  | .hbm, ⟨26, _⟩ => ⟨S16384x1, .i32⟩
  | .hbm, ⟨27, _⟩ => ⟨S16384x1, .i1⟩
  | .hbm, ⟨28, _⟩ => ⟨S_, .i32⟩
  | .hbm, ⟨29, _⟩ => ⟨S16384x1, .i32⟩
  | .hbm, ⟨30, _⟩ => ⟨S16384x1, .i32⟩
  | .hbm, ⟨31, _⟩ => ⟨S16384x1, .i32⟩
  | .hbm, ⟨32, _⟩ => ⟨S16384x1x1, .i32⟩
  | .hbm, ⟨33, _⟩ => ⟨S1, .i32⟩
  | .hbm, ⟨34, _⟩ => ⟨S_, .i32⟩
  | .hbm, ⟨35, _⟩ => ⟨S16384x1x1, .i32⟩
  | .hbm, ⟨36, _⟩ => ⟨S16384x1x1, .i1⟩
  | .hbm, ⟨37, _⟩ => ⟨S1x1x1, .i32⟩
  | .hbm, ⟨38, _⟩ => ⟨S16384x1x1, .i32⟩
  | .hbm, ⟨39, _⟩ => ⟨S16384x1x1, .i1⟩
  | .hbm, ⟨40, _⟩ => ⟨S16384x1x1, .i1⟩
  | .hbm, ⟨41, _⟩ => ⟨S_, .i1⟩
  | .hbm, ⟨42, _⟩ => ⟨S16384x1, .i1⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S64x16384, .f32⟩
  | .hbm, ⟨53, _⟩ => ⟨S16384x16384, .f32⟩
  | .hbm, ⟨54, _⟩ => ⟨S1x16384, .i32⟩
  | .hbm, ⟨55, _⟩ => ⟨S16384x1, .i32⟩
  | .hbm, ⟨56, _⟩ => ⟨S16384x16384, .i32⟩
  | .hbm, ⟨57, _⟩ => ⟨S16384x16384, .i32⟩
  | .hbm, ⟨58, _⟩ => ⟨S16384x16384, .i1⟩
  | .hbm, ⟨59, _⟩ => ⟨S_, .f32⟩
  | .hbm, ⟨60, _⟩ => ⟨S_, .f32⟩
  | .hbm, ⟨61, _⟩ => ⟨S16384x16384, .f32⟩
  | .hbm, ⟨62, _⟩ => ⟨S16384x16384, .f32⟩
  | .hbm, ⟨63, _⟩ => ⟨S_, .f32⟩
  | .hbm, ⟨64, _⟩ => ⟨S16384, .f32⟩
  | .hbm, ⟨65, _⟩ => ⟨S_, .f32⟩
  | .hbm, ⟨66, _⟩ => ⟨S_, .f32⟩
  | .hbm, ⟨67, _⟩ => ⟨S16384x16384, .f32⟩
  | .hbm, ⟨68, _⟩ => ⟨S16384x16384, .f32⟩
  | .hbm, ⟨69, _⟩ => ⟨S_, .f32⟩
  | .hbm, ⟨70, _⟩ => ⟨S16384, .f32⟩
  | .hbm, ⟨71, _⟩ => ⟨S_, .f32⟩
  | .hbm, ⟨72, _⟩ => ⟨S16384, .f32⟩
  | .hbm, ⟨73, _⟩ => ⟨S16384, .f32⟩
  | .hbm, ⟨74, _⟩ => ⟨S16384, .f32⟩
  | .hbm, ⟨75, _⟩ => ⟨S_, .f32⟩
  | .hbm, ⟨76, _⟩ => ⟨S16384, .f32⟩
  | .hbm, ⟨77, _⟩ => ⟨S16384, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S16384, .f32⟩
  | .hbm, ⟨84, _⟩ => ⟨S16384, .f32⟩
  | .hbm, ⟨85, _⟩ => ⟨S_, .f32⟩
  | .hbm, ⟨86, _⟩ => ⟨S16384, .f32⟩
  | .hbm, ⟨87, _⟩ => ⟨S16384, .f32⟩
  | .hbm, ⟨88, _⟩ => ⟨S_, .f32⟩
  | .hbm, ⟨89, _⟩ => ⟨S16384, .f32⟩
  | .hbm, ⟨90, _⟩ => ⟨S16384, .f32⟩
  | .hbm, ⟨91, _⟩ => ⟨S_, .f32⟩
  | .hbm, ⟨92, _⟩ => ⟨S16384, .f32⟩
  | .hbm, ⟨93, _⟩ => ⟨S16384, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_cst : Ref sig .tc := ⟨.hbm, 9, rfl⟩
abbrev main_call1_v0 : Ref sig .tc := ⟨.hbm, 10, rfl⟩
abbrev main_call1_cst_0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_cst_1 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_v3 : Ref sig .tc := ⟨.hbm, 23, rfl⟩
abbrev main_v4 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_cst : Ref sig .tc := ⟨.hbm, 44, rfl⟩
abbrev main_call2_v14 : Ref sig .tc := ⟨.hbm, 45, rfl⟩
abbrev main_v5 : Ref sig .tc := ⟨.hbm, 46, rfl⟩
abbrev main_cst : Ref sig .tc := ⟨.hbm, 47, rfl⟩
abbrev main_v6 : Ref sig .tc := ⟨.hbm, 48, rfl⟩
abbrev main_cst_0 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_cst_1 : Ref sig .tc := ⟨.hbm, 59, rfl⟩
abbrev main_call3_v0 : Ref sig .tc := ⟨.hbm, 60, rfl⟩
abbrev main_call3_v1 : Ref sig .tc := ⟨.hbm, 61, rfl⟩
abbrev main_v16 : Ref sig .tc := ⟨.hbm, 62, rfl⟩
abbrev main_cst_2 : Ref sig .tc := ⟨.hbm, 63, rfl⟩
abbrev main_v17 : Ref sig .tc := ⟨.hbm, 64, rfl⟩
abbrev main_cst_3 : Ref sig .tc := ⟨.hbm, 65, rfl⟩
abbrev main_call4_v0 : Ref sig .tc := ⟨.hbm, 66, rfl⟩
abbrev main_call4_v1 : Ref sig .tc := ⟨.hbm, 67, rfl⟩
abbrev main_v18 : Ref sig .tc := ⟨.hbm, 68, rfl⟩
abbrev main_cst_4 : Ref sig .tc := ⟨.hbm, 69, rfl⟩
abbrev main_v19 : Ref sig .tc := ⟨.hbm, 70, rfl⟩
abbrev main_cst_5 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_call5_cst : Ref sig .tc := ⟨.hbm, 75, rfl⟩
abbrev main_call5_v0 : Ref sig .tc := ⟨.hbm, 76, rfl⟩
abbrev main_v23 : Ref sig .tc := ⟨.hbm, 77, rfl⟩
abbrev main_cst_6 : Ref sig .tc := ⟨.hbm, 78, rfl⟩
abbrev main_v24 : Ref sig .tc := ⟨.hbm, 79, rfl⟩
abbrev main_cst_7 : Ref sig .tc := ⟨.hbm, 80, rfl⟩
abbrev main_v25 : Ref sig .tc := ⟨.hbm, 81, rfl⟩
abbrev main_cst_8 : Ref sig .tc := ⟨.hbm, 82, rfl⟩
abbrev main_v26 : Ref sig .tc := ⟨.hbm, 83, rfl⟩
abbrev main_v27 : Ref sig .tc := ⟨.hbm, 84, rfl⟩
abbrev main_call6_cst : Ref sig .tc := ⟨.hbm, 85, rfl⟩
abbrev main_call6_v0 : Ref sig .tc := ⟨.hbm, 86, rfl⟩
abbrev main_v28 : Ref sig .tc := ⟨.hbm, 87, rfl⟩
abbrev main_cst_9 : Ref sig .tc := ⟨.hbm, 88, rfl⟩
abbrev main_v29 : Ref sig .tc := ⟨.hbm, 89, rfl⟩
abbrev main_v30 : Ref sig .tc := ⟨.hbm, 90, rfl⟩
abbrev main_call7_cst : Ref sig .tc := ⟨.hbm, 91, rfl⟩
abbrev main_call7_v0 : Ref sig .tc := ⟨.hbm, 92, rfl⟩
abbrev main_v31 : Ref sig .tc := ⟨.hbm, 93, rfl⟩
abbrev main_cst_10 : Ref sig .tc := ⟨.hbm, 94, rfl⟩
abbrev main_v32 : Ref sig .tc := ⟨.hbm, 95, rfl⟩
abbrev main_cst_11 : Ref sig .tc := ⟨.hbm, 96, rfl⟩
abbrev main_v33 : Ref sig .tc := ⟨.hbm, 97, rfl⟩
abbrev main_cst_12 : Ref sig .tc := ⟨.hbm, 98, rfl⟩
abbrev main_v34 : Ref sig .tc := ⟨.hbm, 99, rfl⟩
abbrev main_cst_13 : Ref sig .tc := ⟨.hbm, 100, rfl⟩
abbrev main_v35 : Ref sig .tc := ⟨.hbm, 101, rfl⟩
abbrev main_v36 : Ref sig .tc := ⟨.hbm, 102, rfl⟩
abbrev main_cst_14 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S_S16384 : S_.BroadcastsInDim S16384 (![] : Fin 0 → Fin S16384.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  reducesTo_S16384x1_S_d0_1 : S16384x1.ReducesTo [0, 1] S_
  transposes_S16384x64_S64x16384_1_0 : S16384x64.Transposes [1, 0] S64x16384
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  gather_S16384x64_S16384x1x1_S16384x1_n_1_0_0_1_2_11_wf : GatherDims.WF S16384x64 S16384x1x1 S16384x1 [] [1] [0] [1] [0] 2 ![1, 1]
  dot_S16384x64_S64x16384_S16384x16384_1_0_0_1_n_n_wf : DotDims.WF S16384x64 S64x16384 S16384x16384 [1] [0] [0] [1] [] []

variable [Facts₀]

def gather_S16384x64_S16384x1x1_S16384x1_n_1_0_0_1_2_11 : GatherDims S16384x64 S16384x1x1 S16384x1 where
  offsetDims := []
  collapsedSliceDims := [1]
  operandBatchingDims := [0]
  startIndicesBatchingDims := [0]
  startIndexMap := [1]
  indexVectorDim := 2
  sliceSizes := ![1, 1]
  wf := gather_S16384x64_S16384x1x1_S16384x1_n_1_0_0_1_2_11_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.K.Reg1Pts.lean ====
import proofs.«412808_j68015102100189_2_alg».proof.Proof.Gen.Kernel.Launch
import proofs.«412808_j68015102100189_2_alg».proof.Proof.Gen.Kernel.Skeleton
import proofs.«412808_j68015102100189_2_alg».proof.Proof.Gen.Kernel.Points
import Idealize.ShloMosaic.Lib.Pipeline.FrameBody
import Idealize.ShloMosaic.Lib.Pipeline.TableIdle
import Idealize.ShloMosaic.Lib.Ring
import Idealize.ShloMosaic.Lib.Tactic
import Idealize.ShloMosaic.Lib.Pipeline.Value

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem fetch1_0 (a : (pcfg1 (F := F)).Adm) : ∀ t : Fin (cfg1 a).N, ((cfg1 a).win 0).fetch t = decide (t.val % 16 = 0) :=
  (by decide +kernel : ∀ t : Fin grid1.N, Pipeline.Window.fetchOf grid1 false cc1_transform_0 t = decide (t.val % 16 = 0))

theorem fetch1_1 (a : (pcfg1 (F := F)).Adm) : ∀ t : Fin (cfg1 a).N, ((cfg1 a).win 1).fetch t = true :=
  (by decide +kernel : ∀ t : Fin grid1.N, Pipeline.Window.fetchOf grid1 false cc1_transform_1 t = true)

theorem fetch1_2 (a : (pcfg1 (F := F)).Adm) : ∀ t : Fin (cfg1 a).N, ((cfg1 a).win 2).fetch t = decide (t.val % 16 = 0) :=
  (by decide +kernel : ∀ t : Fin grid1.N, Pipeline.Window.fetchOf grid1 false cc1_transform_2 t = decide (t.val % 16 = 0))

theorem fetch1_3 (a : (pcfg1 (F := F)).Adm) : ∀ t : Fin (cfg1 a).N, ((cfg1 a).win 3).fetch t = true :=
  (by decide +kernel : ∀ t : Fin grid1.N, Pipeline.Window.fetchOf grid1 false cc1_transform_3 t = true)

theorem flush1_4 (a : (pcfg1 (F := F)).Adm) : ∀ t : Fin (cfg1 a).N, ((cfg1 a).win 4).flush t = decide (t.val % 16 = 15) :=
  (by decide +kernel : ∀ t : Fin grid1.N, Pipeline.Window.flushOf grid1 true cc1_transform_4 t = decide (t.val % 16 = 15))

theorem flush1_5 (a : (pcfg1 (F := F)).Adm) : ∀ t : Fin (cfg1 a).N, ((cfg1 a).win 5).flush t = decide (t.val % 16 = 15) :=
  (by decide +kernel : ∀ t : Fin grid1.N, Pipeline.Window.flushOf grid1 true cc1_transform_5 t = decide (t.val % 16 = 15))

theorem hcond1 : ∀ t : Fin grid1.N, k1_cond1 (grid1.coords t) = 1#1 ↔ t.val % 16 = 0 :=
  (by decide +kernel : ∀ t : Fin grid1.N, k1_cond1 (grid1.coords t) = 1#1 ↔ t.val % 16 = 0)

theorem cond3_iff (a b c d : BitVec 32) : k1_cond3 a b c d = 1#1 ↔ ¬ k1_cond2 a b c d = 1#1 := by
  unfold k1_cond3 k1_cond2
  dsimp only
  generalize Scalar.cmpi .slt b c = p
  generalize Scalar.cmpi .slt d a = q
  revert p q
  decide

abbrev tbM0 : Memref sig .tc .smem S8 .i32 := Memref.whole main_v19
abbrev htbM0 : tbM0.IsWhole := Memref.isWhole_whole _
abbrev tbM1 : Memref sig .tc .smem S8 .i32 := Memref.whole main_v21
abbrev htbM1 : tbM1.IsWhole := Memref.isWhole_whole _
abbrev tbM2 : Memref sig .tc .smem S16 .i32 := Memref.whole main_v24
abbrev htbM2 : tbM2.IsWhole := Memref.isWhole_whole _
abbrev tbM3 : Memref sig .tc .smem S16 .i32 := Memref.whole main_v26
abbrev htbM3 : tbM3.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

abbrev wdI (c : Dev nD) (i : grid1.Coords) (M : Memref sig .tc .smem S8 .i32) (xt : TbBuf (F := F) c M) : Elt F .i32 :=
  M.view.readAt (Elt F) (Rect.unit (s := S8) (k1_off1 i) S1.size (k1_off1_inb i)).toLoadRect xt (Shape.Idx.first (numel1_S1.symm ▸ Nat.one_pos))
abbrev wdJ (c : Dev nD) (i : grid1.Coords) (M : Memref sig .tc .smem S16 .i32) (xt : TbBuf (F := F) c M) : Elt F .i32 :=
  M.view.readAt (Elt F) (Rect.unit (s := S16) (k1_off2 i) S1.size (k1_off2_inb i)).toLoadRect xt (Shape.Idx.first (numel1_S1.symm ▸ Nat.one_pos))

abbrev cond2At (c : Dev nD) (i : grid1.Coords) (xt0 : TbBuf (F := F) c tbM0) (xt1 : TbBuf (F := F) c tbM1) (xt2 : TbBuf (F := F) c tbM2) (xt3 : TbBuf (F := F) c tbM3) : Prop :=
  k1_cond2 (wdI c i tbM0 xt0) (wdI c i tbM1 xt1) (wdJ c i tbM2 xt2) (wdJ c i tbM3 xt3) = 1#1
abbrev cond3At (c : Dev nD) (i : grid1.Coords) (xt0 : TbBuf (F := F) c tbM0) (xt1 : TbBuf (F := F) c tbM1) (xt2 : TbBuf (F := F) c tbM2) (xt3 : TbBuf (F := F) c tbM3) : Prop :=
  k1_cond3 (wdI c i tbM0 xt0) (wdI c i tbM1 xt1) (wdJ c i tbM2 xt2) (wdJ c i tbM3 xt3) = 1#1

abbrev ms1_0 (a : (pcfg1 (F := F)).Adm) (t : Fin (cfg1 a).N) : Memref sig .tc .vmem S2048x64 .bf16 := spec1_0.stage ((cfg1 a).slots t 0)
abbrev hs1_0 (a : (pcfg1 (F := F)).Adm) (t : Fin (cfg1 a).N) : (ms1_0 a t).IsWhole := hstage1_0 (((cfg1 a).slots t 0).cast nbuf1_0)
abbrev ms1_1 (a : (pcfg1 (F := F)).Adm) (t : Fin (cfg1 a).N) : Memref sig .tc .vmem S1024x64 .bf16 := spec1_1.stage ((cfg1 a).slots t 1)
abbrev hs1_1 (a : (pcfg1 (F := F)).Adm) (t : Fin (cfg1 a).N) : (ms1_1 a t).IsWhole := hstage1_1 (((cfg1 a).slots t 1).cast nbuf1_1)
abbrev ms1_2 (a : (pcfg1 (F := F)).Adm) (t : Fin (cfg1 a).N) : Memref sig .tc .vmem S2048x1 .i32 := spec1_2.stage ((cfg1 a).slots t 2)
abbrev hs1_2 (a : (pcfg1 (F := F)).Adm) (t : Fin (cfg1 a).N) : (ms1_2 a t).IsWhole := hstage1_2 (((cfg1 a).slots t 2).cast nbuf1_2)
abbrev ms1_3 (a : (pcfg1 (F := F)).Adm) (t : Fin (cfg1 a).N) : Memref sig .tc .vmem S1x1024 .i32 := spec1_3.stage ((cfg1 a).slots t 3)
abbrev hs1_3 (a : (pcfg1 (F := F)).Adm) (t : Fin (cfg1 a).N) : (ms1_3 a t).IsWhole := hstage1_3 (((cfg1 a).slots t 3).cast nbuf1_3)
abbrev ms1_4 (a : (pcfg1 (F := F)).Adm) (t : Fin (cfg1 a).N) : Memref sig .tc .vmem S2048x1 .f32 := spec1_4.stage ((cfg1 a).slots t 4)
abbrev hs1_4 (a : (pcfg1 (F := F)).Adm) (t : Fin (cfg1 a).N) : (ms1_4 a t).IsWhole := hstage1_4 (((cfg1 a).slots t 4).cast nbuf1_4)
abbrev ms1_5 (a : (pcfg1 (F := F)).Adm) (t : Fin (cfg1 a).N) : Memref sig .tc .vmem S2048x1 .f32 := spec1_5.stage ((cfg1 a).slots t 5)
abbrev hs1_5 (a : (pcfg1 (F := F)).Adm) (t : Fin (cfg1 a).N) : (ms1_5 a t).IsWhole := hstage1_5 (((cfg1 a).slots t 5).cast nbuf1_5)

abbrev bodyAt1 (a : (pcfg1 (F := F)).Adm) (t : Fin (cfg1 a).N) : Prog (TpuEff nD τ sig (Elt F) Λ₀ .tc) PUnit :=
  cc1__pair_kernel (grid1.coords t) tbM0 htbM0 tbM1 htbM1 tbM2 htbM2 tbM3 htbM3 (ms1_0 a t) (hs1_0 a t) (ms1_1 a t) (hs1_1 a t) (ms1_2 a t) (hs1_2 a t) (ms1_3 a t) (hs1_3 a t) (ms1_4 a t) (hs1_4 a t) (ms1_5 a t) (hs1_5 a t)

theorem bodyAt1_eq (a : (pcfg1 (F := F)).Adm) (t : Fin (cfg1 a).N) :
    defs₀ (F := F) .tc (cfg1 a).body ((cfg1 a).bodyArgs t ((cfg1 a).slots t)) = bodyAt1 a t := rfl

theorem hz2 : (![0, 0] : Fin 2 → Nat) = fun _ => 0 := by funext a; fin_cases a <;> rfl

theorem read_writes_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

end Cert.Kernel.R1

end
-- ==== Proof.K.Reg1Dat.lean ====
import proofs.«412808_j68015102100189_2_alg».proof.Proof.K.Reg1Pts

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (pf : pre1.Contents (Elt F))

abbrev adm : (pcfg1 (F := F)).Adm := ⟨pf, trivial⟩
abbrev cfgM : Pipeline.Cfg sig Λ₀ := cfg1 (adm pf)

theorem N_M : (cfgM pf).N = 128 := N_1

def iblk1 (c : Dev nD) (w : Fin (cfgM pf).W) (t : Fin (cfgM pf).N) : (((cfgM pf).win w).xblock ((cfgM pf).grid.coords t)).Idx → Elt F ((cfgM pf).win w).elt :=
  (((cfgM pf).win w).blk t).view.read (Elt F) (V c (Pipeline.arrRef spec1 w))

abbrev c2 (i : grid1.Coords) : Prop :=
  k1_cond2 (pf.atD 0 (k1_off1 i)) (pf.atD 1 (k1_off1 i)) (pf.atD 2 (k1_off2 i)) (pf.atD 3 (k1_off2 i)) = 1#1

def base (i : grid1.Coords) (prev : Vec F S2048x1 .f32 × Vec F S2048x1 .f32) : Vec F S2048x1 .f32 × Vec F S2048x1 .f32 :=
  if k1_cond1 i = 1#1 then (k1_pay1, k1_pay2) else prev

def stepOut (i : grid1.Coords) (xi : Vec F S2048x64 .bf16) (xj : Vec F S1024x64 .bf16) (ti : Vec F S2048x1 .i32) (tj : Vec F S1x1024 .i32)
    (prev : Vec F S2048x1 .f32 × Vec F S2048x1 .f32) : Vec F S2048x1 .f32 × Vec F S2048x1 .f32 :=
  if c2 pf i then ((base i prev).1, k1_pay4 xi xj (base i prev).2)
  else (k1_pay6 xi xj ti tj (base i prev).1, k1_pay7 xi xj ti tj (base i prev).2)

abbrev pt (n : ℕ) (hn : n < 128) : Fin (cfgM pf).N := ⟨n, lt_of_lt_of_eq hn (N_M pf).symm⟩

def outsAt1 (c : Dev nD) : (n : ℕ) → n < 128 → Vec F S2048x1 .f32 × Vec F S2048x1 .f32
  | 0, hn => stepOut pf (grid1.coords (pt pf 0 hn)) (iblk1 V pf c 0 (pt pf 0 hn)) (iblk1 V pf c 1 (pt pf 0 hn)) (iblk1 V pf c 2 (pt pf 0 hn)) (iblk1 V pf c 3 (pt pf 0 hn)) (k1_pay1, k1_pay2)
  | n + 1, hn => stepOut pf (grid1.coords (pt pf (n + 1) hn)) (iblk1 V pf c 0 (pt pf (n + 1) hn)) (iblk1 V pf c 1 (pt pf (n + 1) hn)) (iblk1 V pf c 2 (pt pf (n + 1) hn)) (iblk1 V pf c 3 (pt pf (n + 1) hn))
      (outsAt1 c n (Nat.lt_of_succ_lt hn))

theorem lt128 (t : Fin (cfgM pf).N) : t.val < 128 := lt_of_lt_of_eq t.isLt (N_M pf)
theorem pred_lt128 (t : Fin (cfgM pf).N) : t.val - 1 < 128 := Nat.lt_of_le_of_lt (Nat.sub_le _ _) (lt128 pf t)

theorem outsAt1_J0 (c : Dev nD) (t : Fin (cfgM pf).N) (h0 : t.val % 16 = 0) :
    outsAt1 V pf c t.val (lt128 pf t) = stepOut pf (grid1.coords t) (iblk1 V pf c 0 t) (iblk1 V pf c 1 t) (iblk1 V pf c 2 t) (iblk1 V pf c 3 t) (k1_pay1, k1_pay2) := by
  have h1 : k1_cond1 (grid1.coords t) = 1#1 := (hcond1 t).mpr h0
  obtain ⟨n, hn⟩ := t
  cases n with
  | zero => rfl
  | succ n =>
    show stepOut pf _ _ _ _ _ _ = stepOut pf _ _ _ _ _ _
    unfold stepOut base
    rw [if_pos h1, if_pos h1]

theorem outsAt1_pos (c : Dev nD) (t : Fin (cfgM pf).N) (h0 : t.val ≠ 0) :
    outsAt1 V pf c t.val (lt128 pf t) = stepOut pf (grid1.coords t) (iblk1 V pf c 0 t) (iblk1 V pf c 1 t) (iblk1 V pf c 2 t) (iblk1 V pf c 3 t)
      (outsAt1 V pf c (t.val - 1) (pred_lt128 pf t)) := by
  obtain ⟨n, hn⟩ := t
  cases n with
  | zero => exact absurd rfl h0
  | succ n => rfl

theorem outsAt1_C (c : Dev nD) (t : Fin (cfgM pf).N) (h0 : ¬ t.val % 16 = 0) (h2 : c2 pf (grid1.coords t)) :
    outsAt1 V pf c t.val (lt128 pf t) = ((outsAt1 V pf c (t.val - 1) (pred_lt128 pf t)).1,
      k1_pay4 (iblk1 V pf c 0 t) (iblk1 V pf c 1 t) (outsAt1 V pf c (t.val - 1) (pred_lt128 pf t)).2) := by
  rw [outsAt1_pos V pf c t (fun h => h0 (by rw [h]))]; unfold stepOut base
  rw [if_neg (fun h => h0 ((hcond1 t).mp h)), if_pos h2]
def dat1 (c : Dev nD) : Dat τ (Elt F) Unit ℕ (UR sig nD τ) ℕ (cfgM pf) c where
  A w := V c (Pipeline.arrRef spec1 w)
  after w t := match w with
    | ⟨0, _⟩ => iblk1 V pf c 0 t
    | ⟨1, _⟩ => iblk1 V pf c 1 t
    | ⟨2, _⟩ => iblk1 V pf c 2 t
    | ⟨3, _⟩ => iblk1 V pf c 3 t
    | ⟨4, _⟩ => (outsAt1 V pf c t.val (lt128 pf t)).1
    | ⟨5, _⟩ => (outsAt1 V pf c t.val (lt128 pf t)).2
  Φ _ := iprop(Pipeline.ΦA spec1 c ∗ Pipeline.prefHeld pre1 c (fun _ => fullShare) pf)
  q := fun | ⟨0, _⟩ => fullShare.left | ⟨1, _⟩ => fullShare.right | _ => fullShare
  owed _ := 0

theorem A_eq1 (c : Dev nD) (w : Fin (cfgM pf).W) : (dat1 V pf c).A w = V c (Pipeline.arrRef spec1 w) := by
  dsimp only [dat1]

theorem after1_0 (c : Dev nD) (t : Fin (cfgM pf).N) : (dat1 V pf c).after 0 t = iblk1 V pf c 0 t := by dsimp only [dat1]; try rfl
theorem after1_1 (c : Dev nD) (t : Fin (cfgM pf).N) : (dat1 V pf c).after 1 t = iblk1 V pf c 1 t := by dsimp only [dat1]; try rfl
theorem after1_2 (c : Dev nD) (t : Fin (cfgM pf).N) : (dat1 V pf c).after 2 t = iblk1 V pf c 2 t := by dsimp only [dat1]; try rfl
theorem after1_3 (c : Dev nD) (t : Fin (cfgM pf).N) : (dat1 V pf c).after 3 t = iblk1 V pf c 3 t := by dsimp only [dat1]; try rfl
theorem after1_4 (c : Dev nD) (t : Fin (cfgM pf).N) : (dat1 V pf c).after 4 t = (outsAt1 V pf c t.val (lt128 pf t)).1 := by dsimp only [dat1]; try rfl
theorem after1_5 (c : Dev nD) (t : Fin (cfgM pf).N) : (dat1 V pf c).after 5 t = (outsAt1 V pf c t.val (lt128 pf t)).2 := by dsimp only [dat1]; try rfl

theorem before1_0 (c : Dev nD) (t : Fin (cfgM pf).N) (d) : (dat1 V pf c).before 0 t d = iblk1 V pf c 0 t :=
  ((dat1 V pf c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin (cfgM pf).N) (d) : (dat1 V pf c).before 1 t d = iblk1 V pf c 1 t :=
  ((dat1 V pf c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin (cfgM pf).N) (d) : (dat1 V pf c).before 2 t d = iblk1 V pf c 2 t :=
  ((dat1 V pf c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin (cfgM pf).N) (d) : (dat1 V pf c).before 3 t d = iblk1 V pf c 3 t :=
  ((dat1 V pf c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem idle4_eq (i : grid1.Coords) : (cfgM pf).idle 4 i
    = (!(k1_cond1 i == 1#1) && !(k1_cond3 (pf.atD 0 (k1_off1 i)) (pf.atD 1 (k1_off1 i)) (pf.atD 2 (k1_off2 i)) (pf.atD 3 (k1_off2 i)) == 1#1)) := rfl
theorem idle5_eq (i : grid1.Coords) : (cfgM pf).idle 5 i
    = (!(k1_cond1 i == 1#1) && !(k1_cond2 (pf.atD 0 (k1_off1 i)) (pf.atD 1 (k1_off1 i)) (pf.atD 2 (k1_off2 i)) (pf.atD 3 (k1_off2 i)) == 1#1)
        && !(k1_cond3 (pf.atD 0 (k1_off1 i)) (pf.atD 1 (k1_off1 i)) (pf.atD 2 (k1_off2 i)) (pf.atD 3 (k1_off2 i)) == 1#1)) := rfl

theorem idle4_iff (i : grid1.Coords) : (cfgM pf).idle 4 i = true ↔ (¬ k1_cond1 i = 1#1 ∧ c2 pf i) := by
  rw [idle4_eq]
  simp only [Bool.and_eq_true, Bool.not_eq_eq_eq_not, Bool.not_true, beq_eq_false_iff_ne, ne_eq]
  exact and_congr_right fun _ => (not_congr (cond3_iff _ _ _ _)).trans Classical.not_not

theorem idle5_false (i : grid1.Coords) : (cfgM pf).idle 5 i = false := by
  rw [idle5_eq]
  by_cases h2 : k1_cond2 (pf.atD 0 (k1_off1 i)) (pf.atD 1 (k1_off1 i)) (pf.atD 2 (k1_off2 i)) (pf.atD 3 (k1_off2 i)) = 1#1
  · simp only [h2, beq_self_eq_true, Bool.not_true, Bool.and_false, Bool.false_and]
  · have h3 := (cond3_iff _ _ _ _).mpr h2
    simp only [h3, beq_self_eq_true, Bool.not_true, Bool.and_false]

theorem fresh4 (n : ℕ) (hn : n ≤ 128) : (cfgM pf).fresh 4 n = decide (n % 16 = 0) :=
  (cfgM pf).fresh_tab 4 (fun n => decide (n % 16 = 0)) (by decide) (fun t => by
    have hN := lt128 pf t
    rw [flush1_4 (adm pf) t]
    by_cases h0 : t.val % 16 = 0
    · have hi : (cfgM pf).idle 4 ((cfgM pf).grid.coords t) = false := by
        rw [Bool.eq_false_iff]; intro h; exact ((idle4_iff pf _).mp h).1 ((hcond1 t).mpr h0)
      rw [hi]; simp only [Bool.false_and, Bool.or_false, decide_eq_decide]; omega
    · simp only [h0, decide_false, Bool.and_false, Bool.or_false, decide_eq_decide]; omega) n (by rw [N_M]; exact hn)
theorem fresh5 (n : ℕ) (hn : n ≤ 128) : (cfgM pf).fresh 5 n = decide (n % 16 = 0) :=
  (cfgM pf).fresh_tab 5 (fun n => decide (n % 16 = 0)) (by decide) (fun t => by
    have hN := lt128 pf t
    rw [flush1_5 (adm pf) t, idle5_false]
    simp only [Bool.false_and, Bool.or_false, decide_eq_decide]; omega) n (by rw [N_M]; exact hn)

theorem before1_4 (c : Dev nD) (t : Fin (cfgM pf).N) (d) :
    (dat1 V pf c).before 4 t d = if t.val % 16 = 0 then d else (outsAt1 V pf c (t.val - 1) (pred_lt128 pf t)).1 := by
  rw [Pipeline.Dat.before_out_traj (dat1 V pf c) 4 rfl (fun _ _ => rfl) (fun u hu hi _ => by
      rw [after1_4, after1_4]
      obtain ⟨h1, h2⟩ := (idle4_iff pf _).mp hi
      rw [outsAt1_C V pf c u (fun h => h1 ((hcond1 u).mpr h)) h2]) t.val t rfl d,
    fresh4 pf t.val (le_of_lt (lt128 pf t)), after1_4]
  simp only [decide_eq_true_eq]
theorem before1_5 (c : Dev nD) (t : Fin (cfgM pf).N) (d) :
    (dat1 V pf c).before 5 t d = if t.val % 16 = 0 then d else (outsAt1 V pf c (t.val - 1) (pred_lt128 pf t)).2 := by
  rw [Pipeline.Dat.before_out_traj (dat1 V pf c) 5 rfl (fun _ _ => rfl) (fun u hu hi _ => by
      rw [idle5_false] at hi; exact absurd hi Bool.false_ne_true) t.val t rfl d,
    fresh5 pf t.val (le_of_lt (lt128 pf t)), after1_5]
  simp only [decide_eq_true_eq]

end Cert.Kernel.R1

end
-- ==== Proof.K.Reg1.lean ====
import proofs.«412808_j68015102100189_2_alg».proof.Proof.K.Reg1Dat

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (pf : pre1.Contents (Elt F))

theorem off1_lt (i : grid1.Coords) : ∀ a, k1_off1 i a + 1 ≤ S8.size a := fun a => by
  have := k1_off1_inb i a; revert this; fin_cases a; exact id
theorem off2_lt (i : grid1.Coords) : ∀ a, k1_off2 i a + 1 ≤ S16.size a := fun a => by
  have := k1_off2_inb i a; revert this; fin_cases a; exact id

/-- The unit rectangle at an offset has the offset as its one index, so each loaded word is the table's element there. -/
theorem wd_eq (c : Dev nD) (i : grid1.Coords) :
    wdI c i tbM0 (pf 0) = pf.atD 0 (k1_off1 i) ∧ wdI c i tbM1 (pf 1) = pf.atD 1 (k1_off1 i)
      ∧ wdJ c i tbM2 (pf 2) = pf.atD 2 (k1_off2 i) ∧ wdJ c i tbM3 (pf 3) = pf.atD 3 (k1_off2 i) := by
  refine ⟨?_, ?_, ?_, ?_⟩ <;>
    refine Eq.trans ?_ (dif_pos (by first | exact off1_lt i | exact off2_lt i)).symm <;>
    refine congrArg (pf _) (funext fun a => Fin.ext ?_) <;> fin_cases a <;> rfl

/-- Hence the second condition over the tables' elements is the one over the loaded words. -/
theorem c2_iff (c : Dev nD) (i : grid1.Coords) : c2 pf i ↔ cond2At c i (pf 0) (pf 1) (pf 2) (pf 3) := by
  obtain ⟨h0, h1, h2, h3⟩ := wd_eq pf c i
  unfold c2 cond2At; rw [h0, h1, h2, h3]

theorem PhiT1_eq (c : Dev nD) : (Pipeline.prefHeld pre1 c (fun _ => fullShare) pf : sProp 𝕄)
    = iprop(tbPt c tbM0 (pf 0) ∗ tbPt c tbM1 (pf 1) ∗ tbPt c tbM2 (pf 2) ∗ tbPt c tbM3 (pf 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- Whichever way the three conditions fall, the stores that happen leave the two outputs one step of the accumulation on. -/
theorem kernelRun1 (c : Dev nD) {i : grid1.Coords}
    {arg6 : Memref sig .tc .vmem S2048x64 .bf16} {harg6 : arg6.IsWhole} {arg7 : Memref sig .tc .vmem S1024x64 .bf16} {harg7 : arg7.IsWhole}
    {arg8 : Memref sig .tc .vmem S2048x1 .i32} {harg8 : arg8.IsWhole} {arg9 : Memref sig .tc .vmem S1x1024 .i32} {harg9 : arg9.IsWhole}
    {arg10 : Memref sig .tc .vmem S2048x1 .f32} {harg10 : arg10.IsWhole} {arg11 : Memref sig .tc .vmem S2048x1 .f32} {harg11 : arg11.IsWhole}
    (x0 : Vec F S2048x64 .bf16) (x1 : Vec F S1024x64 .bf16) (x2 : Vec F S2048x1 .i32) (x3 : Vec F S1x1024 .i32) (xo4 xo5 : Vec F S2048x1 .f32)
    {E : Set ℕ} {K : PUnit → sProp 𝕄} :
    iprop(owns c.tc arg6 fullShare x0 ∗ owns c.tc arg7 fullShare x1 ∗ owns c.tc arg8 fullShare x2 ∗ owns c.tc arg9 fullShare x3
        ∗ owns c.tc arg10 fullShare xo4 ∗ owns c.tc arg11 fullShare xo5
        ∗ Pipeline.prefHeld pre1 c (fun _ => fullShare) pf
        ∗ (iprop(owns c.tc arg6 fullShare x0 ∗ owns c.tc arg7 fullShare x1 ∗ owns c.tc arg8 fullShare x2 ∗ owns c.tc arg9 fullShare x3
            ∗ owns c.tc arg10 fullShare (stepOut pf i x0 x1 x2 x3 (xo4, xo5)).1
            ∗ owns c.tc arg11 fullShare (stepOut pf i x0 x1 x2 x3 (xo4, xo5)).2
            ∗ Pipeline.prefHeld pre1 c (fun _ => fullShare) pf) -∗ K ⟨⟩))
      ⊢ wp frame (wpE (defs₀ (F := F)) Variants.none c none) E (cc1__pair_kernel i tbM0 htbM0 tbM1 htbM1 tbM2 htbM2 tbM3 htbM3 arg6 harg6 arg7 harg7 arg8 harg8 arg9 harg9 arg10 harg10 arg11 harg11) K := by
  rw [PhiT1_eq, owns_eq_rep c.tc arg6, owns_eq_rep c.tc arg7, owns_eq_rep c.tc arg8, owns_eq_rep c.tc arg9, owns_eq_rep c.tc arg10 _ xo4, owns_eq_rep c.tc arg11 _ xo5]
  unfold stepOut base
  by_cases hc1 : k1_cond1 i = 1#1 <;> by_cases hc2 : c2 pf i <;> (
    first | rw [if_pos hc1] | rw [if_neg hc1]
    first | rw [if_pos hc2] | rw [if_neg hc2]
    dsimp only
    rw [c2_iff pf c i] at hc2
    first
      | have hc3 : cond3At c i (pf 0) (pf 1) (pf 2) (pf 3) := (cond3_iff _ _ _ _).mpr hc2
      | have hc3 : ¬ cond3At c i (pf 0) (pf 1) (pf 2) (pf 3) := fun h => (cond3_iff _ _ _ _).mp h hc2
    simp only [cc1__pair_kernel_eq_skeleton]; unfold cc1__pair_kernel_skel
    iintro ⟨H0, H1, H2, H3, H4, H5, ⟨HT0, HT1, HT2, HT3⟩, Hk⟩
    sl_exec (disch := first | exact hc1 | exact hc2 | exact hc3)
    sl_step
    iapply Hk
    iframe H0 H1 H2 H3 HT0 HT1 HT2 HT3
    unfold owns
    isplitl [H4] <;> (
      iexists _; isplitr; swap
      first | iexact H4 | iexact H5
      ipureintro
      try refine (read_writes_whole _ _ hz2 _ _ _).trans ?_
      sl_unfold_words
      simp only [View.readAt_eq_ld, View.read_rep, View.ld_unit_zero (S := S2048x64) hz2, View.ld_unit_zero (S := S1024x64) hz2,
        View.ld_unit_zero (S := S2048x1) hz2, View.ld_unit_zero (S := S1x1024) hz2, View.readCov_unit_zero (S := S2048x1) _ hz2]))

/-- At the first point of a row block the step reads neither output; later they hold what the point before left. -/
theorem outsAt1_step (c : Dev nD) (t : Fin (cfgM pf).N) (d4 d5) :
    stepOut pf (grid1.coords t) (iblk1 V pf c 0 t) (iblk1 V pf c 1 t) (iblk1 V pf c 2 t) (iblk1 V pf c 3 t)
      ((dat1 V pf c).before 4 t d4, (dat1 V pf c).before 5 t d5) = outsAt1 V pf c t.val (lt128 pf t) := by
  by_cases h0 : t.val % 16 = 0
  · rw [outsAt1_J0 V pf c t h0]; unfold stepOut base; rw [if_pos ((hcond1 t).mpr h0), if_pos ((hcond1 t).mpr h0)]
  · rw [outsAt1_pos V pf c t fun h => h0 (by rw [h]), (before1_4 V pf c t d4).trans (if_neg h0), (before1_5 V pf c t d5).trans (if_neg h0)]

/-- Where nothing is stored into the first output, the step leaves its first component as found. -/
theorem leave4 (c : Dev nD) (t : Fin (cfgM pf).N) :
    owns c.tc (ms1_4 (adm pf) t) fullShare (outsAt1 V pf c t.val (lt128 pf t)).1 ⊢ ((dat1 V pf c).leavesExact 4 t : sProp 𝕄) := by
  unfold Dat.leavesExact
  split
  · rename_i hi
    split
    · obtain ⟨h1, h2⟩ := (idle4_iff pf _).mp hi
      have h0 : ¬ t.val % 16 = 0 := fun h => h1 ((hcond1 t).mpr h)
      have e : (dat1 V pf c).before 4 t (fun _ => Classical.arbitrary _) = (outsAt1 V pf c t.val (lt128 pf t)).1 :=
        (before1_4 V pf c t _).trans ((if_neg h0).trans (by rw [outsAt1_C V pf c t h0 h2]))
      iintro H
      iexists (fun _ => Classical.arbitrary _)
      rw [e]
      iexact H
    · rw [after1_4]; exact .rfl
  · rw [after1_4]; exact .rfl

/-- One of the last two conditions holds at every point, so the second output is never idle. -/
theorem leave5 (c : Dev nD) (t : Fin (cfgM pf).N) :
    owns c.tc (ms1_5 (adm pf) t) fullShare (outsAt1 V pf c t.val (lt128 pf t)).2 ⊢ ((dat1 V pf c).leavesExact 5 t : sProp 𝕄) := by
  unfold Dat.leavesExact; rw [idle5_false, after1_5]; exact .rfl

/-- The inputs hold their blocks and the outputs what came before, so the run's one step on is the accumulation at the point. -/
theorem sound_body (c : Dev nD) (t : Fin (cfgM pf).N) :
    iprop((dat1 V pf c).Φ t.castSucc ∗ (dat1 V pf c).owesAt () t.castSucc
      ∗ (∃ d, owns c.tc (ms1_0 (adm pf) t) fullShare ((dat1 V pf c).before 0 t d))
      ∗ (∃ d, owns c.tc (ms1_1 (adm pf) t) fullShare ((dat1 V pf c).before 1 t d))
      ∗ (∃ d, owns c.tc (ms1_2 (adm pf) t) fullShare ((dat1 V pf c).before 2 t d))
      ∗ (∃ d, owns c.tc (ms1_3 (adm pf) t) fullShare ((dat1 V pf c).before 3 t d))
      ∗ (∃ d, owns c.tc (ms1_4 (adm pf) t) fullShare ((dat1 V pf c).before 4 t d))
      ∗ (∃ d, owns c.tc (ms1_5 (adm pf) t) fullShare ((dat1 V pf c).before 5 t d)))
    ⊢ wp frame (wpE (defs₀ (F := F)) Variants.none c none) Set.univ (bodyAt1 (adm pf) t) fun _ =>
      iprop((dat1 V pf c).Φ t.castSucc ∗ (dat1 V pf c).owesAt () t.castSucc
        ∗ owns c.tc (ms1_0 (adm pf) t) fullShare (iblk1 V pf c 0 t)
        ∗ owns c.tc (ms1_1 (adm pf) t) fullShare (iblk1 V pf c 1 t)
        ∗ owns c.tc (ms1_2 (adm pf) t) fullShare (iblk1 V pf c 2 t)
        ∗ owns c.tc (ms1_3 (adm pf) t) fullShare (iblk1 V pf c 3 t)
        ∗ (dat1 V pf c).leavesExact 4 t ∗ (dat1 V pf c).leavesExact 5 t) := by
  unfold bodyAt1
  simp only [before1_0 V pf c t, before1_1 V pf c t, before1_2 V pf c t, before1_3 V pf c t]
  rw [show (dat1 V pf c).Φ t.castSucc = iprop(Pipeline.ΦA spec1 c ∗ Pipeline.prefHeld pre1 c (fun _ => fullShare) pf) from rfl]
  iintro ⟨⟨HΦ, HT⟩, Ho, ⟨%d0, H0⟩, ⟨%d1, H1⟩, ⟨%d2, H2⟩, ⟨%d3, H3⟩, ⟨%d4, H4⟩, ⟨%d5, H5⟩⟩
  iapply (kernelRun1 pf c (iblk1 V pf c 0 t) (iblk1 V pf c 1 t) (iblk1 V pf c 2 t) (iblk1 V pf c 3 t) ((dat1 V pf c).before 4 t d4) ((dat1 V pf c).before 5 t d5))
  iframe H0 H1 H2 H3 H4 H5 HT
  rw [outsAt1_step V pf c t d4 d5]
  iintro ⟨H0, H1, H2, H3, H4, H5, HT⟩
  iframe HΦ HT Ho H0 H1 H2 H3
  isplitl [H4]
  · iapply (leave4 V pf c t); iexact H4
  iapply (leave5 V pf c t); iexact H5

theorem body_obligation1 (c : Dev nD) : BodyObligation (dat1 (F := F) V pf c) (defs₀ (F := F)) Variants.none () Set.univ := fun t => by
  rw [bigSep_W1, bigSep_W1]
  exact sound_body V pf c t

end Cert.Kernel.R1

end
-- ==== Proof.K.Reg0.lean ====
import proofs.«412808_j68015102100189_2_alg».proof.Proof.Gen.Kernel.Launch
import proofs.«412808_j68015102100189_2_alg».proof.Proof.Gen.Kernel.Skeleton
import proofs.«412808_j68015102100189_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x64 := Rect.unit (s := S2048x64) ![0, 0] S2048x64.size inb_S2048x64_S2048x64_0_0
abbrev r0_1 : Rect S2048x1 := Rect.unit (s := S2048x1) ![0, 0] S2048x1.size inb_S2048x1_S2048x1_0_0

def out0_2 (x0 : Vec F S2048x64 .f32) : Vec F S2048x64 .bf16 :=
  View.canon [⟨r0_0, k0_pay2 (View.ld x0 r0_0)⟩]

theorem cover0_2 (p0 : Vec F S2048x64 .bf16) (y : S2048x64.Idx) :
    ∃ pc ∈ ([⟨r0_0, p0⟩] : List (View.Piece (Elt F) S2048x64 .bf16)), y ∈ pc.1.set :=
  View.cover_of_tiled [⟨r0_0, p0⟩] S2048x64.size (by rfl) y

def out0_3 (x0 : Vec F S2048x64 .f32) (x1 : Vec F S2048x1 .i32) : Vec F S2048x1 .f32 :=
  View.canon [⟨r0_1, k0_pay3 (View.ld x0 r0_0) (View.ld x1 r0_1)⟩]

theorem cover0_3 (p0 : Vec F S2048x1 .f32) (y : S2048x1.Idx) :
    ∃ pc ∈ ([⟨r0_1, p0⟩] : List (View.Piece (Elt F) S2048x1 .f32)), y ∈ pc.1.set :=
  View.cover_of_tiled [⟨r0_1, p0⟩] S2048x1.size (by rfl) y

set_option maxHeartbeats 1000000 in

theorem sound_kernel0 (c : Dev nD) (E : Set ℕ) (i : grid0.Coords)
    (arg0 : Memref sig .tc .vmem S2048x64 .f32) (harg0 : arg0.IsWhole) (arg1 : Memref sig .tc .vmem S2048x1 .i32) (harg1 : arg1.IsWhole)
    (arg2 : Memref sig .tc .vmem S2048x64 .bf16) (harg2 : arg2.IsWhole) (arg3 : Memref sig .tc .vmem S2048x1 .f32) (harg3 : arg3.IsWhole)
    (x0 : Vec F S2048x64 .f32) (x1 : Vec F S2048x1 .i32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (out0_2 x0) ∗ owns (c : Thread nD τ) arg3 fullShare (out0_3 x0 x1)) -∗ K ⟨⟩))
      ⊢ wp frame (wpE (defs₀ (F := F)) Variants.none c none) E (cc0__prep_kernel i arg0 harg0 arg1 harg1 arg2 harg2 arg3 harg3) K := by
  simp only [cc0__prep_kernel_eq_skeleton]; unfold cc0__prep_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  iframe H0 H1
  isplitl [H2]; · iexists _; iexact H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

theorem hz0 : (![0, 0] : Fin 2 → Nat) = fun _ => 0 := funext fun a => by fin_cases a <;> rfl

theorem out0_2_eq (x0 : Vec F S2048x64 .f32) : out0_2 x0 = k0_pay2 x0 := by
  unfold out0_2
  rw [View.canon_unit_zero hz0]
  simp only [View.ld_unit_zero (S := S2048x64) hz0]

theorem out0_3_eq (x0 : Vec F S2048x64 .f32) (x1 : Vec F S2048x1 .i32) : out0_3 x0 x1 = k0_pay3 x0 x1 := by
  unfold out0_3
  rw [View.canon_unit_zero hz0]
  simp only [View.ld_unit_zero (S := S2048x64) hz0, View.ld_unit_zero (S := S2048x1) hz0]

end Cert.Kernel.R0

end
-- ==== Proof.K.Outs.lean ====
import proofs.«412808_j68015102100189_2_alg».proof.Proof.Gen.Kernel.Regions
import proofs.«412808_j68015102100189_2_alg».proof.Proof.K.Reg0
import proofs.«412808_j68015102100189_2_alg».proof.Proof.K.Reg1Dat

noncomputable section

namespace Cert.Kernel.Run

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev Vin0 (c : Dev nD) (b : Ref sig .tc) : Buf (Elt F) ((c : Thread nD τ).loc b) := Gen.V2 m c b

def a2 (c : Dev nD) : Buf (Elt F) ((c : Thread nD τ).loc main_v16_0) := (R0.dat0 (Vin0 m) c).arrAt 2 cfg0.N

def a3 (c : Dev nD) : Buf (Elt F) ((c : Thread nD τ).loc main_v16_1) := (R0.dat0 (Vin0 m) c).arrAt 3 cfg0.N
theorem a2_eq (c : Dev nD) : a2 m c = (R0.dat0 (Vin0 m) c).arrAt 2 cfg0.N := rfl
theorem a3_eq (c : Dev nD) : a3 m c = (R0.dat0 (Vin0 m) c).arrAt 3 cfg0.N := rfl

def val3 (c : Dev nD) : Valuation τ sig (Elt F) :=
  Function.update (Function.update (Gen.V2 m c) main_v16_0 (a2 m c)) main_v16_1 (a3 m c)

def outsA : Gen.Outs (F := F) := fun _ r c => val3 m c r

abbrev Vin1 (c : Dev nD) (b : Ref sig .tc) : Buf (Elt F) ((c : Thread nD τ).loc b) := Gen.V4 m (outsA m) c b

def tbl : pre1.Contents (Elt F) := fun j => Vin1 m (0 : Dev nD) (pre1.ref j)

theorem Vin1_pre (c : Dev nD) (j : Fin 4) : Vin1 m c (pre1.ref j) = tbl m j := by
  obtain rfl : c = 0 := Subsingleton.elim _ _; rfl

def a4 (c : Dev nD) : Buf (Elt F) ((c : Thread nD τ).loc main_v28_0) := (R1.dat1 (Vin1 m) (tbl m) c).arrAt 4 (R1.cfgM (tbl m)).N

def a5 (c : Dev nD) : Buf (Elt F) ((c : Thread nD τ).loc main_v28_1) := (R1.dat1 (Vin1 m) (tbl m) c).arrAt 5 (R1.cfgM (tbl m)).N
theorem a4_eq (c : Dev nD) : a4 m c = (R1.dat1 (Vin1 m) (tbl m) c).arrAt 4 (R1.cfgM (tbl m)).N := rfl
theorem a5_eq (c : Dev nD) : a5 m c = (R1.dat1 (Vin1 m) (tbl m) c).arrAt 5 (R1.cfgM (tbl m)).N := rfl

def val5 (c : Dev nD) : Valuation τ sig (Elt F) :=
  Function.update (Function.update (Gen.V4 m (outsA m) c) main_v28_0 (a4 m c)) main_v28_1 (a5 m c)

def outs : Gen.Outs (F := F) := fun J r c => if J = 3 then val3 m c r else val5 m c r

theorem outs3_0 (c : Dev nD) : outs m 3 main_v16_0 c = a2 m c := by
  unfold outs val3; rw [if_pos rfl, Function.update_of_ne (StableHlo.devRef_ne_of_ne (by decide)), Function.update_self]
theorem outs3_1 (c : Dev nD) : outs m 3 main_v16_1 c = a3 m c := by
  unfold outs val3; rw [if_pos rfl, Function.update_self]
theorem V3_outs (c : Dev nD) : Gen.V3 m (outs m) c = val3 m c := by
  unfold Gen.V3; rw [outs3_0, outs3_1]; rfl
theorem V3_outsA (c : Dev nD) : Gen.V3 m (outsA m) c = val3 m c := by
  unfold Gen.V3 outsA val3
  rw [Function.update_of_ne (StableHlo.devRef_ne_of_ne (by decide)), Function.update_self, Function.update_self]
theorem V4_outs (c : Dev nD) : Gen.V4 m (outs m) c = Gen.V4 m (outsA m) c := by
  unfold Gen.V4; rw [V3_outs, V3_outsA]
theorem outs5_0 (c : Dev nD) : outs m 5 main_v28_0 c = a4 m c := by
  unfold outs val5; rw [if_neg (by decide), Function.update_of_ne (StableHlo.devRef_ne_of_ne (by decide)), Function.update_self]
theorem outs5_1 (c : Dev nD) : outs m 5 main_v28_1 c = a5 m c := by
  unfold outs val5; rw [if_neg (by decide), Function.update_self]
theorem V5_outs (c : Dev nD) : Gen.V5 m (outs m) c = val5 m c := by
  unfold Gen.V5; rw [outs5_0, outs5_1, V4_outs]; rfl

end Cert.Kernel.Run

end
-- ==== Proof.K.Launch.lean ====
import proofs.«412808_j68015102100189_2_alg».proof.Proof.K.Reg1
import proofs.«412808_j68015102100189_2_alg».proof.Proof.K.Outs

noncomputable section

namespace Cert.Kernel.Run

open Cert.Kernel Cert.Kernel.Gen
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Pipeline (Dat Cfg)

variable {F : FTy → Type} [FloatOps F]

local notation "𝕄" => MT nD τ sig Unit (Elt F) ℕ (UR sig nD τ) ℕ

theorem not_mem_pair {ι α : Type} [Fintype ι] [DecidableEq α] {f : ι → α} {b : α} (hb : b ∉ Finset.univ.image f) (i j : ι) :
    b ∉ [f i, f j] := fun h => hb (by
  rcases List.mem_pair.mp h with rfl | rfl <;> exact Finset.mem_image_of_mem _ (Finset.mem_univ _))

theorem arrays1_iff (a : (pcfg1 (F := F)).Adm) (c : Dev nD) (dat : Dat τ (Elt F) Unit ℕ (UR sig nD τ) ℕ (cfg1 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg1 a).W) → Buf (Elt F) (((cfg1 a).win w).arr.view.loc (c.tc : Thread nD τ)))
    (hG : ∀ w, G w = V (Pipeline.arrRef spec1 w)) : (dat.arrays G : sProp 𝕄) ⊣⊢ Pipeline.arrBufs spec1 c V := by
  classical
  have hf (w : Fin 6) (r : Ref sig .tc) (hr : Pipeline.arrRef spec1 w = r) {q : PosShare TreeShare} (h : dat.share w = q) :
      (_ ↦[((cfg1 a).win w).arr.view.set]{dat.share w} G w : sProp 𝕄) = ((c.tc : Thread nD τ).loc r ↦{q} V r) := by
    subst hr
    rw [hG w, h]
    show (_ ↦[(spec1 w).arr.view.set]{q} V (Pipeline.arrRef spec1 w) : sProp 𝕄) = _
    rw [(arr_whole1 w).set_eq_univ]
  unfold Dat.arrays Pipeline.arrBufs
  rw [bigSep_W1, show Finset.univ.image (Pipeline.arrRef spec1) = ({main_v16_0, main_v15, main_v27, main_v28_0, main_v28_1} : Finset (Ref sig .tc)) from by decide,
    bigSep_insert (by decide), bigSep_insert (by decide), bigSep_insert (by decide), bigSep_insert (by decide), bigSep_singleton,
    hf 0 main_v16_0 rfl ((if_neg Bool.false_ne_true).trans hq0), hf 1 main_v16_0 rfl ((if_neg Bool.false_ne_true).trans hq1),
    hf 2 main_v15 rfl ((if_neg Bool.false_ne_true).trans hq2), hf 3 main_v27 rfl ((if_neg Bool.false_ne_true).trans hq3),
    hf 4 main_v28_0 rfl (if_pos rfl), hf 5 main_v28_1 rfl (if_pos rfl)]
  exact sep_assoc.symm.trans (sep_congr_left (pointsTo_share (PosShare.mem_left_op_right fullShare)).symm)

theorem entry_of {H A T Z X O O' S Lv : sProp 𝕄} (hs : H ⊢ iprop(A ∗ T ∗ Z)) (ho : O ⊢ O') :
    iprop((H ∗ X ∗ O) ∗ S ∗ Lv) ⊢ |={Set.univ}=> iprop(A ∗ T ∗ O' ∗ X ∗ Z) := by
  iintro ⟨⟨Hh, Hx, Ho⟩, -, -⟩
  icases hs $$ Hh with ⟨Ha, Ht, Hz⟩
  ihave Ho := ho $$ Ho
  imodintro; iframe

theorem exit_of {H A T Z X O O' : sProp 𝕄} (hj : iprop(A ∗ T ∗ Z) ⊢ H) (ho : O' ⊢ O) :
    iprop(A ∗ O' ∗ (X ∗ T) ∗ Z) ⊢ |={Set.univ}=> iprop(H ∗ X ∗ O) := by
  iintro ⟨Ha, Ho, ⟨Hx, Ht⟩, Hz⟩
  ihave Hh := hj $$ [Ha Ht Hz]
  · iframe
  ihave Ho := ho $$ Ho
  imodintro; iframe

section Owes
variable {cfg : Cfg sig Λ₀} {c : Dev nD} (dat : Dat τ (Elt F) Unit ℕ (UR sig nD τ) ℕ cfg c) (t : Fin (cfg.N + 1)) (h0 : dat.owed t = 0)

include h0 in
theorem owes_in (hr : dat.recorded t = Set.univ) :
    iprop(∃ W, owes (c : Thread nD τ) (0 : CellTallies nD τ sig Unit) W) ⊢ (dat.owesAt () t : sProp 𝕄) := by
  unfold Dat.owesAt Pipeline.owesWithin Dat.bound
  rw [h0, hr]
  iintro ⟨%W, HO⟩; iexists W; isplitr; · ipureintro; exact fun _ _ => Or.inl trivial
  iexact HO

include h0 in
theorem owes_out : (dat.owesAt () t : sProp 𝕄) ⊢ iprop(∃ W, owes (c : Thread nD τ) (0 : CellTallies nD τ sig Unit) W) := by
  unfold Dat.owesAt Pipeline.owesWithin
  rw [h0]
  iintro ⟨%W, -, HO⟩; iexists W; iexact HO
end Owes

variable (m : (ℓ : Loc nD τ sig) → Buf (Elt F) ℓ)

def adm : (p : Fin 2) → (pcfgs (F := F) p).Adm
  | ⟨0, _⟩ => cfg0.toPCfg_adm
  | ⟨1, _⟩ => R1.adm (tbl m)

def pdats : (p : Fin 2) → (c : Dev nD) → Dat τ (Elt F) Unit ℕ (UR sig nD τ) ℕ (Pipeline.pin (pcfgs (F := F)) (adm m) p) c
  | ⟨0, _⟩ => fun c => R0.dat0 (Vin0 m) c
  | ⟨1, _⟩ => fun c => R1.dat1 (Vin1 m) (tbl m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev St (V : Dev nD → Valuation τ sig (Elt F)) (c : Dev nD) : sProp 𝕄 :=
  iprop(StableHlo.held (c : Thread nD τ) (Pipeline.ucRefs τ sig) (V c) ∗ R c)

abbrev Vout0 (c : Dev nD) (b : Ref sig .tc) : Buf (Elt F) ((c : Thread nD τ).loc b) := Gen.V3 m (outs m) c b
abbrev Vout1 (c : Dev nD) (b : Ref sig .tc) : Buf (Elt F) ((c : Thread nD τ).loc b) := Gen.V5 m (outs m) c b

theorem hF0 (c : Dev nD) (w : Fin cfg0.W) : (pdats m 0 c).arrAt w cfg0.N = Vout0 m c (Pipeline.arrRef spec0 w) := by
  have hi (w : Fin 4) (hw : (spec0 w).isOut = false) (h : Pipeline.arrRef spec0 w ∉ [main_v16_0, main_v16_1]) :
      (pdats m 0 c).arrAt w cfg0.N = Vout0 m c (Pipeline.arrRef spec0 w) :=
    ((pdats m 0 c).arrAt_in w hw _).trans (Gen.V3_of m (outs m) c _ h).symm
  match w with
  | ⟨0, _⟩ => exact hi 0 rfl (by decide)
  | ⟨1, _⟩ => exact hi 1 rfl (by decide)
  | ⟨2, _⟩ => exact ((congrFun (V3_outs m c) _).trans ((Function.update_of_ne (StableHlo.devRef_ne_of_ne (by decide)) _ _).trans (Function.update_self _ _ _))).symm
  | ⟨3, _⟩ => exact ((congrFun (V3_outs m c) _).trans (Function.update_self _ _ _)).symm

set_option backward.isDefEq.respectTransparency.types false in
def reg0 : Pipeline.RegionSeg _ _ (pdats m) () defs₀ 𝒱₀ L lv 0 where
  win := launch0.win.to₀
  block_pos := (launch0 (F := F)).block_pos
  stage_whole := (launch0 (F := F)).stage_whole
  K := PEmpty
  osem k := k.elim
  ho := Pipeline.OwnSemFacts.none _
  hbody c := (R0.body_obligation0 (Vin0 m) c).loose
  hwaits := Pipeline.hwaits_of_owed_zero _ _ _ _ _ _ _ fun _ _ => rfl
  pre := St (Gen.V2 m)
  post := St (Gen.V3 m (outs m))
  X c := iprop(∃ r, prngReg c r)
  Y c := iprop((∃ r, prngReg c r) ∗ emp)
  Z c := Pipeline.unscopedRest spec0 c (Vin0 m c)
  hentry c := by
    have hs := Pipeline.arrays_of_unscopedBufs (p := 0) _ _ (pdats m) (launch0 (F := F)).win (launch0 (F := F)).arr_whole c
      (Dat.share_full _ fun _ => rfl) (Vin0 m c) fun _ => rfl
    rw [Pipeline.unscopedBufs_held] at hs
    exact entry_of (hs.trans (sep_mono_r emp_sep.2)) (owes_in _ 0 rfl rfl)
  hin c := by
    show (_ : sProp 𝕄) ⊢ iprop(_ ∗ _)
    iintro ⟨Hx, -, Hs⟩; iframe
  hout c := by
    show iprop(_ ∗ _) ⊢ (_ : sProp 𝕄)
    rw [Pipeline.ownSems0_none]; iintro ⟨Hs, Hx⟩; iframe; iempintro
  hexit c := by
    have hj := Pipeline.unscopedBufs_of_arrays (p := 0) _ _ (launch0 (F := F)).win (launch0 (F := F)).arr_whole c (pdats m) (Dat.share_full _ fun _ => rfl)
      (Vin0 m c) (Vout0 m c) _ (hF0 m c) fun b hb => Gen.V3_of m (outs m) c b (not_mem_pair hb 2 3)
    rw [Pipeline.unscopedBufs_held] at hj
    exact exit_of ((sep_mono_r emp_sep.1).trans hj) (owes_out _ _ rfl)

theorem V5_keep (c : Dev nD) (r : Ref sig .tc) (h : r ∉ [main_v28_0, main_v28_1]) : Vout1 m c r = Vin1 m c r :=
  (Gen.V5_of m (outs m) c r h).trans (congrFun (V4_outs m c) _)

theorem hG1 (c : Dev nD) (w : Fin (R1.cfgM (tbl m)).W) : (pdats m 1 c).arrAt w (R1.cfgM (tbl m)).N = Vout1 m c (Pipeline.arrRef spec1 w) := by
  have hi (w : Fin 6) (hw : (spec1 w).isOut = false) (h : Pipeline.arrRef spec1 w ∉ [main_v28_0, main_v28_1]) :
      (pdats m 1 c).arrAt w (R1.cfgM (tbl m)).N = Vout1 m c (Pipeline.arrRef spec1 w) :=
    ((pdats m 1 c).arrAt_in w hw _).trans (V5_keep m c _ h).symm
  match w with
  | ⟨0, _⟩ => exact hi 0 rfl (by decide)
  | ⟨1, _⟩ => exact hi 1 rfl (by decide)
  | ⟨2, _⟩ => exact hi 2 rfl (by decide)
  | ⟨3, _⟩ => exact hi 3 rfl (by decide)
  | ⟨4, _⟩ => exact ((congrFun (V5_outs m c) _).trans ((Function.update_of_ne (StableHlo.devRef_ne_of_ne (by decide)) _ _).trans (Function.update_self _ _ _))).symm
  | ⟨5, _⟩ => exact ((congrFun (V5_outs m c) _).trans (Function.update_self _ _ _)).symm

theorem restP_keep (c : Dev nD) :
    (Pipeline.unscopedRestP pre1 spec1 c (Vout1 m c) : sProp 𝕄) = Pipeline.unscopedRestP pre1 spec1 c (Vin1 m c) := by
  unfold Pipeline.unscopedRestP
  exact bigSep_congr fun b hb => by rw [V5_keep m c b (not_mem_pair (Finset.mem_sdiff.mp (Finset.mem_sdiff.mp hb).1).2 4 5)]

theorem pre_keep (c : Dev nD) : (fun k => Vout1 m c (pre1.ref k)) = tbl m :=
  funext fun k => (V5_keep m c _ ((by decide : ∀ k : Fin 4, pre1.ref k ∉ [main_v28_0, main_v28_1]) k)).trans (Vin1_pre m c k)

theorem pre_in (c : Dev nD) : (fun k => Vin1 m c (pre1.ref k)) = tbl m := funext (Vin1_pre m c)

theorem held_split1 (a : (pcfg1 (F := F)).Adm) (c : Dev nD) (W : Valuation τ sig (Elt F)) :
    (StableHlo.held (c : Thread nD τ) (Pipeline.ucRefs τ sig) W : sProp 𝕄)
      = iprop(Pipeline.arrBufs spec1 c (fun b => W b) ∗ Pipeline.prefHeld pre1 c (fun _ => fullShare) (fun k => W (pre1.ref k))
          ∗ Pipeline.unscopedRestP pre1 spec1 c (fun b => W b)) := by
  rw [← Pipeline.unscopedBufs_held c W,
    Pipeline.unscopedBufs_split₀ (fun _ : Unit => cfg1 a) () winFacts₀1.arr_unscoped c (fun b => W b),
    Pipeline.unscopedRest_split preFacts1 c (fun b => W b)]

set_option backward.isDefEq.respectTransparency.types false in
def reg1 : Pipeline.RegionSeg _ _ (pdats m) () defs₀ 𝒱₀ L lv 1 where
  win := winFacts₀1
  block_pos := block_pos1
  stage_whole := stage_whole1
  K := PEmpty
  osem k := k.elim
  ho := Pipeline.OwnSemFacts.none _
  hbody c := (R1.body_obligation1 (Vin1 m) (tbl m) c).loose
  hwaits := Pipeline.hwaits_of_owed_zero _ _ _ _ _ _ _ fun _ _ => rfl
  pre := St (Gen.V4 m (outs m))
  post := St (Gen.V5 m (outs m))
  X c := iprop(∃ r, prngReg c r)
  Y c := iprop((∃ r, prngReg c r) ∗ Pipeline.prefHeld pre1 c (fun _ => fullShare) (tbl m))
  Z c := Pipeline.unscopedRestP pre1 spec1 c (Vin1 m c)
  hentry c := entry_of (by
      rw [V4_outs, held_split1 (adm m 1) c (Gen.V4 m (outsA m) c), pre_in m c]
      exact sep_mono_l (arrays1_iff (adm m 1) c (pdats m 1 c) rfl rfl rfl rfl (Vin1 m c) _ fun _ => rfl).2)
    (owes_in _ 0 rfl rfl)
  hin c := by
    show (_ : sProp 𝕄) ⊢ iprop((_ ∗ _) ∗ _)
    iintro ⟨Hx, Ht, Hs⟩; iframe; iexact Ht
  hout c := by
    show iprop((_ ∗ _) ∗ _) ⊢ (_ : sProp 𝕄)
    rw [Pipeline.ownSems0_none]; iintro ⟨⟨Hs, Hx⟩, Ht⟩; iframe; iempintro
  hexit c := exit_of (by
      rw [held_split1 (adm m 1) c (Gen.V5 m (outs m) c), pre_keep m c, restP_keep m c]
      exact sep_mono_l (arrays1_iff (adm m 1) c (pdats m 1 c) rfl rfl rfl rfl (Vout1 m c) _ (hG1 m c)).1)
    (owes_out _ _ rfl)

variable (ρ : Dev nD → PrngReg)

theorem hu₀ (u : UR sig nD τ) : (ownU u : sProp 𝕄)
    ⊢ |={Set.univ}=> iprop(BI.own (emb₁ u) ∗ bigSep Finset.univ fun _ : Dev nD => (iprop(emp) : sProp 𝕄)) := by
  rw [ownU_emb₁, show (bigSep Finset.univ fun _ : Dev nD => (iprop(emp) : sProp 𝕄)) = BI.emp from BI.bigSep_emp_const _]
  iintro Hu; imodintro
  isplitl [Hu]; · iexact Hu
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : (R c : sProp 𝕄) ⊢ (iprop(∃ W, owes (c : Thread nD τ) (0 : CellTallies nD τ sig Unit) W) : sProp 𝕄) := by
  iintro ⟨-, HO⟩; iexact HO

set_option backward.isDefEq.respectTransparency.types false in
/-- Run from zero counters, the main function terminates under weak fairness, never faults, and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () 𝒱₀ L lv (fun _ _ => rfl) ρ (outs m) (adm m) (pdats m) 0 (fun _ => iprop(emp)) _ (hu₀ _)
    (fun _ c => R c) (hE0 ρ) hE2 (reg0 m) (fun _ => .rfl) (fun _ => .rfl) (reg1 m) (fun _ => .rfl) (fun _ => .rfl)

end Cert.Kernel.Run

end
-- ==== Proof.KI.Reg1Pts.lean ====
import proofs.«412808_j68015102100189_2_alg».proof.Proof.Gen.KernelIdeal.Launch
import proofs.«412808_j68015102100189_2_alg».proof.Proof.Gen.KernelIdeal.Skeleton
import proofs.«412808_j68015102100189_2_alg».proof.Proof.Gen.KernelIdeal.Points
import Idealize.ShloMosaic.Lib.Pipeline.FrameBody
import Idealize.ShloMosaic.Lib.Pipeline.TableIdle
import Idealize.ShloMosaic.Lib.Ring
import Idealize.ShloMosaic.Lib.Tactic
import Idealize.ShloMosaic.Lib.Pipeline.Value

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem fetch1_0 (a : (pcfg1 (F := F)).Adm) : ∀ t : Fin (cfg1 a).N, ((cfg1 a).win 0).fetch t = decide (t.val % 16 = 0) :=
  (by decide +kernel : ∀ t : Fin grid1.N, Pipeline.Window.fetchOf grid1 false cc1_transform_0 t = decide (t.val % 16 = 0))

theorem fetch1_1 (a : (pcfg1 (F := F)).Adm) : ∀ t : Fin (cfg1 a).N, ((cfg1 a).win 1).fetch t = true :=
  (by decide +kernel : ∀ t : Fin grid1.N, Pipeline.Window.fetchOf grid1 false cc1_transform_1 t = true)

theorem fetch1_2 (a : (pcfg1 (F := F)).Adm) : ∀ t : Fin (cfg1 a).N, ((cfg1 a).win 2).fetch t = decide (t.val % 16 = 0) :=
  (by decide +kernel : ∀ t : Fin grid1.N, Pipeline.Window.fetchOf grid1 false cc1_transform_2 t = decide (t.val % 16 = 0))

theorem fetch1_3 (a : (pcfg1 (F := F)).Adm) : ∀ t : Fin (cfg1 a).N, ((cfg1 a).win 3).fetch t = true :=
  (by decide +kernel : ∀ t : Fin grid1.N, Pipeline.Window.fetchOf grid1 false cc1_transform_3 t = true)

theorem flush1_4 (a : (pcfg1 (F := F)).Adm) : ∀ t : Fin (cfg1 a).N, ((cfg1 a).win 4).flush t = decide (t.val % 16 = 15) :=
  (by decide +kernel : ∀ t : Fin grid1.N, Pipeline.Window.flushOf grid1 true cc1_transform_4 t = decide (t.val % 16 = 15))

theorem flush1_5 (a : (pcfg1 (F := F)).Adm) : ∀ t : Fin (cfg1 a).N, ((cfg1 a).win 5).flush t = decide (t.val % 16 = 15) :=
  (by decide +kernel : ∀ t : Fin grid1.N, Pipeline.Window.flushOf grid1 true cc1_transform_5 t = decide (t.val % 16 = 15))

theorem hcond1 : ∀ t : Fin grid1.N, k1_cond1 (grid1.coords t) = 1#1 ↔ t.val % 16 = 0 :=
  (by decide +kernel : ∀ t : Fin grid1.N, k1_cond1 (grid1.coords t) = 1#1 ↔ t.val % 16 = 0)

theorem cond3_iff (a b c d : BitVec 32) : k1_cond3 a b c d = 1#1 ↔ ¬ k1_cond2 a b c d = 1#1 := by
  unfold k1_cond3 k1_cond2
  dsimp only
  generalize Scalar.cmpi .slt b c = p
  generalize Scalar.cmpi .slt d a = q
  revert p q
  decide

abbrev tbM0 : Memref sig .tc .smem S8 .i32 := Memref.whole main_v19
abbrev htbM0 : tbM0.IsWhole := Memref.isWhole_whole _
abbrev tbM1 : Memref sig .tc .smem S8 .i32 := Memref.whole main_v21
abbrev htbM1 : tbM1.IsWhole := Memref.isWhole_whole _
abbrev tbM2 : Memref sig .tc .smem S16 .i32 := Memref.whole main_v24
abbrev htbM2 : tbM2.IsWhole := Memref.isWhole_whole _
abbrev tbM3 : Memref sig .tc .smem S16 .i32 := Memref.whole main_v26
abbrev htbM3 : tbM3.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

abbrev wdI (c : Dev nD) (i : grid1.Coords) (M : Memref sig .tc .smem S8 .i32) (xt : TbBuf (F := F) c M) : Elt F .i32 :=
  M.view.readAt (Elt F) (Rect.unit (s := S8) (k1_off1 i) S1.size (k1_off1_inb i)).toLoadRect xt (Shape.Idx.first (numel1_S1.symm ▸ Nat.one_pos))
abbrev wdJ (c : Dev nD) (i : grid1.Coords) (M : Memref sig .tc .smem S16 .i32) (xt : TbBuf (F := F) c M) : Elt F .i32 :=
  M.view.readAt (Elt F) (Rect.unit (s := S16) (k1_off2 i) S1.size (k1_off2_inb i)).toLoadRect xt (Shape.Idx.first (numel1_S1.symm ▸ Nat.one_pos))

abbrev cond2At (c : Dev nD) (i : grid1.Coords) (xt0 : TbBuf (F := F) c tbM0) (xt1 : TbBuf (F := F) c tbM1) (xt2 : TbBuf (F := F) c tbM2) (xt3 : TbBuf (F := F) c tbM3) : Prop :=
  k1_cond2 (wdI c i tbM0 xt0) (wdI c i tbM1 xt1) (wdJ c i tbM2 xt2) (wdJ c i tbM3 xt3) = 1#1
abbrev cond3At (c : Dev nD) (i : grid1.Coords) (xt0 : TbBuf (F := F) c tbM0) (xt1 : TbBuf (F := F) c tbM1) (xt2 : TbBuf (F := F) c tbM2) (xt3 : TbBuf (F := F) c tbM3) : Prop :=
  k1_cond3 (wdI c i tbM0 xt0) (wdI c i tbM1 xt1) (wdJ c i tbM2 xt2) (wdJ c i tbM3 xt3) = 1#1

abbrev ms1_0 (a : (pcfg1 (F := F)).Adm) (t : Fin (cfg1 a).N) : Memref sig .tc .vmem S2048x64 .bf16 := spec1_0.stage ((cfg1 a).slots t 0)
abbrev hs1_0 (a : (pcfg1 (F := F)).Adm) (t : Fin (cfg1 a).N) : (ms1_0 a t).IsWhole := hstage1_0 (((cfg1 a).slots t 0).cast nbuf1_0)
abbrev ms1_1 (a : (pcfg1 (F := F)).Adm) (t : Fin (cfg1 a).N) : Memref sig .tc .vmem S1024x64 .bf16 := spec1_1.stage ((cfg1 a).slots t 1)
abbrev hs1_1 (a : (pcfg1 (F := F)).Adm) (t : Fin (cfg1 a).N) : (ms1_1 a t).IsWhole := hstage1_1 (((cfg1 a).slots t 1).cast nbuf1_1)
abbrev ms1_2 (a : (pcfg1 (F := F)).Adm) (t : Fin (cfg1 a).N) : Memref sig .tc .vmem S2048x1 .i32 := spec1_2.stage ((cfg1 a).slots t 2)
abbrev hs1_2 (a : (pcfg1 (F := F)).Adm) (t : Fin (cfg1 a).N) : (ms1_2 a t).IsWhole := hstage1_2 (((cfg1 a).slots t 2).cast nbuf1_2)
abbrev ms1_3 (a : (pcfg1 (F := F)).Adm) (t : Fin (cfg1 a).N) : Memref sig .tc .vmem S1x1024 .i32 := spec1_3.stage ((cfg1 a).slots t 3)
abbrev hs1_3 (a : (pcfg1 (F := F)).Adm) (t : Fin (cfg1 a).N) : (ms1_3 a t).IsWhole := hstage1_3 (((cfg1 a).slots t 3).cast nbuf1_3)
abbrev ms1_4 (a : (pcfg1 (F := F)).Adm) (t : Fin (cfg1 a).N) : Memref sig .tc .vmem S2048x1 .f32 := spec1_4.stage ((cfg1 a).slots t 4)
abbrev hs1_4 (a : (pcfg1 (F := F)).Adm) (t : Fin (cfg1 a).N) : (ms1_4 a t).IsWhole := hstage1_4 (((cfg1 a).slots t 4).cast nbuf1_4)
abbrev ms1_5 (a : (pcfg1 (F := F)).Adm) (t : Fin (cfg1 a).N) : Memref sig .tc .vmem S2048x1 .f32 := spec1_5.stage ((cfg1 a).slots t 5)
abbrev hs1_5 (a : (pcfg1 (F := F)).Adm) (t : Fin (cfg1 a).N) : (ms1_5 a t).IsWhole := hstage1_5 (((cfg1 a).slots t 5).cast nbuf1_5)

abbrev bodyAt1 (a : (pcfg1 (F := F)).Adm) (t : Fin (cfg1 a).N) : Prog (TpuEff nD τ sig (Elt F) Λ₀ .tc) PUnit :=
  cc1__pair_kernel (grid1.coords t) tbM0 htbM0 tbM1 htbM1 tbM2 htbM2 tbM3 htbM3 (ms1_0 a t) (hs1_0 a t) (ms1_1 a t) (hs1_1 a t) (ms1_2 a t) (hs1_2 a t) (ms1_3 a t) (hs1_3 a t) (ms1_4 a t) (hs1_4 a t) (ms1_5 a t) (hs1_5 a t)

theorem bodyAt1_eq (a : (pcfg1 (F := F)).Adm) (t : Fin (cfg1 a).N) :
    defs₀ (F := F) .tc (cfg1 a).body ((cfg1 a).bodyArgs t ((cfg1 a).slots t)) = bodyAt1 a t := rfl

theorem hz2 : (![0, 0] : Fin 2 → Nat) = fun _ => 0 := by funext a; fin_cases a <;> rfl

theorem read_writes_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

end Cert.KernelIdeal.R1

end
-- ==== Proof.KI.Reg1Dat.lean ====
import proofs.«412808_j68015102100189_2_alg».proof.Proof.KI.Reg1Pts

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b)) (pf : pre1.Contents (Elt F))

abbrev adm : (pcfg1 (F := F)).Adm := ⟨pf, trivial⟩
abbrev cfgM : Pipeline.Cfg sig Λ₀ := cfg1 (adm pf)

theorem N_M : (cfgM pf).N = 128 := N_1

def iblk1 (c : Dev nD) (w : Fin (cfgM pf).W) (t : Fin (cfgM pf).N) : (((cfgM pf).win w).xblock ((cfgM pf).grid.coords t)).Idx → Elt F ((cfgM pf).win w).elt :=
  (((cfgM pf).win w).blk t).view.read (Elt F) (V c (Pipeline.arrRef spec1 w))

abbrev c2 (i : grid1.Coords) : Prop :=
  k1_cond2 (pf.atD 0 (k1_off1 i)) (pf.atD 1 (k1_off1 i)) (pf.atD 2 (k1_off2 i)) (pf.atD 3 (k1_off2 i)) = 1#1

def base (i : grid1.Coords) (prev : Vec F S2048x1 .f32 × Vec F S2048x1 .f32) : Vec F S2048x1 .f32 × Vec F S2048x1 .f32 :=
  if k1_cond1 i = 1#1 then (k1_pay1, k1_pay2) else prev

def stepOut (i : grid1.Coords) (xi : Vec F S2048x64 .bf16) (xj : Vec F S1024x64 .bf16) (ti : Vec F S2048x1 .i32) (tj : Vec F S1x1024 .i32)
    (prev : Vec F S2048x1 .f32 × Vec F S2048x1 .f32) : Vec F S2048x1 .f32 × Vec F S2048x1 .f32 :=
  if c2 pf i then ((base i prev).1, k1_pay4 xi xj (base i prev).2)
  else (k1_pay6 xi xj ti tj (base i prev).1, k1_pay7 xi xj ti tj (base i prev).2)

abbrev pt (n : ℕ) (hn : n < 128) : Fin (cfgM pf).N := ⟨n, lt_of_lt_of_eq hn (N_M pf).symm⟩

def outsAt1 (c : Dev nD) : (n : ℕ) → n < 128 → Vec F S2048x1 .f32 × Vec F S2048x1 .f32
  | 0, hn => stepOut pf (grid1.coords (pt pf 0 hn)) (iblk1 V pf c 0 (pt pf 0 hn)) (iblk1 V pf c 1 (pt pf 0 hn)) (iblk1 V pf c 2 (pt pf 0 hn)) (iblk1 V pf c 3 (pt pf 0 hn)) (k1_pay1, k1_pay2)
  | n + 1, hn => stepOut pf (grid1.coords (pt pf (n + 1) hn)) (iblk1 V pf c 0 (pt pf (n + 1) hn)) (iblk1 V pf c 1 (pt pf (n + 1) hn)) (iblk1 V pf c 2 (pt pf (n + 1) hn)) (iblk1 V pf c 3 (pt pf (n + 1) hn))
      (outsAt1 c n (Nat.lt_of_succ_lt hn))

theorem lt128 (t : Fin (cfgM pf).N) : t.val < 128 := lt_of_lt_of_eq t.isLt (N_M pf)
theorem pred_lt128 (t : Fin (cfgM pf).N) : t.val - 1 < 128 := Nat.lt_of_le_of_lt (Nat.sub_le _ _) (lt128 pf t)

theorem outsAt1_J0 (c : Dev nD) (t : Fin (cfgM pf).N) (h0 : t.val % 16 = 0) :
    outsAt1 V pf c t.val (lt128 pf t) = stepOut pf (grid1.coords t) (iblk1 V pf c 0 t) (iblk1 V pf c 1 t) (iblk1 V pf c 2 t) (iblk1 V pf c 3 t) (k1_pay1, k1_pay2) := by
  have h1 : k1_cond1 (grid1.coords t) = 1#1 := (hcond1 t).mpr h0
  obtain ⟨n, hn⟩ := t
  cases n with
  | zero => rfl
  | succ n =>
    show stepOut pf _ _ _ _ _ _ = stepOut pf _ _ _ _ _ _
    unfold stepOut base
    rw [if_pos h1, if_pos h1]

theorem outsAt1_pos (c : Dev nD) (t : Fin (cfgM pf).N) (h0 : t.val ≠ 0) :
    outsAt1 V pf c t.val (lt128 pf t) = stepOut pf (grid1.coords t) (iblk1 V pf c 0 t) (iblk1 V pf c 1 t) (iblk1 V pf c 2 t) (iblk1 V pf c 3 t)
      (outsAt1 V pf c (t.val - 1) (pred_lt128 pf t)) := by
  obtain ⟨n, hn⟩ := t
  cases n with
  | zero => exact absurd rfl h0
  | succ n => rfl

theorem outsAt1_C (c : Dev nD) (t : Fin (cfgM pf).N) (h0 : ¬ t.val % 16 = 0) (h2 : c2 pf (grid1.coords t)) :
    outsAt1 V pf c t.val (lt128 pf t) = ((outsAt1 V pf c (t.val - 1) (pred_lt128 pf t)).1,
      k1_pay4 (iblk1 V pf c 0 t) (iblk1 V pf c 1 t) (outsAt1 V pf c (t.val - 1) (pred_lt128 pf t)).2) := by
  rw [outsAt1_pos V pf c t (fun h => h0 (by rw [h]))]; unfold stepOut base
  rw [if_neg (fun h => h0 ((hcond1 t).mp h)), if_pos h2]
def dat1 (c : Dev nD) : Dat τ (Elt F) Unit ℕ (UR sig nD τ) ℕ (cfgM pf) c where
  A w := V c (Pipeline.arrRef spec1 w)
  after w t := match w with
    | ⟨0, _⟩ => iblk1 V pf c 0 t
    | ⟨1, _⟩ => iblk1 V pf c 1 t
    | ⟨2, _⟩ => iblk1 V pf c 2 t
    | ⟨3, _⟩ => iblk1 V pf c 3 t
    | ⟨4, _⟩ => (outsAt1 V pf c t.val (lt128 pf t)).1
    | ⟨5, _⟩ => (outsAt1 V pf c t.val (lt128 pf t)).2
  Φ _ := iprop(Pipeline.ΦA spec1 c ∗ Pipeline.prefHeld pre1 c (fun _ => fullShare) pf)
  q := fun | ⟨0, _⟩ => fullShare.left | ⟨1, _⟩ => fullShare.right | _ => fullShare
  owed _ := 0

theorem A_eq1 (c : Dev nD) (w : Fin (cfgM pf).W) : (dat1 V pf c).A w = V c (Pipeline.arrRef spec1 w) := by
  dsimp only [dat1]

theorem after1_0 (c : Dev nD) (t : Fin (cfgM pf).N) : (dat1 V pf c).after 0 t = iblk1 V pf c 0 t := by dsimp only [dat1]; try rfl
theorem after1_1 (c : Dev nD) (t : Fin (cfgM pf).N) : (dat1 V pf c).after 1 t = iblk1 V pf c 1 t := by dsimp only [dat1]; try rfl
theorem after1_2 (c : Dev nD) (t : Fin (cfgM pf).N) : (dat1 V pf c).after 2 t = iblk1 V pf c 2 t := by dsimp only [dat1]; try rfl
theorem after1_3 (c : Dev nD) (t : Fin (cfgM pf).N) : (dat1 V pf c).after 3 t = iblk1 V pf c 3 t := by dsimp only [dat1]; try rfl
theorem after1_4 (c : Dev nD) (t : Fin (cfgM pf).N) : (dat1 V pf c).after 4 t = (outsAt1 V pf c t.val (lt128 pf t)).1 := by dsimp only [dat1]; try rfl
theorem after1_5 (c : Dev nD) (t : Fin (cfgM pf).N) : (dat1 V pf c).after 5 t = (outsAt1 V pf c t.val (lt128 pf t)).2 := by dsimp only [dat1]; try rfl

theorem before1_0 (c : Dev nD) (t : Fin (cfgM pf).N) (d) : (dat1 V pf c).before 0 t d = iblk1 V pf c 0 t :=
  ((dat1 V pf c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin (cfgM pf).N) (d) : (dat1 V pf c).before 1 t d = iblk1 V pf c 1 t :=
  ((dat1 V pf c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin (cfgM pf).N) (d) : (dat1 V pf c).before 2 t d = iblk1 V pf c 2 t :=
  ((dat1 V pf c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin (cfgM pf).N) (d) : (dat1 V pf c).before 3 t d = iblk1 V pf c 3 t :=
  ((dat1 V pf c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem idle4_eq (i : grid1.Coords) : (cfgM pf).idle 4 i
    = (!(k1_cond1 i == 1#1) && !(k1_cond3 (pf.atD 0 (k1_off1 i)) (pf.atD 1 (k1_off1 i)) (pf.atD 2 (k1_off2 i)) (pf.atD 3 (k1_off2 i)) == 1#1)) := rfl
theorem idle5_eq (i : grid1.Coords) : (cfgM pf).idle 5 i
    = (!(k1_cond1 i == 1#1) && !(k1_cond2 (pf.atD 0 (k1_off1 i)) (pf.atD 1 (k1_off1 i)) (pf.atD 2 (k1_off2 i)) (pf.atD 3 (k1_off2 i)) == 1#1)
        && !(k1_cond3 (pf.atD 0 (k1_off1 i)) (pf.atD 1 (k1_off1 i)) (pf.atD 2 (k1_off2 i)) (pf.atD 3 (k1_off2 i)) == 1#1)) := rfl

theorem idle4_iff (i : grid1.Coords) : (cfgM pf).idle 4 i = true ↔ (¬ k1_cond1 i = 1#1 ∧ c2 pf i) := by
  rw [idle4_eq]
  simp only [Bool.and_eq_true, Bool.not_eq_eq_eq_not, Bool.not_true, beq_eq_false_iff_ne, ne_eq]
  exact and_congr_right fun _ => (not_congr (cond3_iff _ _ _ _)).trans Classical.not_not

theorem idle5_false (i : grid1.Coords) : (cfgM pf).idle 5 i = false := by
  rw [idle5_eq]
  by_cases h2 : k1_cond2 (pf.atD 0 (k1_off1 i)) (pf.atD 1 (k1_off1 i)) (pf.atD 2 (k1_off2 i)) (pf.atD 3 (k1_off2 i)) = 1#1
  · simp only [h2, beq_self_eq_true, Bool.not_true, Bool.and_false, Bool.false_and]
  · have h3 := (cond3_iff _ _ _ _).mpr h2
    simp only [h3, beq_self_eq_true, Bool.not_true, Bool.and_false]

theorem fresh4 (n : ℕ) (hn : n ≤ 128) : (cfgM pf).fresh 4 n = decide (n % 16 = 0) :=
  (cfgM pf).fresh_tab 4 (fun n => decide (n % 16 = 0)) (by decide) (fun t => by
    have hN := lt128 pf t
    rw [flush1_4 (adm pf) t]
    by_cases h0 : t.val % 16 = 0
    · have hi : (cfgM pf).idle 4 ((cfgM pf).grid.coords t) = false := by
        rw [Bool.eq_false_iff]; intro h; exact ((idle4_iff pf _).mp h).1 ((hcond1 t).mpr h0)
      rw [hi]; simp only [Bool.false_and, Bool.or_false, decide_eq_decide]; omega
    · simp only [h0, decide_false, Bool.and_false, Bool.or_false, decide_eq_decide]; omega) n (by rw [N_M]; exact hn)
theorem fresh5 (n : ℕ) (hn : n ≤ 128) : (cfgM pf).fresh 5 n = decide (n % 16 = 0) :=
  (cfgM pf).fresh_tab 5 (fun n => decide (n % 16 = 0)) (by decide) (fun t => by
    have hN := lt128 pf t
    rw [flush1_5 (adm pf) t, idle5_false]
    simp only [Bool.false_and, Bool.or_false, decide_eq_decide]; omega) n (by rw [N_M]; exact hn)

theorem before1_4 (c : Dev nD) (t : Fin (cfgM pf).N) (d) :
    (dat1 V pf c).before 4 t d = if t.val % 16 = 0 then d else (outsAt1 V pf c (t.val - 1) (pred_lt128 pf t)).1 := by
  rw [Pipeline.Dat.before_out_traj (dat1 V pf c) 4 rfl (fun _ _ => rfl) (fun u hu hi _ => by
      rw [after1_4, after1_4]
      obtain ⟨h1, h2⟩ := (idle4_iff pf _).mp hi
      rw [outsAt1_C V pf c u (fun h => h1 ((hcond1 u).mpr h)) h2]) t.val t rfl d,
    fresh4 pf t.val (le_of_lt (lt128 pf t)), after1_4]
  simp only [decide_eq_true_eq]
theorem before1_5 (c : Dev nD) (t : Fin (cfgM pf).N) (d) :
    (dat1 V pf c).before 5 t d = if t.val % 16 = 0 then d else (outsAt1 V pf c (t.val - 1) (pred_lt128 pf t)).2 := by
  rw [Pipeline.Dat.before_out_traj (dat1 V pf c) 5 rfl (fun _ _ => rfl) (fun u hu hi _ => by
      rw [idle5_false] at hi; exact absurd hi Bool.false_ne_true) t.val t rfl d,
    fresh5 pf t.val (le_of_lt (lt128 pf t)), after1_5]
  simp only [decide_eq_true_eq]

end Cert.KernelIdeal.R1

end
-- ==== Proof.KI.Reg1.lean ====
import proofs.«412808_j68015102100189_2_alg».proof.Proof.KI.Reg1Dat

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b)) (pf : pre1.Contents (Elt F))

theorem off1_lt (i : grid1.Coords) : ∀ a, k1_off1 i a + 1 ≤ S8.size a := fun a => by
  have := k1_off1_inb i a; revert this; fin_cases a; exact id
theorem off2_lt (i : grid1.Coords) : ∀ a, k1_off2 i a + 1 ≤ S16.size a := fun a => by
  have := k1_off2_inb i a; revert this; fin_cases a; exact id

/-- The unit rectangle at an offset has the offset as its one index, so each loaded word is the table's element there. -/
theorem wd_eq (c : Dev nD) (i : grid1.Coords) :
    wdI c i tbM0 (pf 0) = pf.atD 0 (k1_off1 i) ∧ wdI c i tbM1 (pf 1) = pf.atD 1 (k1_off1 i)
      ∧ wdJ c i tbM2 (pf 2) = pf.atD 2 (k1_off2 i) ∧ wdJ c i tbM3 (pf 3) = pf.atD 3 (k1_off2 i) := by
  refine ⟨?_, ?_, ?_, ?_⟩ <;>
    refine Eq.trans ?_ (dif_pos (by first | exact off1_lt i | exact off2_lt i)).symm <;>
    refine congrArg (pf _) (funext fun a => Fin.ext ?_) <;> fin_cases a <;> rfl

/-- Hence the second condition over the tables' elements is the one over the loaded words. -/
theorem c2_iff (c : Dev nD) (i : grid1.Coords) : c2 pf i ↔ cond2At c i (pf 0) (pf 1) (pf 2) (pf 3) := by
  obtain ⟨h0, h1, h2, h3⟩ := wd_eq pf c i
  unfold c2 cond2At; rw [h0, h1, h2, h3]

theorem PhiT1_eq (c : Dev nD) : (Pipeline.prefHeld pre1 c (fun _ => fullShare) pf : sProp 𝕄)
    = iprop(tbPt c tbM0 (pf 0) ∗ tbPt c tbM1 (pf 1) ∗ tbPt c tbM2 (pf 2) ∗ tbPt c tbM3 (pf 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- Whichever way the three conditions fall, the stores that happen leave the two outputs one step of the accumulation on. -/
theorem kernelRun1 (c : Dev nD) {i : grid1.Coords}
    {arg6 : Memref sig .tc .vmem S2048x64 .bf16} {harg6 : arg6.IsWhole} {arg7 : Memref sig .tc .vmem S1024x64 .bf16} {harg7 : arg7.IsWhole}
    {arg8 : Memref sig .tc .vmem S2048x1 .i32} {harg8 : arg8.IsWhole} {arg9 : Memref sig .tc .vmem S1x1024 .i32} {harg9 : arg9.IsWhole}
    {arg10 : Memref sig .tc .vmem S2048x1 .f32} {harg10 : arg10.IsWhole} {arg11 : Memref sig .tc .vmem S2048x1 .f32} {harg11 : arg11.IsWhole}
    (x0 : Vec F S2048x64 .bf16) (x1 : Vec F S1024x64 .bf16) (x2 : Vec F S2048x1 .i32) (x3 : Vec F S1x1024 .i32) (xo4 xo5 : Vec F S2048x1 .f32)
    {E : Set ℕ} {K : PUnit → sProp 𝕄} :
    iprop(owns c.tc arg6 fullShare x0 ∗ owns c.tc arg7 fullShare x1 ∗ owns c.tc arg8 fullShare x2 ∗ owns c.tc arg9 fullShare x3
        ∗ owns c.tc arg10 fullShare xo4 ∗ owns c.tc arg11 fullShare xo5
        ∗ Pipeline.prefHeld pre1 c (fun _ => fullShare) pf
        ∗ (iprop(owns c.tc arg6 fullShare x0 ∗ owns c.tc arg7 fullShare x1 ∗ owns c.tc arg8 fullShare x2 ∗ owns c.tc arg9 fullShare x3
            ∗ owns c.tc arg10 fullShare (stepOut pf i x0 x1 x2 x3 (xo4, xo5)).1
            ∗ owns c.tc arg11 fullShare (stepOut pf i x0 x1 x2 x3 (xo4, xo5)).2
            ∗ Pipeline.prefHeld pre1 c (fun _ => fullShare) pf) -∗ K ⟨⟩))
      ⊢ wp frame (wpE (defs₀ (F := F)) Variants.none c none) E (cc1__pair_kernel i tbM0 htbM0 tbM1 htbM1 tbM2 htbM2 tbM3 htbM3 arg6 harg6 arg7 harg7 arg8 harg8 arg9 harg9 arg10 harg10 arg11 harg11) K := by
  rw [PhiT1_eq, owns_eq_rep c.tc arg6, owns_eq_rep c.tc arg7, owns_eq_rep c.tc arg8, owns_eq_rep c.tc arg9, owns_eq_rep c.tc arg10 _ xo4, owns_eq_rep c.tc arg11 _ xo5]
  unfold stepOut base
  by_cases hc1 : k1_cond1 i = 1#1 <;> by_cases hc2 : c2 pf i <;> (
    first | rw [if_pos hc1] | rw [if_neg hc1]
    first | rw [if_pos hc2] | rw [if_neg hc2]
    dsimp only
    rw [c2_iff pf c i] at hc2
    first
      | have hc3 : cond3At c i (pf 0) (pf 1) (pf 2) (pf 3) := (cond3_iff _ _ _ _).mpr hc2
      | have hc3 : ¬ cond3At c i (pf 0) (pf 1) (pf 2) (pf 3) := fun h => (cond3_iff _ _ _ _).mp h hc2
    simp only [cc1__pair_kernel_eq_skeleton]; unfold cc1__pair_kernel_skel
    iintro ⟨H0, H1, H2, H3, H4, H5, ⟨HT0, HT1, HT2, HT3⟩, Hk⟩
    sl_exec (disch := first | exact hc1 | exact hc2 | exact hc3)
    sl_step
    iapply Hk
    iframe H0 H1 H2 H3 HT0 HT1 HT2 HT3
    unfold owns
    isplitl [H4] <;> (
      iexists _; isplitr; swap
      first | iexact H4 | iexact H5
      ipureintro
      try refine (read_writes_whole _ _ hz2 _ _ _).trans ?_
      sl_unfold_words
      simp only [View.readAt_eq_ld, View.read_rep, View.ld_unit_zero (S := S2048x64) hz2, View.ld_unit_zero (S := S1024x64) hz2,
        View.ld_unit_zero (S := S2048x1) hz2, View.ld_unit_zero (S := S1x1024) hz2, View.readCov_unit_zero (S := S2048x1) _ hz2]))

/-- At the first point of a row block the step reads neither output; later they hold what the point before left. -/
theorem outsAt1_step (c : Dev nD) (t : Fin (cfgM pf).N) (d4 d5) :
    stepOut pf (grid1.coords t) (iblk1 V pf c 0 t) (iblk1 V pf c 1 t) (iblk1 V pf c 2 t) (iblk1 V pf c 3 t)
      ((dat1 V pf c).before 4 t d4, (dat1 V pf c).before 5 t d5) = outsAt1 V pf c t.val (lt128 pf t) := by
  by_cases h0 : t.val % 16 = 0
  · rw [outsAt1_J0 V pf c t h0]; unfold stepOut base; rw [if_pos ((hcond1 t).mpr h0), if_pos ((hcond1 t).mpr h0)]
  · rw [outsAt1_pos V pf c t fun h => h0 (by rw [h]), (before1_4 V pf c t d4).trans (if_neg h0), (before1_5 V pf c t d5).trans (if_neg h0)]

/-- Where nothing is stored into the first output, the step leaves its first component as found. -/
theorem leave4 (c : Dev nD) (t : Fin (cfgM pf).N) :
    owns c.tc (ms1_4 (adm pf) t) fullShare (outsAt1 V pf c t.val (lt128 pf t)).1 ⊢ ((dat1 V pf c).leavesExact 4 t : sProp 𝕄) := by
  unfold Dat.leavesExact
  split
  · rename_i hi
    split
    · obtain ⟨h1, h2⟩ := (idle4_iff pf _).mp hi
      have h0 : ¬ t.val % 16 = 0 := fun h => h1 ((hcond1 t).mpr h)
      have e : (dat1 V pf c).before 4 t (fun _ => Classical.arbitrary _) = (outsAt1 V pf c t.val (lt128 pf t)).1 :=
        (before1_4 V pf c t _).trans ((if_neg h0).trans (by rw [outsAt1_C V pf c t h0 h2]))
      iintro H
      iexists (fun _ => Classical.arbitrary _)
      rw [e]
      iexact H
    · rw [after1_4]; exact .rfl
  · rw [after1_4]; exact .rfl

/-- One of the last two conditions holds at every point, so the second output is never idle. -/
theorem leave5 (c : Dev nD) (t : Fin (cfgM pf).N) :
    owns c.tc (ms1_5 (adm pf) t) fullShare (outsAt1 V pf c t.val (lt128 pf t)).2 ⊢ ((dat1 V pf c).leavesExact 5 t : sProp 𝕄) := by
  unfold Dat.leavesExact; rw [idle5_false, after1_5]; exact .rfl

/-- The inputs hold their blocks and the outputs what came before, so the run's one step on is the accumulation at the point. -/
theorem sound_body (c : Dev nD) (t : Fin (cfgM pf).N) :
    iprop((dat1 V pf c).Φ t.castSucc ∗ (dat1 V pf c).owesAt () t.castSucc
      ∗ (∃ d, owns c.tc (ms1_0 (adm pf) t) fullShare ((dat1 V pf c).before 0 t d))
      ∗ (∃ d, owns c.tc (ms1_1 (adm pf) t) fullShare ((dat1 V pf c).before 1 t d))
      ∗ (∃ d, owns c.tc (ms1_2 (adm pf) t) fullShare ((dat1 V pf c).before 2 t d))
      ∗ (∃ d, owns c.tc (ms1_3 (adm pf) t) fullShare ((dat1 V pf c).before 3 t d))
      ∗ (∃ d, owns c.tc (ms1_4 (adm pf) t) fullShare ((dat1 V pf c).before 4 t d))
      ∗ (∃ d, owns c.tc (ms1_5 (adm pf) t) fullShare ((dat1 V pf c).before 5 t d)))
    ⊢ wp frame (wpE (defs₀ (F := F)) Variants.none c none) Set.univ (bodyAt1 (adm pf) t) fun _ =>
      iprop((dat1 V pf c).Φ t.castSucc ∗ (dat1 V pf c).owesAt () t.castSucc
        ∗ owns c.tc (ms1_0 (adm pf) t) fullShare (iblk1 V pf c 0 t)
        ∗ owns c.tc (ms1_1 (adm pf) t) fullShare (iblk1 V pf c 1 t)
        ∗ owns c.tc (ms1_2 (adm pf) t) fullShare (iblk1 V pf c 2 t)
        ∗ owns c.tc (ms1_3 (adm pf) t) fullShare (iblk1 V pf c 3 t)
        ∗ (dat1 V pf c).leavesExact 4 t ∗ (dat1 V pf c).leavesExact 5 t) := by
  unfold bodyAt1
  simp only [before1_0 V pf c t, before1_1 V pf c t, before1_2 V pf c t, before1_3 V pf c t]
  rw [show (dat1 V pf c).Φ t.castSucc = iprop(Pipeline.ΦA spec1 c ∗ Pipeline.prefHeld pre1 c (fun _ => fullShare) pf) from rfl]
  iintro ⟨⟨HΦ, HT⟩, Ho, ⟨%d0, H0⟩, ⟨%d1, H1⟩, ⟨%d2, H2⟩, ⟨%d3, H3⟩, ⟨%d4, H4⟩, ⟨%d5, H5⟩⟩
  iapply (kernelRun1 pf c (iblk1 V pf c 0 t) (iblk1 V pf c 1 t) (iblk1 V pf c 2 t) (iblk1 V pf c 3 t) ((dat1 V pf c).before 4 t d4) ((dat1 V pf c).before 5 t d5))
  iframe H0 H1 H2 H3 H4 H5 HT
  rw [outsAt1_step V pf c t d4 d5]
  iintro ⟨H0, H1, H2, H3, H4, H5, HT⟩
  iframe HΦ HT Ho H0 H1 H2 H3
  isplitl [H4]
  · iapply (leave4 V pf c t); iexact H4
  iapply (leave5 V pf c t); iexact H5

theorem body_obligation1 (c : Dev nD) : BodyObligation (dat1 (F := F) V pf c) (defs₀ (F := F)) Variants.none () Set.univ := fun t => by
  rw [bigSep_W1, bigSep_W1]
  exact sound_body V pf c t

end Cert.KernelIdeal.R1

end
-- ==== Proof.KI.Reg0.lean ====
import proofs.«412808_j68015102100189_2_alg».proof.Proof.Gen.KernelIdeal.Launch
import proofs.«412808_j68015102100189_2_alg».proof.Proof.Gen.KernelIdeal.Skeleton
import proofs.«412808_j68015102100189_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x64 := Rect.unit (s := S2048x64) ![0, 0] S2048x64.size inb_S2048x64_S2048x64_0_0
abbrev r0_1 : Rect S2048x1 := Rect.unit (s := S2048x1) ![0, 0] S2048x1.size inb_S2048x1_S2048x1_0_0

def out0_2 (x0 : Vec F S2048x64 .f32) : Vec F S2048x64 .bf16 :=
  View.canon [⟨r0_0, k0_pay2 (View.ld x0 r0_0)⟩]

theorem cover0_2 (p0 : Vec F S2048x64 .bf16) (y : S2048x64.Idx) :
    ∃ pc ∈ ([⟨r0_0, p0⟩] : List (View.Piece (Elt F) S2048x64 .bf16)), y ∈ pc.1.set :=
  View.cover_of_tiled [⟨r0_0, p0⟩] S2048x64.size (by rfl) y

def out0_3 (x0 : Vec F S2048x64 .f32) (x1 : Vec F S2048x1 .i32) : Vec F S2048x1 .f32 :=
  View.canon [⟨r0_1, k0_pay3 (View.ld x0 r0_0) (View.ld x1 r0_1)⟩]

theorem cover0_3 (p0 : Vec F S2048x1 .f32) (y : S2048x1.Idx) :
    ∃ pc ∈ ([⟨r0_1, p0⟩] : List (View.Piece (Elt F) S2048x1 .f32)), y ∈ pc.1.set :=
  View.cover_of_tiled [⟨r0_1, p0⟩] S2048x1.size (by rfl) y

set_option maxHeartbeats 1000000 in

theorem sound_kernel0 (c : Dev nD) (E : Set ℕ) (i : grid0.Coords)
    (arg0 : Memref sig .tc .vmem S2048x64 .f32) (harg0 : arg0.IsWhole) (arg1 : Memref sig .tc .vmem S2048x1 .i32) (harg1 : arg1.IsWhole)
    (arg2 : Memref sig .tc .vmem S2048x64 .bf16) (harg2 : arg2.IsWhole) (arg3 : Memref sig .tc .vmem S2048x1 .f32) (harg3 : arg3.IsWhole)
    (x0 : Vec F S2048x64 .f32) (x1 : Vec F S2048x1 .i32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (out0_2 x0) ∗ owns (c : Thread nD τ) arg3 fullShare (out0_3 x0 x1)) -∗ K ⟨⟩))
      ⊢ wp frame (wpE (defs₀ (F := F)) Variants.none c none) E (cc0__prep_kernel i arg0 harg0 arg1 harg1 arg2 harg2 arg3 harg3) K := by
  simp only [cc0__prep_kernel_eq_skeleton]; unfold cc0__prep_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  iframe H0 H1
  isplitl [H2]; · iexists _; iexact H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

theorem hz0 : (![0, 0] : Fin 2 → Nat) = fun _ => 0 := funext fun a => by fin_cases a <;> rfl

theorem out0_2_eq (x0 : Vec F S2048x64 .f32) : out0_2 x0 = k0_pay2 x0 := by
  unfold out0_2
  rw [View.canon_unit_zero hz0]
  simp only [View.ld_unit_zero (S := S2048x64) hz0]

theorem out0_3_eq (x0 : Vec F S2048x64 .f32) (x1 : Vec F S2048x1 .i32) : out0_3 x0 x1 = k0_pay3 x0 x1 := by
  unfold out0_3
  rw [View.canon_unit_zero hz0]
  simp only [View.ld_unit_zero (S := S2048x64) hz0, View.ld_unit_zero (S := S2048x1) hz0]

end Cert.KernelIdeal.R0

end
-- ==== Proof.KI.Outs.lean ====
import proofs.«412808_j68015102100189_2_alg».proof.Proof.Gen.KernelIdeal.Regions
import proofs.«412808_j68015102100189_2_alg».proof.Proof.KI.Reg0
import proofs.«412808_j68015102100189_2_alg».proof.Proof.KI.Reg1Dat

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F] [Named F]
variable (m : (ℓ : Loc nD τ sig) → Buf (Elt F) ℓ)

abbrev Vin0 (c : Dev nD) (b : Ref sig .tc) : Buf (Elt F) ((c : Thread nD τ).loc b) := Gen.V2 m c b

def a2 (c : Dev nD) : Buf (Elt F) ((c : Thread nD τ).loc main_v16_0) := (R0.dat0 (Vin0 m) c).arrAt 2 cfg0.N

def a3 (c : Dev nD) : Buf (Elt F) ((c : Thread nD τ).loc main_v16_1) := (R0.dat0 (Vin0 m) c).arrAt 3 cfg0.N
theorem a2_eq (c : Dev nD) : a2 m c = (R0.dat0 (Vin0 m) c).arrAt 2 cfg0.N := rfl
theorem a3_eq (c : Dev nD) : a3 m c = (R0.dat0 (Vin0 m) c).arrAt 3 cfg0.N := rfl

def val3 (c : Dev nD) : Valuation τ sig (Elt F) :=
  Function.update (Function.update (Gen.V2 m c) main_v16_0 (a2 m c)) main_v16_1 (a3 m c)

def outsA : Gen.Outs (F := F) := fun _ r c => val3 m c r

abbrev Vin1 (c : Dev nD) (b : Ref sig .tc) : Buf (Elt F) ((c : Thread nD τ).loc b) := Gen.V4 m (outsA m) c b

def tbl : pre1.Contents (Elt F) := fun j => Vin1 m (0 : Dev nD) (pre1.ref j)

theorem Vin1_pre (c : Dev nD) (j : Fin 4) : Vin1 m c (pre1.ref j) = tbl m j := by
  obtain rfl : c = 0 := Subsingleton.elim _ _; rfl

def a4 (c : Dev nD) : Buf (Elt F) ((c : Thread nD τ).loc main_v28_0) := (R1.dat1 (Vin1 m) (tbl m) c).arrAt 4 (R1.cfgM (tbl m)).N

def a5 (c : Dev nD) : Buf (Elt F) ((c : Thread nD τ).loc main_v28_1) := (R1.dat1 (Vin1 m) (tbl m) c).arrAt 5 (R1.cfgM (tbl m)).N
theorem a4_eq (c : Dev nD) : a4 m c = (R1.dat1 (Vin1 m) (tbl m) c).arrAt 4 (R1.cfgM (tbl m)).N := rfl
theorem a5_eq (c : Dev nD) : a5 m c = (R1.dat1 (Vin1 m) (tbl m) c).arrAt 5 (R1.cfgM (tbl m)).N := rfl

def val5 (c : Dev nD) : Valuation τ sig (Elt F) :=
  Function.update (Function.update (Gen.V4 m (outsA m) c) main_v28_0 (a4 m c)) main_v28_1 (a5 m c)

def outs : Gen.Outs (F := F) := fun J r c => if J = 3 then val3 m c r else val5 m c r

theorem outs3_0 (c : Dev nD) : outs m 3 main_v16_0 c = a2 m c := by
  unfold outs val3; rw [if_pos rfl, Function.update_of_ne (StableHlo.devRef_ne_of_ne (by decide)), Function.update_self]
theorem outs3_1 (c : Dev nD) : outs m 3 main_v16_1 c = a3 m c := by
  unfold outs val3; rw [if_pos rfl, Function.update_self]
theorem V3_outs (c : Dev nD) : Gen.V3 m (outs m) c = val3 m c := by
  unfold Gen.V3; rw [outs3_0, outs3_1]; rfl
theorem V3_outsA (c : Dev nD) : Gen.V3 m (outsA m) c = val3 m c := by
  unfold Gen.V3 outsA val3
  rw [Function.update_of_ne (StableHlo.devRef_ne_of_ne (by decide)), Function.update_self, Function.update_self]
theorem V4_outs (c : Dev nD) : Gen.V4 m (outs m) c = Gen.V4 m (outsA m) c := by
  unfold Gen.V4; rw [V3_outs, V3_outsA]
theorem outs5_0 (c : Dev nD) : outs m 5 main_v28_0 c = a4 m c := by
  unfold outs val5; rw [if_neg (by decide), Function.update_of_ne (StableHlo.devRef_ne_of_ne (by decide)), Function.update_self]
theorem outs5_1 (c : Dev nD) : outs m 5 main_v28_1 c = a5 m c := by
  unfold outs val5; rw [if_neg (by decide), Function.update_self]
theorem V5_outs (c : Dev nD) : Gen.V5 m (outs m) c = val5 m c := by
  unfold Gen.V5; rw [outs5_0, outs5_1, V4_outs]; rfl

end Cert.KernelIdeal.Run

end
-- ==== Proof.KI.Launch.lean ====
import proofs.«412808_j68015102100189_2_alg».proof.Proof.KI.Reg1
import proofs.«412808_j68015102100189_2_alg».proof.Proof.KI.Outs

noncomputable section

namespace Cert.KernelIdeal.Run

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Pipeline (Dat Cfg)

variable {F : FTy → Type} [FloatOps F] [Named F]

local notation "𝕄" => MT nD τ sig Unit (Elt F) ℕ (UR sig nD τ) ℕ

theorem not_mem_pair {ι α : Type} [Fintype ι] [DecidableEq α] {f : ι → α} {b : α} (hb : b ∉ Finset.univ.image f) (i j : ι) :
    b ∉ [f i, f j] := fun h => hb (by
  rcases List.mem_pair.mp h with rfl | rfl <;> exact Finset.mem_image_of_mem _ (Finset.mem_univ _))

theorem arrays1_iff (a : (pcfg1 (F := F)).Adm) (c : Dev nD) (dat : Dat τ (Elt F) Unit ℕ (UR sig nD τ) ℕ (cfg1 a) c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (G : (w : Fin (cfg1 a).W) → Buf (Elt F) (((cfg1 a).win w).arr.view.loc (c.tc : Thread nD τ)))
    (hG : ∀ w, G w = V (Pipeline.arrRef spec1 w)) : (dat.arrays G : sProp 𝕄) ⊣⊢ Pipeline.arrBufs spec1 c V := by
  classical
  have hf (w : Fin 6) (r : Ref sig .tc) (hr : Pipeline.arrRef spec1 w = r) {q : PosShare TreeShare} (h : dat.share w = q) :
      (_ ↦[((cfg1 a).win w).arr.view.set]{dat.share w} G w : sProp 𝕄) = ((c.tc : Thread nD τ).loc r ↦{q} V r) := by
    subst hr
    rw [hG w, h]
    show (_ ↦[(spec1 w).arr.view.set]{q} V (Pipeline.arrRef spec1 w) : sProp 𝕄) = _
    rw [(arr_whole1 w).set_eq_univ]
  unfold Dat.arrays Pipeline.arrBufs
  rw [bigSep_W1, show Finset.univ.image (Pipeline.arrRef spec1) = ({main_v16_0, main_v15, main_v27, main_v28_0, main_v28_1} : Finset (Ref sig .tc)) from by decide,
    bigSep_insert (by decide), bigSep_insert (by decide), bigSep_insert (by decide), bigSep_insert (by decide), bigSep_singleton,
    hf 0 main_v16_0 rfl ((if_neg Bool.false_ne_true).trans hq0), hf 1 main_v16_0 rfl ((if_neg Bool.false_ne_true).trans hq1),
    hf 2 main_v15 rfl ((if_neg Bool.false_ne_true).trans hq2), hf 3 main_v27 rfl ((if_neg Bool.false_ne_true).trans hq3),
    hf 4 main_v28_0 rfl (if_pos rfl), hf 5 main_v28_1 rfl (if_pos rfl)]
  exact sep_assoc.symm.trans (sep_congr_left (pointsTo_share (PosShare.mem_left_op_right fullShare)).symm)

theorem entry_of {H A T Z X O O' S Lv : sProp 𝕄} (hs : H ⊢ iprop(A ∗ T ∗ Z)) (ho : O ⊢ O') :
    iprop((H ∗ X ∗ O) ∗ S ∗ Lv) ⊢ |={Set.univ}=> iprop(A ∗ T ∗ O' ∗ X ∗ Z) := by
  iintro ⟨⟨Hh, Hx, Ho⟩, -, -⟩
  icases hs $$ Hh with ⟨Ha, Ht, Hz⟩
  ihave Ho := ho $$ Ho
  imodintro; iframe

theorem exit_of {H A T Z X O O' : sProp 𝕄} (hj : iprop(A ∗ T ∗ Z) ⊢ H) (ho : O' ⊢ O) :
    iprop(A ∗ O' ∗ (X ∗ T) ∗ Z) ⊢ |={Set.univ}=> iprop(H ∗ X ∗ O) := by
  iintro ⟨Ha, Ho, ⟨Hx, Ht⟩, Hz⟩
  ihave Hh := hj $$ [Ha Ht Hz]
  · iframe
  ihave Ho := ho $$ Ho
  imodintro; iframe

section Owes
variable {cfg : Cfg sig Λ₀} {c : Dev nD} (dat : Dat τ (Elt F) Unit ℕ (UR sig nD τ) ℕ cfg c) (t : Fin (cfg.N + 1)) (h0 : dat.owed t = 0)

include h0 in
theorem owes_in (hr : dat.recorded t = Set.univ) :
    iprop(∃ W, owes (c : Thread nD τ) (0 : CellTallies nD τ sig Unit) W) ⊢ (dat.owesAt () t : sProp 𝕄) := by
  unfold Dat.owesAt Pipeline.owesWithin Dat.bound
  rw [h0, hr]
  iintro ⟨%W, HO⟩; iexists W; isplitr; · ipureintro; exact fun _ _ => Or.inl trivial
  iexact HO

include h0 in
theorem owes_out : (dat.owesAt () t : sProp 𝕄) ⊢ iprop(∃ W, owes (c : Thread nD τ) (0 : CellTallies nD τ sig Unit) W) := by
  unfold Dat.owesAt Pipeline.owesWithin
  rw [h0]
  iintro ⟨%W, -, HO⟩; iexists W; iexact HO
end Owes

variable (m : (ℓ : Loc nD τ sig) → Buf (Elt F) ℓ)

def adm : (p : Fin 2) → (pcfgs (F := F) p).Adm
  | ⟨0, _⟩ => cfg0.toPCfg_adm
  | ⟨1, _⟩ => R1.adm (tbl m)

def pdats : (p : Fin 2) → (c : Dev nD) → Dat τ (Elt F) Unit ℕ (UR sig nD τ) ℕ (Pipeline.pin (pcfgs (F := F)) (adm m) p) c
  | ⟨0, _⟩ => fun c => R0.dat0 (Vin0 m) c
  | ⟨1, _⟩ => fun c => R1.dat1 (Vin1 m) (tbl m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev St (V : Dev nD → Valuation τ sig (Elt F)) (c : Dev nD) : sProp 𝕄 :=
  iprop(StableHlo.held (c : Thread nD τ) (Pipeline.ucRefs τ sig) (V c) ∗ R c)

abbrev Vout0 (c : Dev nD) (b : Ref sig .tc) : Buf (Elt F) ((c : Thread nD τ).loc b) := Gen.V3 m (outs m) c b
abbrev Vout1 (c : Dev nD) (b : Ref sig .tc) : Buf (Elt F) ((c : Thread nD τ).loc b) := Gen.V5 m (outs m) c b

theorem hF0 (c : Dev nD) (w : Fin cfg0.W) : (pdats m 0 c).arrAt w cfg0.N = Vout0 m c (Pipeline.arrRef spec0 w) := by
  have hi (w : Fin 4) (hw : (spec0 w).isOut = false) (h : Pipeline.arrRef spec0 w ∉ [main_v16_0, main_v16_1]) :
      (pdats m 0 c).arrAt w cfg0.N = Vout0 m c (Pipeline.arrRef spec0 w) :=
    ((pdats m 0 c).arrAt_in w hw _).trans (Gen.V3_of m (outs m) c _ h).symm
  match w with
  | ⟨0, _⟩ => exact hi 0 rfl (by decide)
  | ⟨1, _⟩ => exact hi 1 rfl (by decide)
  | ⟨2, _⟩ => exact ((congrFun (V3_outs m c) _).trans ((Function.update_of_ne (StableHlo.devRef_ne_of_ne (by decide)) _ _).trans (Function.update_self _ _ _))).symm
  | ⟨3, _⟩ => exact ((congrFun (V3_outs m c) _).trans (Function.update_self _ _ _)).symm

set_option backward.isDefEq.respectTransparency.types false in
def reg0 : Pipeline.RegionSeg _ _ (pdats m) () defs₀ 𝒱₀ L lv 0 where
  win := launch0.win.to₀
  block_pos := (launch0 (F := F)).block_pos
  stage_whole := (launch0 (F := F)).stage_whole
  K := PEmpty
  osem k := k.elim
  ho := Pipeline.OwnSemFacts.none _
  hbody c := (R0.body_obligation0 (Vin0 m) c).loose
  hwaits := Pipeline.hwaits_of_owed_zero _ _ _ _ _ _ _ fun _ _ => rfl
  pre := St (Gen.V2 m)
  post := St (Gen.V3 m (outs m))
  X c := iprop(∃ r, prngReg c r)
  Y c := iprop((∃ r, prngReg c r) ∗ emp)
  Z c := Pipeline.unscopedRest spec0 c (Vin0 m c)
  hentry c := by
    have hs := Pipeline.arrays_of_unscopedBufs (p := 0) _ _ (pdats m) (launch0 (F := F)).win (launch0 (F := F)).arr_whole c
      (Dat.share_full _ fun _ => rfl) (Vin0 m c) fun _ => rfl
    rw [Pipeline.unscopedBufs_held] at hs
    exact entry_of (hs.trans (sep_mono_r emp_sep.2)) (owes_in _ 0 rfl rfl)
  hin c := by
    show (_ : sProp 𝕄) ⊢ iprop(_ ∗ _)
    iintro ⟨Hx, -, Hs⟩; iframe
  hout c := by
    show iprop(_ ∗ _) ⊢ (_ : sProp 𝕄)
    rw [Pipeline.ownSems0_none]; iintro ⟨Hs, Hx⟩; iframe; iempintro
  hexit c := by
    have hj := Pipeline.unscopedBufs_of_arrays (p := 0) _ _ (launch0 (F := F)).win (launch0 (F := F)).arr_whole c (pdats m) (Dat.share_full _ fun _ => rfl)
      (Vin0 m c) (Vout0 m c) _ (hF0 m c) fun b hb => Gen.V3_of m (outs m) c b (not_mem_pair hb 2 3)
    rw [Pipeline.unscopedBufs_held] at hj
    exact exit_of ((sep_mono_r emp_sep.1).trans hj) (owes_out _ _ rfl)

theorem V5_keep (c : Dev nD) (r : Ref sig .tc) (h : r ∉ [main_v28_0, main_v28_1]) : Vout1 m c r = Vin1 m c r :=
  (Gen.V5_of m (outs m) c r h).trans (congrFun (V4_outs m c) _)

theorem hG1 (c : Dev nD) (w : Fin (R1.cfgM (tbl m)).W) : (pdats m 1 c).arrAt w (R1.cfgM (tbl m)).N = Vout1 m c (Pipeline.arrRef spec1 w) := by
  have hi (w : Fin 6) (hw : (spec1 w).isOut = false) (h : Pipeline.arrRef spec1 w ∉ [main_v28_0, main_v28_1]) :
      (pdats m 1 c).arrAt w (R1.cfgM (tbl m)).N = Vout1 m c (Pipeline.arrRef spec1 w) :=
    ((pdats m 1 c).arrAt_in w hw _).trans (V5_keep m c _ h).symm
  match w with
  | ⟨0, _⟩ => exact hi 0 rfl (by decide)
  | ⟨1, _⟩ => exact hi 1 rfl (by decide)
  | ⟨2, _⟩ => exact hi 2 rfl (by decide)
  | ⟨3, _⟩ => exact hi 3 rfl (by decide)
  | ⟨4, _⟩ => exact ((congrFun (V5_outs m c) _).trans ((Function.update_of_ne (StableHlo.devRef_ne_of_ne (by decide)) _ _).trans (Function.update_self _ _ _))).symm
  | ⟨5, _⟩ => exact ((congrFun (V5_outs m c) _).trans (Function.update_self _ _ _)).symm

theorem restP_keep (c : Dev nD) :
    (Pipeline.unscopedRestP pre1 spec1 c (Vout1 m c) : sProp 𝕄) = Pipeline.unscopedRestP pre1 spec1 c (Vin1 m c) := by
  unfold Pipeline.unscopedRestP
  exact bigSep_congr fun b hb => by rw [V5_keep m c b (not_mem_pair (Finset.mem_sdiff.mp (Finset.mem_sdiff.mp hb).1).2 4 5)]

theorem pre_keep (c : Dev nD) : (fun k => Vout1 m c (pre1.ref k)) = tbl m :=
  funext fun k => (V5_keep m c _ ((by decide : ∀ k : Fin 4, pre1.ref k ∉ [main_v28_0, main_v28_1]) k)).trans (Vin1_pre m c k)

theorem pre_in (c : Dev nD) : (fun k => Vin1 m c (pre1.ref k)) = tbl m := funext (Vin1_pre m c)

theorem held_split1 (a : (pcfg1 (F := F)).Adm) (c : Dev nD) (W : Valuation τ sig (Elt F)) :
    (StableHlo.held (c : Thread nD τ) (Pipeline.ucRefs τ sig) W : sProp 𝕄)
      = iprop(Pipeline.arrBufs spec1 c (fun b => W b) ∗ Pipeline.prefHeld pre1 c (fun _ => fullShare) (fun k => W (pre1.ref k))
          ∗ Pipeline.unscopedRestP pre1 spec1 c (fun b => W b)) := by
  rw [← Pipeline.unscopedBufs_held c W,
    Pipeline.unscopedBufs_split₀ (fun _ : Unit => cfg1 a) () winFacts₀1.arr_unscoped c (fun b => W b),
    Pipeline.unscopedRest_split preFacts1 c (fun b => W b)]

set_option backward.isDefEq.respectTransparency.types false in
def reg1 : Pipeline.RegionSeg _ _ (pdats m) () defs₀ 𝒱₀ L lv 1 where
  win := winFacts₀1
  block_pos := block_pos1
  stage_whole := stage_whole1
  K := PEmpty
  osem k := k.elim
  ho := Pipeline.OwnSemFacts.none _
  hbody c := (R1.body_obligation1 (Vin1 m) (tbl m) c).loose
  hwaits := Pipeline.hwaits_of_owed_zero _ _ _ _ _ _ _ fun _ _ => rfl
  pre := St (Gen.V4 m (outs m))
  post := St (Gen.V5 m (outs m))
  X c := iprop(∃ r, prngReg c r)
  Y c := iprop((∃ r, prngReg c r) ∗ Pipeline.prefHeld pre1 c (fun _ => fullShare) (tbl m))
  Z c := Pipeline.unscopedRestP pre1 spec1 c (Vin1 m c)
  hentry c := entry_of (by
      rw [V4_outs, held_split1 (adm m 1) c (Gen.V4 m (outsA m) c), pre_in m c]
      exact sep_mono_l (arrays1_iff (adm m 1) c (pdats m 1 c) rfl rfl rfl rfl (Vin1 m c) _ fun _ => rfl).2)
    (owes_in _ 0 rfl rfl)
  hin c := by
    show (_ : sProp 𝕄) ⊢ iprop((_ ∗ _) ∗ _)
    iintro ⟨Hx, Ht, Hs⟩; iframe; iexact Ht
  hout c := by
    show iprop((_ ∗ _) ∗ _) ⊢ (_ : sProp 𝕄)
    rw [Pipeline.ownSems0_none]; iintro ⟨⟨Hs, Hx⟩, Ht⟩; iframe; iempintro
  hexit c := exit_of (by
      rw [held_split1 (adm m 1) c (Gen.V5 m (outs m) c), pre_keep m c, restP_keep m c]
      exact sep_mono_l (arrays1_iff (adm m 1) c (pdats m 1 c) rfl rfl rfl rfl (Vout1 m c) _ (hG1 m c)).1)
    (owes_out _ _ rfl)

variable (ρ : Dev nD → PrngReg)

theorem hu₀ (u : UR sig nD τ) : (ownU u : sProp 𝕄)
    ⊢ |={Set.univ}=> iprop(BI.own (emb₁ u) ∗ bigSep Finset.univ fun _ : Dev nD => (iprop(emp) : sProp 𝕄)) := by
  rw [ownU_emb₁, show (bigSep Finset.univ fun _ : Dev nD => (iprop(emp) : sProp 𝕄)) = BI.emp from BI.bigSep_emp_const _]
  iintro Hu; imodintro
  isplitl [Hu]; · iexact Hu
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : (R c : sProp 𝕄) ⊢ (iprop(∃ W, owes (c : Thread nD τ) (0 : CellTallies nD τ sig Unit) W) : sProp 𝕄) := by
  iintro ⟨-, HO⟩; iexact HO

set_option backward.isDefEq.respectTransparency.types false in
/-- Run from zero counters, the main function terminates under weak fairness, never faults, and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () 𝒱₀ L lv (fun _ _ => rfl) ρ (outs m) (adm m) (pdats m) 0 (fun _ => iprop(emp)) _ (hu₀ _)
    (fun _ c => R c) (hE0 ρ) hE2 (reg0 m) (fun _ => .rfl) (fun _ => .rfl) (reg1 m) (fun _ => .rfl) (fun _ => .rfl)

end Cert.KernelIdeal.Run

end
-- ==== Proof.KI.RunCond.lean ====
import proofs.«412808_j68015102100189_2_alg».proof.Proof.Gen.KernelIdeal.Launch
import proofs.«412808_j68015102100189_2_alg».proof.Proof.Gen.KernelIdeal.Regions
import Idealize.ShloMosaic.Lib.Pipeline.Frame
import Idealize.ShloMosaic.Lib.Pipeline.Regions

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

variable (m : (ℓ : Loc nD τ sig) → Buf (Elt F) ℓ)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_cond_result {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c)) :
    θ_run defs (onTc (τ := τ) (main (F := F))) ⟨m, fun _ => 0, ρ⟩ (fun r => ∀ c : Dev nD,
      r.2.mem ((c.tc : Thread nD τ).loc main_v53) = V12 m outs c main_v53
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have key : θ_run defs (onTc (τ := τ) (main (F := F))) ⟨m, fun _ => 0, ρ⟩ (fun r => ∀ c : Dev nD,
      ∀ b ∈ Pipeline.ucRefs τ sig, r.2.mem (((c : Thread nD τ)).1, b) = V12 m outs c b) := by
    refine Pipeline.θ_run_regions_kit_dev (pcfgs (F := F)) a pdats ι (cellOf_inj a) EP defs₀ 𝒱₀ L lv m ρ main
      (segs m outs 𝒱₀ L lv E ι a pdats R0 R1)
      (fun c Q => by
        rewrite [main_chain c, Seg.run_eq_chain,
          show (segs m outs 𝒱₀ L lv E ι a pdats R0 R1 c).map Seg.prog = [
            StableHlo.seq hostOps0,
            StableHlo.seq hostOps0_1,
            Prog.lift (.customCall (Pipeline.entry 0) ()),
            StableHlo.seq hostOps1,
            Prog.lift (.customCall (Pipeline.entry 1) ()),
            StableHlo.seq hostOps2,
            StableHlo.seq hostOps2_1,
            StableHlo.seq hostOps2_2,
            StableHlo.seq hostOps2_3,
            StableHlo.seq hostOps2_4,
            StableHlo.seq hostOps2_5,
            StableHlo.seq hostOps2_6 ] from rfl]
        exact .rfl)
      (fun c => by simp only [segs, Seg.pipes_host, Seg.pipes_region, Seg.pipes_nil]; decide) O₀ hL G u₀ hu₀
      (T₀ := fun c => iprop(StableHlo.held (c : Thread nD τ) (Pipeline.ucRefs τ sig) (V0 m c) ∗ E 0 c))
      (Tₙ := fun c => StableHlo.held (c : Thread nD τ) (Pipeline.ucRefs τ sig) (V12 m outs c))
      (hch := fun c => ⟨.rfl, .rfl, hpre0 c, hpost0 c, hpre1 c, hpost1 c, .rfl, .rfl, .rfl, .rfl, .rfl, .rfl, sep_mono .rfl (hE2 c)⟩)
      (hinit := ?_) (QY := fun c s => ∀ b ∈ Pipeline.ucRefs τ sig, s.mem (((c : Thread nD τ)).1, b) = V12 m outs c b)
      (hfin := fun c s' => ?_) (hQ := fun _ h => h)
    ·
      have hsplit : (bigSep Finset.univ fun c : Dev nD => iprop(unscopedBufs c (fun b => m ((c.tc : Thread nD τ).loc b)) ∗ unscopedSems0 c
            ∗ owes (c.tc : Thread nD τ) (O₀ c) ∅ ∗ Pipeline.launchCred O₀ c ∗ prngReg c (ρ c) ∗ G c))
          ⊢ (iprop((bigSep Finset.univ fun c : Dev nD => StableHlo.held (c : Thread nD τ) (Pipeline.ucRefs τ sig) (V0 m c))
              ∗ bigSep Finset.univ fun c : Dev nD => iprop(unscopedSems0 c ∗ owes (c : Thread nD τ) (O₀ c) ∅ ∗ Pipeline.launchCred O₀ c ∗ prngReg c (ρ c) ∗ G c))
              : sProp (MT nD τ sig Ix (Elt F) ℕ U Lvl)) := by
        rw [← bigSep_sep']
        exact bigSep_mono fun c _ => by rw [← Pipeline.unscopedBufs_held (Ix := Ix) (Name := ℕ) (U := U) (Lvl := Lvl) c (V0 m c)]; exact BI.Entails.refl _
      iintro ⟨H, Hla⟩
      ihave H' := hsplit $$ H
      icases H' with ⟨Hh, Hr⟩
      imod hE0 $$ [Hr Hla] with HE
      · isplitl [Hr]; · iexact Hr
        iexact Hla
      imodintro
      rw [bigSep_sep']
      isplitl [Hh]; · iexact Hh
      iexact HE
    ·
      unfold StableHlo.held
      iintro ⟨Hh, HSI⟩
      ihave Hr := (pointsTo_read_all (Pipeline.ucRefs τ sig) (fun b => ((c : Thread nD τ).1, b)) (V12 m outs c) s') $$ [Hh HSI]
      · isplitl [Hh] <;> iassumption
      icases Hr with ⟨%h, HSI⟩
      imodintro
      isplitr
      · ipureintro
        exact h
      · iexact HSI
  exact (θ_run defs _ _).mono (fun _ h c =>
      ⟨h c _ (mem_uc main_v53 (by decide)),
        (h c _ (mem_uc main_arg0 (by decide))).trans (V12_main_arg0 m outs c),
        (h c _ (mem_uc main_arg1 (by decide))).trans (V12_main_arg1 m outs c)⟩) key

end Cert.KernelIdeal.Run

end
-- ==== Proof.KI.Result.lean ====
import proofs.«412808_j68015102100189_2_alg».proof.Proof.KI.Launch
import proofs.«412808_j68015102100189_2_alg».proof.Proof.KI.RunCond

noncomputable section

namespace Cert.KernelIdeal.Run

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Pipeline (Dat Cfg)

variable {F : FTy → Type} [FloatOps F] [Named F]

variable (m : (ℓ : Loc nD τ sig) → Buf (Elt F) ℓ) (ρ : Dev nD → PrngReg)

set_option backward.isDefEq.respectTransparency.types false in
/-- As `frame`; moreover the result buffer ends at its value under the last valuation. -/
theorem run_result : θ_run defs (onTc (τ := τ) (main (F := F))) ⟨m, fun _ => 0, ρ⟩ (fun r => ∀ c : Dev nD,
      r.2.mem ((c.tc : Thread nD τ).loc main_v53) = Gen.V12 m (outs m) c main_v53
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond_result m emb₁ () 𝒱₀ L lv (fun _ _ => rfl) ρ (outs m) (adm m) (pdats m) 0 (fun _ => iprop(emp)) _ (hu₀ _)
    (fun _ c => R c) (hE0 ρ) hE2 (reg0 m) (fun _ => .rfl) (fun _ => .rfl) (reg1 m) (fun _ => .rfl) (fun _ => .rfl)

end Cert.KernelIdeal.Run

end
-- ==== Proof.KI.Reg0Arr.lean ====
import proofs.«412808_j68015102100189_2_alg».proof.Proof.KI.Reg0
import Idealize.ShloMosaic.Lib.Pipeline.Value
import Idealize.ShloMosaic.Lib.ValueIdx

noncomputable section

namespace Cert.KernelIdeal.R0

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F] [Named F]
variable (V : (c : Dev nD) → (b : Ref sig .tc) → Buf (Elt F) ((c : Thread nD τ).loc b))

def pt0 (I : Fin 8) : Fin cfg0.N := Fin.cast N_0.symm I

theorem pt0_val (I : Fin 8) : (pt0 I).val = I.val := rfl

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem idx_inj0_2 : ∀ t t' : Fin cfg0.N, win0_2.index t = win0_2.index t' → t = t' :=
  (by decide +kernel : ∀ t t' : Fin grid0.N, win0_2.index t = win0_2.index t' → t = t')

theorem idx_inj0_3 : ∀ t t' : Fin cfg0.N, win0_3.index t = win0_3.index t' → t = t' :=
  (by decide +kernel : ∀ t t' : Fin grid0.N, win0_3.index t = win0_3.index t' → t = t')

theorem disjoint0_2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj0_2 t t' h)

theorem disjoint0_3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj0_3 t t' h)

theorem flushed0_2 (c : Dev nD) (t : Fin cfg0.N) : (dat0 V c).flushed 2 t = k0_pay2 (iblk0 V c 0 t) := by
  show (cfg0.win 2).cut (grid0.coords t) ((dat0 V c).after 2 t) = _
  rw [after0_2, out0_2_eq]
  rfl

theorem flushed0_3 (c : Dev nD) (t : Fin cfg0.N) : (dat0 V c).flushed 3 t = k0_pay3 (iblk0 V c 0 t) (iblk0 V c 1 t) := by
  show (cfg0.win 3).cut (grid0.coords t) ((dat0 V c).after 3 t) = _
  rw [after0_3, out0_3_eq]
  rfl

theorem iblk0_0_eq (c : Dev nD) (I : Fin 8) :
    iblk0 V c 0 (pt0 I) = fun y : S2048x64.Idx =>
      V c main_v7 (ix2 ⟨2048 * I.val + (y 0).val, by have := idx2_lt0 y; have := I.isLt; omega⟩ (y 1)) := by
  funext y
  show V c main_v7 (((cfg0.win 0).blk (pt0 I)).view.emb y) = V c main_v7 _
  congr 1
  funext a; apply Fin.ext
  obtain ⟨e0, e1, -⟩ := idx_facts0 (pt0 I)
  match a with
  | ⟨0, _⟩ => show win0_0.index (pt0 I) (0 : Fin 2) * 2048 + 1 * (y 0).val = 2048 * I.val + (y 0).val; rw [e0, pt0_val]; omega
  | ⟨1, _⟩ => show win0_0.index (pt0 I) (1 : Fin 2) * 64 + 1 * (y 1).val = (y 1).val; rw [e1]; omega

theorem iblk0_1_eq (c : Dev nD) (I : Fin 8) :
    iblk0 V c 1 (pt0 I) = fun y : S2048x1.Idx =>
      V c main_v15 (ix2 ⟨2048 * I.val + (y 0).val, by have := idx2_lt0 y; have := I.isLt; omega⟩ (y 1)) := by
  funext y
  show V c main_v15 (((cfg0.win 1).blk (pt0 I)).view.emb y) = V c main_v15 _
  congr 1
  funext a; apply Fin.ext
  obtain ⟨-, -, e0, e1, -⟩ := idx_facts0 (pt0 I)
  match a with
  | ⟨0, _⟩ => show win0_1.index (pt0 I) (0 : Fin 2) * 2048 + 1 * (y 0).val = 2048 * I.val + (y 0).val; rw [e0, pt0_val]; omega
  | ⟨1, _⟩ => show win0_1.index (pt0 I) (1 : Fin 2) * 1 + 1 * (y 1).val = (y 1).val; rw [e1]; omega

theorem arr0_2 (c : Dev nD) (I : Fin 8) (r : Fin 2048) (k : Fin 64) :
    (dat0 V c).arrAt 2 cfg0.N (ix2 ⟨2048 * I.val + r.val, by have := I.isLt; have := r.isLt; omega⟩ k)
      = k0_pay2 (fun y : S2048x64.Idx =>
          V c main_v7 (ix2 ⟨2048 * I.val + (y 0).val, by have := idx2_lt0 y; have := I.isLt; omega⟩ (y 1))) (ix2 r k) := by
  have h := (dat0 V c).arrAt_emb_eq_flushed 2 disjoint0_2 (pt0 I) (flush0_2 (pt0 I)) (ix2 r k)
  have e : ((cfg0.win 2).blk (pt0 I)).view.emb (ix2 r k)
      = ix2 ⟨2048 * I.val + r.val, by have := I.isLt; have := r.isLt; omega⟩ k := by
    funext a; apply Fin.ext
    obtain ⟨-, -, -, -, e0, e1, -⟩ := idx_facts0 (pt0 I)
    match a with
    | ⟨0, _⟩ => show win0_2.index (pt0 I) (0 : Fin 2) * 2048 + 1 * r.val = 2048 * I.val + r.val; rw [e0, pt0_val]; omega
    | ⟨1, _⟩ => show win0_2.index (pt0 I) (1 : Fin 2) * 64 + 1 * k.val = k.val; rw [e1]; omega
  rw [e] at h
  rw [h, flushed0_2, iblk0_0_eq]
  rfl

theorem arr0_3 (c : Dev nD) (I : Fin 8) (r : Fin 2048) :
    (dat0 V c).arrAt 3 cfg0.N (ix2 ⟨2048 * I.val + r.val, by have := I.isLt; have := r.isLt; omega⟩ (0 : Fin 1))
      = k0_pay3 (fun y : S2048x64.Idx =>
          V c main_v7 (ix2 ⟨2048 * I.val + (y 0).val, by have := idx2_lt0 y; have := I.isLt; omega⟩ (y 1)))
          (fun y : S2048x1.Idx =>
          V c main_v15 (ix2 ⟨2048 * I.val + (y 0).val, by have := idx2_lt0 y; have := I.isLt; omega⟩ (y 1))) (ix2 r (0 : Fin 1)) := by
  have h := (dat0 V c).arrAt_emb_eq_flushed 3 disjoint0_3 (pt0 I) (flush0_3 (pt0 I)) (ix2 r (0 : Fin 1))
  have e : ((cfg0.win 3).blk (pt0 I)).view.emb (ix2 r (0 : Fin 1))
      = ix2 ⟨2048 * I.val + r.val, by have := I.isLt; have := r.isLt; omega⟩ (0 : Fin 1) := by
    funext a; apply Fin.ext
    obtain ⟨-, -, -, -, -, -, e0, e1⟩ := idx_facts0 (pt0 I)
    match a with
    | ⟨0, _⟩ => show win0_3.index (pt0 I) (0 : Fin 2) * 2048 + 1 * r.val = 2048 * I.val + r.val; rw [e0, pt0_val]; omega
    | ⟨1, _⟩ => show win0_3.index (pt0 I) (1 : Fin 2) * 1 + 1 * 0 = 0; rw [e1]
  rw [e] at h
  rw [h, flushed0_3, iblk0_0_eq, iblk0_1_eq]
  rfl

end Cert.KernelIdeal.R0

end
-- ==== Proof.Spec.lean ====
import Idealize.ShloMosaic.PureOps.Ideal

noncomputable section

open scoped BigOperators

namespace Triplet

open Idealize.ShloMosaic

abbrev Row : Type := Fin 64 → EReal

abbrev Rows : Type := Fin 16384 → Row

abbrev Labels : Type := Fin 16384 → BitVec 32

def sqRow (a : Row) : EReal := ∑ k : Fin 64, a k * a k

def unitRow (a : Row) : Row := fun k => Ideal.div (a k) (Ideal.sqrt (sqRow a))

def maxRow (a : Row) : EReal := (Finset.univ : Finset (Fin 64)).fold max ⊥ a

def lseRow (a : Row) : EReal := Ideal.log (∑ k : Fin 64, Ideal.exp (a k - maxRow a))

def logpRow (a : Row) (k : Fin 64) : EReal := (a k - maxRow a) - lseRow a

def ceRow (a : Row) (w : BitVec 32) : EReal :=
  0 - ∑ k : Fin 64, (if BitVec.ofNat 32 k.val = w then logpRow a k else 0)

def simRow (a b : Row) : EReal := ∑ k : Fin 64, a k * b k

def unit (x : Rows) : Rows := fun i => unitRow (x i)

def sim (u : Rows) (i j : Fin 16384) : EReal := simRow (u i) (u j)

def hardPos (u : Rows) (t : Labels) (i : Fin 16384) : EReal :=
  (Finset.univ : Finset (Fin 16384)).fold min ⊤ (fun j => if t i = t j then sim u i j else ⊤)

def hardNeg (u : Rows) (t : Labels) (i : Fin 16384) : EReal :=
  (Finset.univ : Finset (Fin 16384)).fold max ⊥ (fun j => if t i = t j then ⊥ else sim u i j)

def cMargin : EReal := Ideal.ofBits .f32 0x3F000000#32
def cPos : EReal := Ideal.ofBits .f32 0x3F4CCCCD#32
def cNeg : EReal := Ideal.ofBits .f32 0x3ECCCCCD#32
def cOne : EReal := Ideal.ofBits .f32 0x3F800000#32
def cCount : EReal := Ideal.ofBits .f32 0x46800000#32
def cZero : EReal := Ideal.ofBits .f32 0x00000000#32

def cTwo : EReal := Ideal.ofBits .f32 0x40000000#32

def relu (a : EReal) : EReal := max a cZero

def mean (f : Fin 16384 → EReal) : EReal := Ideal.div (cZero + ∑ i : Fin 16384, f i) cCount

def hinges (ap an : Fin 16384 → EReal) : EReal :=
  (mean (fun i => relu (an i - cNeg)) + mean (fun i => relu (cPos - ap i))) * cOne
    + mean (fun i => relu (cMargin + ap i - an i))

def rowOf (I : Fin 8) (r : Fin 2048) : Fin 16384 := ⟨2048 * I.val + r.val, by omega⟩

def colOf (J : Fin 16) (q : Fin 1024) : Fin 16384 := ⟨1024 * J.val + q.val, by omega⟩

def apart (rmin rmax : Fin 8 → BitVec 32) (cmin cmax : Fin 16 → BitVec 32) (I : Fin 8) (J : Fin 16) : Prop :=
  (rmax I).slt (cmin J) = true ∨ (cmax J).slt (rmin I) = true

instance (rmin rmax : Fin 8 → BitVec 32) (cmin cmax : Fin 16 → BitVec 32) (I : Fin 8) (J : Fin 16) :
    Decidable (apart rmin rmax cmin cmax I J) := by unfold apart; infer_instance

def blockPos (a : Row) (w : BitVec 32) (b : Fin 1024 → Row) (tb : Fin 1024 → BitVec 32) : EReal :=
  (Finset.univ : Finset (Fin 1024)).fold min ⊤ (fun q => if w = tb q then simRow a (b q) else cTwo)

def blockNeg (a : Row) (w : BitVec 32) (b : Fin 1024 → Row) (tb : Fin 1024 → BitVec 32) : EReal :=
  (Finset.univ : Finset (Fin 1024)).fold max ⊥ (fun q => if w = tb q then ⊥ else simRow a (b q))

def blockAll (a : Row) (b : Fin 1024 → Row) : EReal :=
  (Finset.univ : Finset (Fin 1024)).fold max ⊥ (fun q => simRow a (b q))

def step (u : Rows) (t : Labels) (rmin rmax : Fin 8 → BitVec 32) (cmin cmax : Fin 16 → BitVec 32)
    (I : Fin 8) (r : Fin 2048) (J : Fin 16) (p : EReal × EReal) : EReal × EReal :=
  if apart rmin rmax cmin cmax I J then
    (p.1, max p.2 (blockAll (u (rowOf I r)) (fun q => u (colOf J q))))
  else
    (min p.1 (blockPos (u (rowOf I r)) (t (rowOf I r)) (fun q => u (colOf J q)) (fun q => t (colOf J q))),
     max p.2 (blockNeg (u (rowOf I r)) (t (rowOf I r)) (fun q => u (colOf J q)) (fun q => t (colOf J q))))

def walk (u : Rows) (t : Labels) (rmin rmax : Fin 8 → BitVec 32) (cmin cmax : Fin 16 → BitVec 32)
    (I : Fin 8) (r : Fin 2048) : (n : ℕ) → n ≤ 16 → EReal × EReal
  | 0, _ => (cTwo, ⊥)
  | n + 1, h => step u t rmin rmax cmin cmax I r ⟨n, h⟩ (walk u t rmin rmax cmin cmax I r n (Nat.le_of_succ_le h))

def tiledPos (u : Rows) (t : Labels) (rmin rmax : Fin 8 → BitVec 32) (cmin cmax : Fin 16 → BitVec 32)
    (I : Fin 8) (r : Fin 2048) : EReal := (walk u t rmin rmax cmin cmax I r 16 (Nat.le_refl _)).1

def tiledNeg (u : Rows) (t : Labels) (rmin rmax : Fin 8 → BitVec 32) (cmin cmax : Fin 16 → BitVec 32)
    (I : Fin 8) (r : Fin 2048) : EReal := (walk u t rmin rmax cmin cmax I r 16 (Nat.le_refl _)).2

end Triplet

end
-- ==== Proof.KI.Pay0.lean ====
import proofs.«412808_j68015102100189_2_alg».proof.Proof.Gen.KernelIdeal.Skeleton
import proofs.«412808_j68015102100189_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_row (h : S2048x64.Reduces [1] S2048) (r : Fin 2048) (k : Fin 64) : h.lift (ValueIdx.ix1 r) k = ix2 r k := by
  funext c
  match c with
  | ⟨0, _⟩ => exact Fin.ext rfl
  | ⟨1, _⟩ => exact Fin.ext rfl

theorem laneSum_apply (src : FVec Ideal S2048x64 .f32) (h : S2048x64.Reduces [1] S2048) (hφ : FKind.Formats .f32)
    (hacc : (0x00000000#32 : BitVec 32) = FKind.add.neutral .f32 hφ) (r : Fin 2048) :
    multiReduction (F := Ideal) .add [1] S2048 src 0x00000000#32 h hφ hacc (ValueIdx.ix1 r) = ∑ k : Fin 64, src (ix2 r k) := by
  refine (Ideal.multiReduction_add_single src 0x00000000#32 h hφ hacc (ValueIdx.ix1 r)).trans ?_
  exact Finset.sum_congr rfl fun k _ => congrArg src (lift_row h r k)

theorem laneMax_apply (src : FVec Ideal S2048x64 .f32) (h : S2048x64.Reduces [1] S2048) (hφ : FKind.Formats .f32)
    (hacc : (0xFF800000#32 : BitVec 32) = FKind.maximumf.neutral .f32 hφ) (r : Fin 2048) :
    multiReduction (F := Ideal) .maximumf [1] S2048 src 0xFF800000#32 h hφ hacc (ValueIdx.ix1 r)
      = (Finset.univ : Finset (Fin 64)).fold max ⊥ (fun k => src (ix2 r k)) := by
  refine (Ideal.multiReduction_maximumf_single src 0xFF800000#32 h hφ hacc (ValueIdx.ix1 r)).trans ?_
  have e : (src ∘ h.lift (ValueIdx.ix1 r)) = fun k : Fin 64 => src (ix2 r k) := funext fun k => congrArg src (lift_row h r k)
  have b : (FloatOps.ofBits (F := Ideal) .f32 0xFF800000#32) = (⊥ : EReal) := by
    show Ideal.ofBits .f32 0xFF800000#32 = ⊥
    simp [Ideal.ofBits, Ideal.ieee]
  rw [e, b]
  rfl

theorem sqrt_apply {s : Shape} {φ : FTy} (a : FVec Ideal s φ) (i : s.Idx) : sqrt a i = Ideal.sqrt (a i) := rfl

theorem exp_apply {s : Shape} {φ : FTy} (a : FVec Ideal s φ) (i : s.Idx) : exp a i = Ideal.exp (a i) := rfl

theorem log_apply {s : Shape} {φ : FTy} (a : FVec Ideal s φ) (i : s.Idx) : log a i = Ideal.log (a i) := rfl

theorem cmpi_apply {s : Shape} {w : ℕ} (p : CmpIPredicate) (a b : IVec s w) (i : s.Idx) :
    cmpi p a b i = IntOp.cmpi p (a i) (b i) := rfl

theorem select_cmpi_eq {α : Type} {w : ℕ} (a b : BitVec w) (x y : α) :
    Scalar.select (IntOp.cmpi .eq a b) x y = if a = b then x else y := by
  show (if BitVec.ofBool (a == b) = 1#1 then x else y) = if a = b then x else y
  by_cases h : a = b
  · have hb : (a == b) = true := beq_iff_eq.mpr h
    rw [hb, if_pos h]; exact if_pos rfl
  · have hb : (a == b) = false := beq_eq_false_iff_ne.mpr h
    rw [hb, if_neg h]; exact if_neg (by decide)

theorem laneSum_apply' (src : FVec Ideal S2048x64 .f32) (h : S2048x64.Reduces [1] S2048) (hφ : FKind.Formats .f32)
    (hacc : (0x00000000#32 : BitVec 32) = 0x00000000#32) (r : Fin 2048) :
    multiReduction (F := Ideal) .add [1] S2048 src 0x00000000#32 h hφ hacc (ValueIdx.ix1 r) = ∑ k : Fin 64, src (ix2 r k) :=
  laneSum_apply src h hφ hacc r

theorem laneMax_apply' (src : FVec Ideal S2048x64 .f32) (h : S2048x64.Reduces [1] S2048) (hφ : FKind.Formats .f32)
    (hacc : (0xFF800000#32 : BitVec 32) = 0xFF800000#32) (r : Fin 2048) :
    multiReduction (F := Ideal) .maximumf [1] S2048 src 0xFF800000#32 h hφ hacc (ValueIdx.ix1 r)
      = (Finset.univ : Finset (Fin 64)).fold max ⊥ (fun k => src (ix2 r k)) :=
  laneMax_apply src h hφ hacc r

theorem pay1_apply (v0 : Vec Ideal S2048x64 .f32) (r : Fin 2048) (k : Fin 64) :
    k0_pay1 (F := Ideal) v0 (ix2 r k) = Triplet.unitRow (fun k' => v0 (ix2 r k')) k := by
  unfold k0_pay1
  dsimp only
  rw [divf_apply, shapeCast_self, broadcastTo_a1_ab_apply, sqrt_apply, shapeCast_a_a1_apply, laneSum_apply']
  rfl

theorem pay2_apply (v0 : Vec Ideal S2048x64 .f32) (r : Fin 2048) (k : Fin 64) :
    k0_pay2 (F := Ideal) v0 (ix2 r k) = Triplet.unitRow (fun k' => v0 (ix2 r k')) k :=
  pay1_apply v0 r k

theorem shifted_apply (v0 : Vec Ideal S2048x64 .f32) (h : S2048x64.Reduces [1] S2048) (hφ : FKind.Formats .f32)
    (hacc : (0xFF800000#32 : BitVec 32) = 0xFF800000#32) (hc : S2048.ShapeCasts S2048x1)
    (hb : S2048x1.Broadcasts S2048x64) (r : Fin 2048) (k : Fin 64) :
    subf (k0_pay1 (F := Ideal) v0)
        (broadcastTo S2048x64
          (shapeCast S2048x1 (multiReduction (F := Ideal) .maximumf [1] S2048 (k0_pay1 v0) 0xFF800000#32 h hφ hacc) hc) hb)
        (ix2 r k)
      = Triplet.unitRow (fun k' => v0 (ix2 r k')) k - Triplet.maxRow (Triplet.unitRow (fun k' => v0 (ix2 r k'))) := by
  rw [subf_apply, broadcastTo_a1_ab_apply, shapeCast_a_a1_apply, laneMax_apply', pay1_apply]
  refine congrArg (fun z => Triplet.unitRow (fun k' => v0 (ix2 r k')) k - z) ?_
  unfold Triplet.maxRow
  exact congrArg (fun f => Finset.fold max ⊥ f Finset.univ) (funext fun k' => pay1_apply v0 r k')

theorem pay3_apply (v0 : Vec Ideal S2048x64 .f32) (v20 : Vec Ideal S2048x1 .i32) (r : Fin 2048) :
    k0_pay3 (F := Ideal) v0 v20 (ix2 r 0) = Triplet.ceRow (Triplet.unitRow (fun k' => v0 (ix2 r k'))) (v20 (ix2 r 0)) := by
  unfold k0_pay3
  dsimp only
  rw [subf_apply, broadcast_apply, shapeCast_a_a1_apply, laneSum_apply']
  unfold Triplet.ceRow
  rw [show FloatOps.ofBits (F := Ideal) .f32 0x00000000#32 = (0 : EReal) from Ideal.ofBits_zero_f32]
  refine congrArg (fun z => (0 : EReal) - z) (Finset.sum_congr rfl fun k _ => ?_)
  rw [select_apply, cmpi_apply, iota_single_apply, broadcastTo_a1_ab_apply, shapeCast_self, broadcast_apply, select_cmpi_eq]
  refine ite_congr rfl (fun _ => ?_) (fun _ => rfl)
  rw [subf_apply, shifted_apply, broadcastTo_a1_ab_apply, log_apply, shapeCast_a_a1_apply, laneSum_apply']
  unfold Triplet.logpRow Triplet.lseRow
  refine congrArg (fun z => Triplet.unitRow (fun k' => v0 (ix2 r k')) k
    - Triplet.maxRow (Triplet.unitRow (fun k' => v0 (ix2 r k'))) - Ideal.log z) (Finset.sum_congr rfl fun k' _ => ?_)
  rw [exp_apply, shifted_apply]

end Cert.KernelIdeal.Pay

end
-- ==== Proof.KI.HostSort.lean ====
import proofs.«412808_j68015102100189_2_alg».proof.Proof.Gen.KernelIdeal
import Idealize.ShloMosaic.Lib.SortFacts
import Idealize.ShloMosaic.Lib.ValueIdx

noncomputable section

namespace Cert.KernelIdeal.Host

open Idealize.ShloMosaic Idealize.ShloMosaic.ValueIdx

theorem ofFin_eq_ix1 {n : Nat} (k : Fin n) : (Shape.Idx.ofFin k : (⟨1, ![n]⟩ : Shape).Idx) = ValueIdx.ix1 k := by
  funext a
  have : a = 0 := Subsingleton.elim _ _
  subst this
  exact Fin.ext rfl

theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (ValueIdx.ix1 (sortedFrom (fun k k' => cmp (x (ValueIdx.ix1 k), y (ValueIdx.ix1 k)) (x (ValueIdx.ix1 k'), y (ValueIdx.ix1 k')) == 1#1) (j 0))) := by
  unfold Host.sort2
  simp [ofFin_eq_ix1]

def before {n : Nat} (t : IVec ⟨1, ![n]⟩ 32) (k k' : Fin n) : Bool := (t (ValueIdx.ix1 k)).slt (t (ValueIdx.ix1 k'))

def permN {n : Nat} (t : IVec ⟨1, ![n]⟩ 32) : Fin n → Fin n := sortedFrom (before t)

theorem permN_bijective {n : Nat} (t : IVec ⟨1, ![n]⟩ 32) : Function.Bijective (permN t) :=
  ⟨sortedFrom_injective _, sortedFrom_surjective _⟩

theorem slt_eq_decide (a b : BitVec 32) : a.slt b = decide (a.toInt < b.toInt) := rfl

theorem permN_sorted {n : Nat} (t : IVec ⟨1, ![n]⟩ 32) (i j : Fin n) (hij : i ≤ j) :
    ¬ (t (ValueIdx.ix1 (permN t j))).slt (t (ValueIdx.ix1 (permN t i))) = true := by
  rcases lt_or_eq_of_le hij with h | h
  · have := sortedFrom_noInversion (before t) (before t)
      (fun a b hab => by
        simp only [before, slt_eq_decide, decide_eq_true_eq, decide_eq_false_iff_not] at hab ⊢; omega)
      (fun a b hab => hab)
      (fun a b c hab hbc => by
        simp only [before, slt_eq_decide, decide_eq_false_iff_not] at hab hbc ⊢; omega)
      i j h
    simp only [before] at this
    unfold permN; rw [this]; exact Bool.false_ne_true
  · subst h
    simp only [slt_eq_decide, decide_eq_true_eq]; omega

theorem argsortN {n : Nat} (cmp : BitVec 32 × BitVec 32 → BitVec 32 × BitVec 32 → BitVec 1)
    (hcmp : ∀ l r, (cmp l r == 1#1) = l.1.slt r.1) (t : IVec ⟨1, ![n]⟩ 32) (j : (⟨1, ![n]⟩ : Shape).Idx) :
    (Host.sort2 ⟨1, ![n]⟩ 0 cmp t (iotaInDim ⟨1, ![n]⟩ 32 0)).2 j = BitVec.ofNat 32 (permN t (j 0)).val := by
  rw [sort2_rank1_snd]
  have hB : (fun k k' : Fin n => cmp (t (ValueIdx.ix1 k), iotaInDim ⟨1, ![n]⟩ 32 0 (ValueIdx.ix1 k)) (t (ValueIdx.ix1 k'), iotaInDim ⟨1, ![n]⟩ 32 0 (ValueIdx.ix1 k')) == 1#1)
      = before t := by
    funext k k'; exact hcmp _ _
  rw [hB]
  rfl

theorem comparator_eq (l r : BitVec 32 × BitVec 32) : (comparator_i32_i32_d0 l r == 1#1) = l.1.slt r.1 := by
  unfold comparator_i32_i32_d0 IntOp.cmpi
  cases l.1.slt r.1 <;> rfl

def perm (t : IVec S16384 32) : Fin 16384 → Fin 16384 := permN t

theorem perm_bijective (t : IVec S16384 32) : Function.Bijective (perm t) := permN_bijective t

theorem perm_sorted (t : IVec S16384 32) :
    ∀ i j : Fin 16384, i ≤ j → ¬ (t (ValueIdx.ix1 (perm t j))).slt (t (ValueIdx.ix1 (perm t i))) = true :=
  fun i j hij => permN_sorted t i j hij

theorem argsort (t : IVec S16384 32) (j : S16384.Idx) :
    (Host.sort2 S16384 0 comparator_i32_i32_d0 t (iotaInDim S16384 32 0)).2 j = BitVec.ofNat 32 (perm t (j 0)).val :=
  argsortN comparator_i32_i32_d0 comparator_eq t j

attribute [irreducible] perm

end Cert.KernelIdeal.Host

end
-- ==== Proof.KI.HostGather.lean ====
import Idealize.ShloMosaic.Lib.StableHlo.Predicate
import Idealize.ShloMosaic.Lib.ValueIdx
import Idealize.ShloMosaic.Lib.ValueLayout
import Idealize.ShloMosaic.Lib.Pipeline.Value

noncomputable section

namespace Cert.KernelIdeal.Host

open Idealize.ShloMosaic Idealize.ShloMosaic.ValueIdx
open Idealize.ShloMosaic.StableHlo.Predicate (ixP gather_take bcast_col1 toInt_ofNat_small)

theorem gather_rows {α : Type} {N M n w : Nat} (d : GatherDims ⟨2, ![N, M]⟩ ⟨2, ![n, 1]⟩ ⟨2, ![n, M]⟩)
    (hoff : d.offsetDims = [1]) (hcoll : d.collapsedSliceDims = [0]) (hob : d.operandBatchingDims = [])
    (hsim : d.startIndexMap = [0]) (hivd : d.indexVectorDim = 1)
    (x : (⟨2, ![N, M]⟩ : Shape).Idx → α) (idx : IVec ⟨2, ![n, 1]⟩ w) (p : Fin n) (k : Fin M) (hN : 0 < N) :
    Host.gather d x idx (ix2 p k) = x (ix2 ⟨min (idx (ixP p)).toInt.toNat (N - 1), by omega⟩ k) := by
  unfold Host.gather
  refine congrArg x ?_
  funext a
  apply Fin.ext
  have hb : ∀ a : Fin 2, a ∉ d.operandBatchingDims := by intro a; rw [hob]; exact List.not_mem_nil
  have e : ∀ (X : Fin 2), X = 1 → ((ix2 p k : (⟨2, ![n, M]⟩ : Shape).Idx) X).val = k.val := by
    intro X hX; subst hX; rfl
  have e0 : ∀ (X : Fin 2), X = 0 → ((ix2 p k : (⟨2, ![n, M]⟩ : Shape).Idx) X).val = p.val := by
    intro X hX; subst hX; rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx]
    show d.start (ix2 p k) idx 0 + d.batchCoord (ix2 p k) 0 + d.offCoord (ix2 p k) 0 = _
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP p)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      refine e0 _ ?_
      have hbd : d.batchDims = [0] := by
        show (⟨2, ![n, M]⟩ : Shape).kept d.offsetDims = [0]
        rw [hoff]; rfl
      rw [List.getElem_of_eq hbd]
      exact List.getElem_singleton _
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    simp only [GatherDims.operandIdx]
    show d.start (ix2 p k) idx 1 + d.batchCoord (ix2 p k) 1 + d.offCoord (ix2 p k) 1 = k.val
    rw [GatherDims.batchCoord_eq_zero _ _ _ (hb 1), Nat.add_zero]
    unfold GatherDims.start
    rw [dif_neg hm, Nat.zero_add]
    unfold GatherDims.offCoord
    rw [dif_pos hk]
    refine e _ ?_
    rw [List.getElem_of_eq hoff]
    exact List.getElem_singleton _

theorem toNat_toInt_ofNat (q : Nat) (hq : q < 2 ^ 31) : (BitVec.ofNat 32 q).toInt.toNat = q := by
  rw [toInt_ofNat_small q hq]; rfl

theorem wrap_apply {s : Shape} (v : IVec s 32) (z e : IVec s 32) (j : s.Idx) (q : Nat) (hq : q < 2 ^ 31)
    (hv : v j = BitVec.ofNat 32 q) (hz : z j = 0#32) :
    select (cmpi .slt v z) (addi v e) v j = BitVec.ofNat 32 q := by
  show Scalar.select (IntOp.cmpi .slt (v j) (z j)) (IntOp.addi (v j) (e j)) (v j) = _
  rw [hz, hv]
  have h0 : IntOp.cmpi .slt (BitVec.ofNat 32 q) 0#32 = 0#1 := by
    show BitVec.ofBool ((BitVec.ofNat 32 q).slt 0#32) = 0#1
    have : (BitVec.ofNat 32 q).slt 0#32 = false := by
      simp only [BitVec.slt, toInt_ofNat_small q hq, decide_eq_false_iff_not]
      show ¬ ((q : Int) < (0#32 : BitVec 32).toInt)
      have : (0#32 : BitVec 32).toInt = 0 := by decide
      rw [this]; omega
    rw [this]; rfl
  rw [h0]
  exact select_zero _ _

end Cert.KernelIdeal.Host

end
-- ==== Proof.KI.HostTables.lean ====
import proofs.«412808_j68015102100189_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Host

open Idealize.ShloMosaic Idealize.ShloMosaic.TcCoe Idealize.ShloMosaic.ValueIdx
open Idealize.ShloMosaic.StableHlo

variable {F : FTy → Type} [FloatOps F] [Named F]

theorem table_entry {α : Type} {N B L : Nat} (o : Nat) (x : (⟨1, ![N]⟩ : Shape).Idx → α)
    (h1 : (⟨1, ![N]⟩ : Shape).ShapeCasts ⟨2, ![B, L]⟩)
    (h2 : (⟨2, ![B, L]⟩ : Shape).Slices ![0, o] ⟨2, ![B, 1]⟩)
    (h3 : (⟨2, ![B, 1]⟩ : Shape).ShapeCasts ⟨1, ![B]⟩)
    (I : Fin B) (k : Fin N) (ho : o < L) (hk : k.val = I.val * L + o) :
    shapeCast ⟨1, ![B]⟩ (extractStridedSlice ⟨2, ![B, 1]⟩ ![0, o] (shapeCast ⟨2, ![B, L]⟩ x h1) h2) h3 (ValueIdx.ix1 I)
      = x (ValueIdx.ix1 k) := by
  refine (shapeCast_apply _ _ _ (ix2 I (0 : Fin 1)) ?_).trans ?_
  · rw [Shape.rowMajor_val_two, Shape.rowMajor_val_one]
    show I.val * 1 + 0 = I.val
    omega
  refine (slice2_axis1_apply o _ h2 I (0 : Fin 1) ⟨o, ho⟩ rfl).trans ?_
  refine shapeCast_apply _ _ _ (ValueIdx.ix1 k) ?_
  rw [Shape.rowMajor_val_two, Shape.rowMajor_val_one]
  show k.val = I.val * L + o
  exact hk

section Stretch

variable (V : Valuation τ sig (Elt F))

theorem after1_v27 (j : Fin 16384) :
    (StableHlo.after Gen.hostOps1 V (Proc.devRef .tc main_v27) : IVec S1x16384 32) (ix2 (0 : Fin 1) j)
      = (V (Proc.devRef .tc main_v14) : IVec S16384 32) (ValueIdx.ix1 j) := by
  simp only [Gen.hostOps1]
  after_results_simp
  exact shapeCast_a_1a_apply _ _ (0 : Fin 1) j

theorem after1_v19 (I : Fin 8) (k : Fin 16384) (hk : k.val = 2048 * I.val) :
    (StableHlo.after Gen.hostOps1 V (Proc.devRef .tc main_v19) : IVec S8 32) (ValueIdx.ix1 I)
      = (V (Proc.devRef .tc main_v14) : IVec S16384 32) (ValueIdx.ix1 k) := by
  simp only [Gen.hostOps1]
  after_results_simp
  exact table_entry 0 _ _ _ _ I k (by decide) (by omega)

theorem after1_v21 (I : Fin 8) (k : Fin 16384) (hk : k.val = 2048 * I.val + 2047) :
    (StableHlo.after Gen.hostOps1 V (Proc.devRef .tc main_v21) : IVec S8 32) (ValueIdx.ix1 I)
      = (V (Proc.devRef .tc main_v14) : IVec S16384 32) (ValueIdx.ix1 k) := by
  simp only [Gen.hostOps1]
  after_results_simp
  exact table_entry 2047 _ _ _ _ I k (by decide) (by omega)

theorem after1_v24 (J : Fin 16) (k : Fin 16384) (hk : k.val = 1024 * J.val) :
    (StableHlo.after Gen.hostOps1 V (Proc.devRef .tc main_v24) : IVec S16 32) (ValueIdx.ix1 J)
      = (V (Proc.devRef .tc main_v14) : IVec S16384 32) (ValueIdx.ix1 k) := by
  simp only [Gen.hostOps1]
  after_results_simp
  exact table_entry 0 _ _ _ _ J k (by decide) (by omega)

theorem after1_v26 (J : Fin 16) (k : Fin 16384) (hk : k.val = 1024 * J.val + 1023) :
    (StableHlo.after Gen.hostOps1 V (Proc.devRef .tc main_v26) : IVec S16 32) (ValueIdx.ix1 J)
      = (V (Proc.devRef .tc main_v14) : IVec S16384 32) (ValueIdx.ix1 k) := by
  simp only [Gen.hostOps1]
  after_results_simp
  exact table_entry 1023 _ _ _ _ J k (by decide) (by omega)

end Stretch

end Cert.KernelIdeal.Host

end
-- ==== Proof.KI.HostHead.lean ====
import proofs.«412808_j68015102100189_2_alg».proof.Proof.Gen.KernelIdeal.Regions
import proofs.«412808_j68015102100189_2_alg».proof.Proof.KI.HostSort
import proofs.«412808_j68015102100189_2_alg».proof.Proof.KI.HostGather
import proofs.«412808_j68015102100189_2_alg».proof.Proof.KI.HostTables
import Idealize.ShloMosaic.Lib.StableHlo.Run

noncomputable section

namespace Cert.KernelIdeal.Host

open Idealize.ShloMosaic Idealize.ShloMosaic.TcCoe Idealize.ShloMosaic.ValueIdx
open Idealize.ShloMosaic.StableHlo
open Idealize.ShloMosaic.StableHlo.Predicate (ixP gather_take bcast_col1)

variable {F : FTy → Type} [FloatOps F] [Named F]

theorem rows_at {α : Type} (d : GatherDims S16384x64 S16384x1 S16384x64)
    (hoff : d.offsetDims = [1]) (hcoll : d.collapsedSliceDims = [0]) (hob : d.operandBatchingDims = [])
    (hsim : d.startIndexMap = [0]) (hivd : d.indexVectorDim = 1)
    (x : S16384x64.Idx → α) (v z e : IVec S16384 32) (h : S16384.BroadcastsInDim S16384x1 (![0] : Fin 1 → Fin S16384x1.rank))
    (σ : Fin 16384 → Fin 16384) (hv : ∀ j, v j = BitVec.ofNat 32 (σ (j 0)).val) (hz : ∀ j, z j = 0#32)
    (i : Fin 16384) (k : Fin 64) :
    Host.gather d x (broadcastInDim S16384x1 ![0] h (select (cmpi .slt v z) (addi v e) v)) (ix2 i k) = x (ix2 (σ i) k) := by
  rw [gather_rows d hoff hcoll hob hsim hivd x _ i k (by decide)]
  refine congrArg (fun q => x (ix2 q k)) (Fin.ext ?_)
  show min _ (16384 - 1) = (σ i).val
  have hσ := (σ i).isLt
  rw [bcast_col1, wrap_apply v z e _ (σ i).val (by omega) ((hv _).trans (by rw [Shape.Idx.ofFin_zero])) (hz _),
    toNat_toInt_ofNat _ (by omega)]
  omega

theorem take_at {α : Type} (d : GatherDims S16384 S16384x1 S16384)
    (hcoll : d.collapsedSliceDims = [0]) (hob : d.operandBatchingDims = [])
    (hsim : d.startIndexMap = [0]) (hivd : d.indexVectorDim = 1)
    (x : S16384.Idx → α) (v z e : IVec S16384 32) (h : S16384.BroadcastsInDim S16384x1 (![0] : Fin 1 → Fin S16384x1.rank))
    (σ : Fin 16384 → Fin 16384) (hv : ∀ j, v j = BitVec.ofNat 32 (σ (j 0)).val) (hz : ∀ j, z j = 0#32)
    (i : Fin 16384) :
    Host.gather d x (broadcastInDim S16384x1 ![0] h (select (cmpi .slt v z) (addi v e) v)) (ValueIdx.ix1 i) = x (ValueIdx.ix1 (σ i)) := by
  rw [← ofFin_eq_ix1, gather_take d hcoll hob hsim hivd x _ i (by decide), ofFin_eq_ix1]
  refine congrArg (fun q => x (ValueIdx.ix1 q)) (Fin.ext ?_)
  show min _ (16384 - 1) = (σ i).val
  have hσ := (σ i).isLt
  rw [bcast_col1, wrap_apply v z e _ (σ i).val (by omega) ((hv _).trans (by rw [Shape.Idx.ofFin_zero])) (hz _),
    toNat_toInt_ofNat _ (by omega)]
  omega

section Stretch

variable (V : Valuation τ sig (Elt F))

theorem after0_v0 :
    (StableHlo.after Gen.hostOps0 V (Proc.devRef .tc main_v0) : IVec S16384 32)
      = (Host.sort2 S16384 0 comparator_i32_i32_d0 (V (Proc.devRef .tc main_arg1) : IVec S16384 32) (iotaInDim S16384 32 0)).2 := by
  simp only [Gen.hostOps0]
  after_results
  simp only [TRef.ofBuf, TRef.toBuf, cast_eq]

theorem after01_v7 (σ : Fin 16384 → Fin 16384)
    (hv : ∀ j, (V (Proc.devRef .tc main_v0) : IVec S16384 32) j = BitVec.ofNat 32 (σ (j 0)).val) (i : Fin 16384) (k : Fin 64) :
    (StableHlo.after Gen.hostOps0_1 V (Proc.devRef .tc main_v7) : Vec F S16384x64 .f32) (ix2 i k)
      = (V (Proc.devRef .tc main_arg0) : Vec F S16384x64 .f32) (ix2 (σ i) k) := by
  simp only [Gen.hostOps0_1]
  after_results_simp
  exact rows_at _ rfl rfl rfl rfl rfl _ _ _ _ _ σ hv (fun _ => rfl) i k

theorem after01_v14 (σ : Fin 16384 → Fin 16384)
    (hv : ∀ j, (V (Proc.devRef .tc main_v0) : IVec S16384 32) j = BitVec.ofNat 32 (σ (j 0)).val) (i : Fin 16384) :
    (StableHlo.after Gen.hostOps0_1 V (Proc.devRef .tc main_v14) : IVec S16384 32) (ValueIdx.ix1 i)
      = (V (Proc.devRef .tc main_arg1) : IVec S16384 32) (ValueIdx.ix1 (σ i)) := by
  simp only [Gen.hostOps0_1]
  after_results_simp
  exact take_at _ rfl rfl rfl rfl _ _ _ _ _ σ hv (fun _ => rfl) i

theorem after01_v15 (σ : Fin 16384 → Fin 16384)
    (hv : ∀ j, (V (Proc.devRef .tc main_v0) : IVec S16384 32) j = BitVec.ofNat 32 (σ (j 0)).val) (i : Fin 16384) :
    (StableHlo.after Gen.hostOps0_1 V (Proc.devRef .tc main_v15) : IVec S16384x1 32) (ix2 i (0 : Fin 1))
      = (V (Proc.devRef .tc main_arg1) : IVec S16384 32) (ValueIdx.ix1 (σ i)) := by
  simp only [Gen.hostOps0_1]
  after_results_simp
  refine (shapeCast_apply _ _ _ (ValueIdx.ix1 i) ?_).trans ?_
  · show ((⟨1, ![16384]⟩ : Shape).rowMajor (ValueIdx.ix1 i)).val = ((⟨2, ![16384, 1]⟩ : Shape).rowMajor (ix2 i (0 : Fin 1))).val
    rw [Shape.rowMajor_val_two, Shape.rowMajor_val_one]
    show i.val = i.val * 1 + 0
    omega
  · exact take_at _ rfl rfl rfl rfl _ _ _ _ _ σ hv (fun _ => rfl) i

end Stretch

section Buffers

variable (m : (ℓ : Loc nD τ sig) → Buf (Elt F) ℓ) (outs : Gen.Outs (F := F))

abbrev tgt (c : Dev nD) : IVec S16384 32 := m ((c : Thread nD τ).loc main_arg1)

abbrev feat (c : Dev nD) : Vec F S16384x64 .f32 := m ((c : Thread nD τ).loc main_arg0)

theorem V1_v0 (c : Dev nD) (j : S16384.Idx) :
    (Gen.V1 m c main_v0 : IVec S16384 32) j = BitVec.ofNat 32 (perm (tgt m c) (j 0)).val := by
  show (StableHlo.after Gen.hostOps0 (Gen.V0 m c) (Proc.devRef .tc main_v0) : IVec S16384 32) j = _
  rw [after0_v0]
  exact argsort _ j

theorem V2_v7 (c : Dev nD) (i : Fin 16384) (k : Fin 64) :
    (Gen.V2 m c main_v7 : Vec F S16384x64 .f32) (ix2 i k) = feat m c (ix2 (perm (tgt m c) i) k) := by
  show (StableHlo.after Gen.hostOps0_1 (Gen.V1 m c) (Proc.devRef .tc main_v7) : Vec F S16384x64 .f32) (ix2 i k) = _
  rw [after01_v7 (Gen.V1 m c) (perm (tgt m c)) (V1_v0 m c) i k, Gen.V1_of m c main_arg0 (by decide)]

theorem V2_v14 (c : Dev nD) (i : Fin 16384) :
    (Gen.V2 m c main_v14 : IVec S16384 32) (ValueIdx.ix1 i) = tgt m c (ValueIdx.ix1 (perm (tgt m c) i)) := by
  show (StableHlo.after Gen.hostOps0_1 (Gen.V1 m c) (Proc.devRef .tc main_v14) : IVec S16384 32) (ValueIdx.ix1 i) = _
  rw [after01_v14 (Gen.V1 m c) (perm (tgt m c)) (V1_v0 m c) i, Gen.V1_of m c main_arg1 (by decide)]

theorem V2_v15 (c : Dev nD) (i : Fin 16384) :
    (Gen.V2 m c main_v15 : IVec S16384x1 32) (ix2 i (0 : Fin 1)) = tgt m c (ValueIdx.ix1 (perm (tgt m c) i)) := by
  show (StableHlo.after Gen.hostOps0_1 (Gen.V1 m c) (Proc.devRef .tc main_v15) : IVec S16384x1 32) (ix2 i (0 : Fin 1)) = _
  rw [after01_v15 (Gen.V1 m c) (perm (tgt m c)) (V1_v0 m c) i, Gen.V1_of m c main_arg1 (by decide)]

end Buffers

section Tables

variable (m : (ℓ : Loc nD τ sig) → Buf (Elt F) ℓ) (outs : Gen.Outs (F := F))

theorem V3_v14 (c : Dev nD) (i : Fin 16384) :
    (Gen.V3 m outs c main_v14 : IVec S16384 32) (ValueIdx.ix1 i) = tgt m c (ValueIdx.ix1 (perm (tgt m c) i)) := by
  rw [Gen.V3_of m outs c main_v14 (by decide)]
  exact V2_v14 m c i

theorem V4_v27 (c : Dev nD) (j : Fin 16384) :
    (Gen.V4 m outs c main_v27 : IVec S1x16384 32) (ix2 (0 : Fin 1) j) = tgt m c (ValueIdx.ix1 (perm (tgt m c) j)) := by
  show (StableHlo.after Gen.hostOps1 (Gen.V3 m outs c) (Proc.devRef .tc main_v27) : IVec S1x16384 32) (ix2 (0 : Fin 1) j) = _
  rw [after1_v27]
  exact V3_v14 m outs c j

theorem V4_v19 (c : Dev nD) (I : Fin 8) :
    (Gen.V4 m outs c main_v19 : IVec S8 32) (ValueIdx.ix1 I)
      = tgt m c (ValueIdx.ix1 (perm (tgt m c) ⟨2048 * I.val, by omega⟩)) := by
  show (StableHlo.after Gen.hostOps1 (Gen.V3 m outs c) (Proc.devRef .tc main_v19) : IVec S8 32) (ValueIdx.ix1 I) = _
  rw [after1_v19 (Gen.V3 m outs c) I ⟨2048 * I.val, by omega⟩ rfl]
  exact V3_v14 m outs c _

theorem V4_v21 (c : Dev nD) (I : Fin 8) :
    (Gen.V4 m outs c main_v21 : IVec S8 32) (ValueIdx.ix1 I)
      = tgt m c (ValueIdx.ix1 (perm (tgt m c) ⟨2048 * I.val + 2047, by omega⟩)) := by
  show (StableHlo.after Gen.hostOps1 (Gen.V3 m outs c) (Proc.devRef .tc main_v21) : IVec S8 32) (ValueIdx.ix1 I) = _
  rw [after1_v21 (Gen.V3 m outs c) I ⟨2048 * I.val + 2047, by omega⟩ rfl]
  exact V3_v14 m outs c _

theorem V4_v24 (c : Dev nD) (J : Fin 16) :
    (Gen.V4 m outs c main_v24 : IVec S16 32) (ValueIdx.ix1 J)
      = tgt m c (ValueIdx.ix1 (perm (tgt m c) ⟨1024 * J.val, by omega⟩)) := by
  show (StableHlo.after Gen.hostOps1 (Gen.V3 m outs c) (Proc.devRef .tc main_v24) : IVec S16 32) (ValueIdx.ix1 J) = _
  rw [after1_v24 (Gen.V3 m outs c) J ⟨1024 * J.val, by omega⟩ rfl]
  exact V3_v14 m outs c _

theorem V4_v26 (c : Dev nD) (J : Fin 16) :
    (Gen.V4 m outs c main_v26 : IVec S16 32) (ValueIdx.ix1 J)
      = tgt m c (ValueIdx.ix1 (perm (tgt m c) ⟨1024 * J.val + 1023, by omega⟩)) := by
  show (StableHlo.after Gen.hostOps1 (Gen.V3 m outs c) (Proc.devRef .tc main_v26) : IVec S16 32) (ValueIdx.ix1 J) = _
  rw [after1_v26 (Gen.V3 m outs c) J ⟨1024 * J.val + 1023, by omega⟩ rfl]
  exact V3_v14 m outs c _

theorem V4_keep15 (c : Dev nD) : Gen.V4 m outs c main_v15 = Gen.V2 m c main_v15 :=
  (Gen.V4_of m outs c main_v15 (by decide)).trans (Gen.V3_of m outs c main_v15 (by decide))

theorem V4_v16_0 (c : Dev nD) : Gen.V4 m outs c main_v16_0 = outs 3 main_v16_0 c := by
  rw [Gen.V4_of m outs c main_v16_0 (by decide)]
  show Function.update (Function.update (Gen.V2 m c) (Proc.devRef .tc main_v16_0) (outs 3 main_v16_0 c))
    (Proc.devRef .tc main_v16_1) (outs 3 main_v16_1 c) (Proc.devRef .tc main_v16_0) = _
  rw [Function.update_of_ne (StableHlo.devRef_ne_of_ne (by decide)), Function.update_self]

theorem V4_v16_1 (c : Dev nD) : Gen.V4 m outs c main_v16_1 = outs 3 main_v16_1 c := by
  rw [Gen.V4_of m outs c main_v16_1 (by decide)]
  show Function.update (Function.update (Gen.V2 m c) (Proc.devRef .tc main_v16_0) (outs 3 main_v16_0 c))
    (Proc.devRef .tc main_v16_1) (outs 3 main_v16_1 c) (Proc.devRef .tc main_v16_1) = _
  rw [Function.update_self]

end Tables

end Cert.KernelIdeal.Host

end
-- ==== Proof.KI.Value0.lean ====
import proofs.«412808_j68015102100189_2_alg».proof.Proof.KI.Reg0
import proofs.«412808_j68015102100189_2_alg».proof.Proof.KI.Reg0Arr
import proofs.«412808_j68015102100189_2_alg».proof.Proof.KI.Pay0
import proofs.«412808_j68015102100189_2_alg».proof.Proof.KI.HostSort
import proofs.«412808_j68015102100189_2_alg».proof.Proof.KI.HostHead
import proofs.«412808_j68015102100189_2_alg».proof.Proof.Gen.KernelIdeal.Regions
import proofs.«412808_j68015102100189_2_alg».proof.Proof.Spec
import Idealize.ShloMosaic.Lib.ValueIdx

noncomputable section

namespace Cert.KernelIdeal.Value

open Cert.KernelIdeal Cert.KernelIdeal.Gen
open Idealize.ShloMosaic Idealize.ShloMosaic.TcCoe Idealize.ShloMosaic.ValueIdx

variable (m : (ℓ : Loc nD τ sig) → Buf (Elt Ideal) ℓ)

abbrev Vin (c : Dev nD) (b : Ref sig .tc) : Buf (Elt Ideal) ((c : Thread nD τ).loc b) := Gen.V2 m c b

abbrev X (c : Dev nD) : Triplet.Rows := fun i k => m ((c : Thread nD τ).loc main_arg0) (ix2 i k)

abbrev T (c : Dev nD) : Triplet.Labels := fun i => m ((c : Thread nD τ).loc main_arg1) (ValueIdx.ix1 i)

abbrev σ (c : Dev nD) : Fin 16384 → Fin 16384 := Host.perm (m ((c : Thread nD τ).loc main_arg1))

abbrev Xs (c : Dev nD) : Triplet.Rows := fun i => X m c (σ m c i)

abbrev Ts (c : Dev nD) : Triplet.Labels := fun i => T m c (σ m c i)

theorem split_row (i : Fin 16384) :
    ∃ (I : Fin 8) (r : Fin 2048), i = ⟨2048 * I.val + r.val, by omega⟩ :=
  ⟨⟨i.val / 2048, by omega⟩, ⟨i.val % 2048, Nat.mod_lt _ (by norm_num)⟩, Fin.ext (Nat.div_add_mod i.val 2048).symm⟩

theorem row_eq (c : Dev nD) (i : Fin 16384) :
    (fun k' : Fin 64 => Vin m c main_v7 (ix2 i k')) = Xs m c i :=
  funext fun k' => Host.V2_v7 m c i k'

theorem lab_eq (c : Dev nD) (i : Fin 16384) :
    Vin m c main_v15 (ix2 i (0 : Fin 1)) = Ts m c i :=
  Host.V2_v15 m c i

theorem val0_2 (c : Dev nD) (i : Fin 16384) (k : Fin 64) :
    (R0.dat0 (F := Ideal) (Vin m) c).arrAt 2 cfg0.N (ix2 i k) = Triplet.unit (Xs m c) i k := by
  obtain ⟨I, r, rfl⟩ := split_row i
  have hlt : 2048 * I.val + r.val < 16384 := by omega
  rw [R0.arr0_2 (F := Ideal) (Vin m) c I r k, Pay.pay2_apply]
  show Triplet.unitRow (fun k' : Fin 64 => Vin m c main_v7 (ix2 (⟨2048 * I.val + r.val, hlt⟩ : Fin 16384) k')) k
    = Triplet.unitRow (Xs m c ⟨2048 * I.val + r.val, hlt⟩) k
  exact congrArg (fun a => Triplet.unitRow a k) (row_eq m c ⟨2048 * I.val + r.val, hlt⟩)

theorem val0_3 (c : Dev nD) (i : Fin 16384) :
    (R0.dat0 (F := Ideal) (Vin m) c).arrAt 3 cfg0.N (ix2 i (0 : Fin 1)) = Triplet.ceRow (Triplet.unit (Xs m c) i) (Ts m c i) := by
  obtain ⟨I, r, rfl⟩ := split_row i
  have hlt : 2048 * I.val + r.val < 16384 := by omega
  rw [R0.arr0_3 (F := Ideal) (Vin m) c I r, Pay.pay3_apply]
  show Triplet.ceRow (Triplet.unitRow (fun k' : Fin 64 => Vin m c main_v7 (ix2 (⟨2048 * I.val + r.val, hlt⟩ : Fin 16384) k')))
      (Vin m c main_v15 (ix2 (⟨2048 * I.val + r.val, hlt⟩ : Fin 16384) (0 : Fin 1)))
    = Triplet.ceRow (Triplet.unitRow (Xs m c ⟨2048 * I.val + r.val, hlt⟩)) (Ts m c ⟨2048 * I.val + r.val, hlt⟩)
  exact congrArg₂ (fun a w => Triplet.ceRow (Triplet.unitRow a) w)
    (row_eq m c ⟨2048 * I.val + r.val, hlt⟩) (lab_eq m c ⟨2048 * I.val + r.val, hlt⟩)

end Cert.KernelIdeal.Value

end
-- ==== Proof.KI.Reg1Arr.lean ====
import proofs.«412808_j68015102100189_2_alg».proof.Proof.KI.Reg1Dat
import Idealize.ShloMosaic.Lib.Pipeline.Value
import Idealize.ShloMosaic.Lib.ValueIdx

noncomputable section

namespace Cert.KernelIdeal.R1

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F] [Named F]

theorem idx1_4 (a : (pcfg1 (F := F)).Adm) : ∀ t : Fin (cfg1 a).N,
    ((cfg1 a).win 4).index t (0 : Fin 2) = t.val / 16 ∧ ((cfg1 a).win 4).index t (1 : Fin 2) = 0 :=
  (by decide +kernel : ∀ t : Fin grid1.N, cc1_transform_4 (grid1.coords t) (0 : Fin 2) = t.val / 16 ∧ cc1_transform_4 (grid1.coords t) (1 : Fin 2) = 0)

theorem idx1_5 (a : (pcfg1 (F := F)).Adm) : ∀ t : Fin (cfg1 a).N,
    ((cfg1 a).win 5).index t (0 : Fin 2) = t.val / 16 ∧ ((cfg1 a).win 5).index t (1 : Fin 2) = 0 :=
  (by decide +kernel : ∀ t : Fin grid1.N, cc1_transform_5 (grid1.coords t) (0 : Fin 2) = t.val / 16 ∧ cc1_transform_5 (grid1.coords t) (1 : Fin 2) = 0)

theorem disjoint1_4 (a : (pcfg1 (F := F)).Adm) : ∀ t t' : Fin (cfg1 a).N, ((cfg1 a).win 4).flush t = true → ((cfg1 a).win 4).flush t' = true → t ≠ t' →
    Disjoint (((cfg1 a).win 4).blk t).view.set (((cfg1 a).win 4).blk t').view.set := by
  intro t t' hf hf' hne
  refine ((cfg1 a).win 4).disjoint_blk fun h => hne ?_
  rw [flush1_4 a t, decide_eq_true_eq] at hf
  rw [flush1_4 a t', decide_eq_true_eq] at hf'
  have h0 : ((cfg1 a).win 4).index t (0 : Fin 2) = ((cfg1 a).win 4).index t' (0 : Fin 2) := congrFun h (show Fin ((cfg1 a).win 4).shape.rank from (0 : Fin 2))
  rw [(idx1_4 a t).1, (idx1_4 a t').1] at h0
  apply Fin.ext; omega

theorem disjoint1_5 (a : (pcfg1 (F := F)).Adm) : ∀ t t' : Fin (cfg1 a).N, ((cfg1 a).win 5).flush t = true → ((cfg1 a).win 5).flush t' = true → t ≠ t' →
    Disjoint (((cfg1 a).win 5).blk t).view.set (((cfg1 a).win 5).blk t').view.set := by
  intro t t' hf hf' hne
  refine ((cfg1 a).win 5).disjoint_blk fun h => hne ?_
  rw [flush1_5 a t, decide_eq_true_eq] at hf
  rw [flush1_5 a t', decide_eq_true_eq] at hf'
  have h0 : ((cfg1 a).win 5).index t (0 : Fin 2) = ((cfg1 a).win 5).index t' (0 : Fin 2) := congrFun h (show Fin ((cfg1 a).win 5).shape.rank from (0 : Fin 2))
  rw [(idx1_5 a t).1, (idx1_5 a t').1] at h0
  apply Fin.ext; omega

variable (V : (c : Dev nD) → (b : Ref sig .tc) → Buf (Elt F) ((c : Thread nD τ).loc b)) (pf : pre1.Contents (Elt F))

def ptLast (I : Fin 8) : Fin (cfgM pf).N := pt pf (16 * I.val + 15) (by have := I.isLt; omega)

theorem ptLast_val (I : Fin 8) : (ptLast pf I).val = 16 * I.val + 15 := rfl

theorem flush_ptLast_4 (I : Fin 8) : ((cfgM pf).win 4).flush (ptLast pf I) = true := by
  rw [flush1_4 (adm pf), decide_eq_true_eq, ptLast_val]; omega
theorem flush_ptLast_5 (I : Fin 8) : ((cfgM pf).win 5).flush (ptLast pf I) = true := by
  rw [flush1_5 (adm pf), decide_eq_true_eq, ptLast_val]; omega

theorem flushed1_4 (c : Dev nD) (t : Fin (cfgM pf).N) : (dat1 V pf c).flushed 4 t = (outsAt1 V pf c t.val (lt128 pf t)).1 := by
  show ((cfgM pf).win 4).cut (grid1.coords t) ((dat1 V pf c).after 4 t) = _
  rw [after1_4]
  rfl

theorem flushed1_5 (c : Dev nD) (t : Fin (cfgM pf).N) : (dat1 V pf c).flushed 5 t = (outsAt1 V pf c t.val (lt128 pf t)).2 := by
  show ((cfgM pf).win 5).cut (grid1.coords t) ((dat1 V pf c).after 5 t) = _
  rw [after1_5]
  rfl

theorem arr1_4 (c : Dev nD) (I : Fin 8) (r : Fin 2048) :
    (dat1 V pf c).arrAt 4 (cfgM pf).N (ix2 ⟨2048 * I.val + r.val, by have := I.isLt; have := r.isLt; omega⟩ (0 : Fin 1))
      = (outsAt1 V pf c (16 * I.val + 15) (by have := I.isLt; omega)).1 (ix2 r (0 : Fin 1)) := by
  have h := (dat1 V pf c).arrAt_emb_eq_flushed 4 (disjoint1_4 (adm pf)) (ptLast pf I) (flush_ptLast_4 pf I) (ix2 r (0 : Fin 1))
  have e : (((cfgM pf).win 4).blk (ptLast pf I)).view.emb (ix2 r (0 : Fin 1))
      = ix2 ⟨2048 * I.val + r.val, by have := I.isLt; have := r.isLt; omega⟩ (0 : Fin 1) := by
    funext a; apply Fin.ext
    obtain ⟨e0, e1⟩ := idx1_4 (adm pf) (ptLast pf I)
    match a with
    | ⟨0, _⟩ => show ((cfgM pf).win 4).index (ptLast pf I) (0 : Fin 2) * 2048 + 1 * r.val = 2048 * I.val + r.val; rw [e0, ptLast_val]; omega
    | ⟨1, _⟩ => show ((cfgM pf).win 4).index (ptLast pf I) (1 : Fin 2) * 1 + 1 * 0 = 0; rw [e1]
  rw [e] at h
  rw [h, flushed1_4]
  rfl

theorem arr1_5 (c : Dev nD) (I : Fin 8) (r : Fin 2048) :
    (dat1 V pf c).arrAt 5 (cfgM pf).N (ix2 ⟨2048 * I.val + r.val, by have := I.isLt; have := r.isLt; omega⟩ (0 : Fin 1))
      = (outsAt1 V pf c (16 * I.val + 15) (by have := I.isLt; omega)).2 (ix2 r (0 : Fin 1)) := by
  have h := (dat1 V pf c).arrAt_emb_eq_flushed 5 (disjoint1_5 (adm pf)) (ptLast pf I) (flush_ptLast_5 pf I) (ix2 r (0 : Fin 1))
  have e : (((cfgM pf).win 5).blk (ptLast pf I)).view.emb (ix2 r (0 : Fin 1))
      = ix2 ⟨2048 * I.val + r.val, by have := I.isLt; have := r.isLt; omega⟩ (0 : Fin 1) := by
    funext a; apply Fin.ext
    obtain ⟨e0, e1⟩ := idx1_5 (adm pf) (ptLast pf I)
    match a with
    | ⟨0, _⟩ => show ((cfgM pf).win 5).index (ptLast pf I) (0 : Fin 2) * 2048 + 1 * r.val = 2048 * I.val + r.val; rw [e0, ptLast_val]; omega
    | ⟨1, _⟩ => show ((cfgM pf).win 5).index (ptLast pf I) (1 : Fin 2) * 1 + 1 * 0 = 0; rw [e1]
  rw [e] at h
  rw [h, flushed1_5]
  rfl

end Cert.KernelIdeal.R1

end
-- ==== Proof.KI.Value1a.lean ====
import proofs.«412808_j68015102100189_2_alg».proof.Proof.KI.Reg1Pts
import proofs.«412808_j68015102100189_2_alg».proof.Proof.Spec
import Idealize.ShloMosaic.Lib.ValueIdx

noncomputable section

namespace Cert.KernelIdeal.Value1

open Cert.KernelIdeal Cert.KernelIdeal.Gen
open Idealize.ShloMosaic Idealize.ShloMosaic.TcCoe Idealize.SL.Sem
open Idealize.ShloMosaic.ValueIdx

variable {F : FTy → Type} [FloatOps F] [Named F]

theorem cond2_iff (a b c d : BitVec 32) : k1_cond2 a b c d = 1#1 ↔ (b.slt c = true ∨ d.slt a = true) := by
  unfold k1_cond2
  dsimp only
  show Scalar.cmpi .ne (Scalar.extui (Scalar.ori (BitVec.ofBool (b.slt c)) (BitVec.ofBool (d.slt a)))) 0#32 = 1#1 ↔ _
  generalize b.slt c = p
  generalize d.slt a = q
  revert p q
  decide

theorem coords_facts : ∀ t : Fin grid1.N, ((grid1.coords t) 0).val = t.val / 16 ∧ ((grid1.coords t) 1).val = t.val % 16 := by
  decide +kernel

theorem off_facts : ∀ t : Fin grid1.N, k1_off1 (grid1.coords t) 0 = t.val / 16 ∧ k1_off2 (grid1.coords t) 0 = t.val % 16 := by
  decide +kernel

theorem idx_facts1 (a : (pcfg1 (F := F)).Adm) : ∀ t : Fin (cfg1 a).N,
    ((cfg1 a).win 0).index t (0 : Fin 2) = t.val / 16 ∧ ((cfg1 a).win 0).index t (1 : Fin 2) = 0
    ∧ ((cfg1 a).win 1).index t (0 : Fin 2) = t.val % 16 ∧ ((cfg1 a).win 1).index t (1 : Fin 2) = 0
    ∧ ((cfg1 a).win 2).index t (0 : Fin 2) = t.val / 16 ∧ ((cfg1 a).win 2).index t (1 : Fin 2) = 0
    ∧ ((cfg1 a).win 3).index t (0 : Fin 2) = 0 ∧ ((cfg1 a).win 3).index t (1 : Fin 2) = t.val % 16 :=
  (by decide +kernel : ∀ t : Fin grid1.N,
    cc1_transform_0 (grid1.coords t) (0 : Fin 2) = t.val / 16 ∧ cc1_transform_0 (grid1.coords t) (1 : Fin 2) = 0
    ∧ cc1_transform_1 (grid1.coords t) (0 : Fin 2) = t.val % 16 ∧ cc1_transform_1 (grid1.coords t) (1 : Fin 2) = 0
    ∧ cc1_transform_2 (grid1.coords t) (0 : Fin 2) = t.val / 16 ∧ cc1_transform_2 (grid1.coords t) (1 : Fin 2) = 0
    ∧ cc1_transform_3 (grid1.coords t) (0 : Fin 2) = 0 ∧ cc1_transform_3 (grid1.coords t) (1 : Fin 2) = t.val % 16)

theorem atD_eq (pf : pre1.Contents (Elt F)) (k : Fin pre1.K) [Inhabited (Elt F (pre1.ref k).ty.elt)]
    (off : Fin (pre1.ref k).ty.shape.rank → Nat) (x : (pre1.ref k).ty.shape.Idx) (h : ∀ a, off a = (x a).val) :
    pf.atD k off = pf k x := by
  have hb : ∀ a, off a + 1 ≤ (pre1.ref k).ty.shape.size a := fun a => by rw [h a]; exact (x a).isLt
  show (if h : ∀ a, off a + 1 ≤ (pre1.ref k).ty.shape.size a then pf k (fun a => ⟨off a, h a⟩) else default) = _
  rw [dif_pos hb]
  exact congrArg (pf k) (funext fun a => Fin.ext (h a))

end Cert.KernelIdeal.Value1

end
-- ==== Proof.KI.Pay1.lean ====
import proofs.«412808_j68015102100189_2_alg».proof.Proof.Gen.KernelIdeal.Skeleton
import proofs.«412808_j68015102100189_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Pay1

open Cert.KernelIdeal Cert.KernelIdeal.Gen Idealize.ShloMosaic Idealize.ShloMosaic.ValueIdx

theorem pay1_apply (r : Fin 2048) : k1_pay1 (F := Ideal) (ix2 r 0) = Triplet.cTwo := rfl

theorem pay2_apply (r : Fin 2048) : k1_pay2 (F := Ideal) (ix2 r 0) = ⊥ :=
  IdealRules.named_const.ideal_named_scalar _ _ _ _ rfl

theorem lhs_axis0 (i : S2048x1024.Idx) (c : dot_S2048x64_S64x1024_S2048x1024_1_0_0_1_n_n.contr.Idx) :
    (dot_S2048x64_S64x1024_S2048x1024_1_0_0_1_n_n.lhsIdx i c 0).val = (i 0).val := by
  unfold DotDims.lhsIdx
  rw [dif_neg (show ¬(0 : Fin S2048x64.rank) ∈ dot_S2048x64_S64x1024_S2048x1024_1_0_0_1_n_n.lhsBatch by decide), dif_pos (show (0 : Fin S2048x64.rank) ∈ dot_S2048x64_S64x1024_S2048x1024_1_0_0_1_n_n.lhsNonContracting by decide)]
  rfl
theorem lhs_axis1 (i : S2048x1024.Idx) (c : dot_S2048x64_S64x1024_S2048x1024_1_0_0_1_n_n.contr.Idx) :
    (dot_S2048x64_S64x1024_S2048x1024_1_0_0_1_n_n.lhsIdx i c 1).val = (c ⟨0, by decide⟩).val :=
  dot_S2048x64_S64x1024_S2048x1024_1_0_0_1_n_n.lhsIdx_val_of_single rfl i c
theorem rhs_axis0 (i : S2048x1024.Idx) (c : dot_S2048x64_S64x1024_S2048x1024_1_0_0_1_n_n.contr.Idx) :
    (dot_S2048x64_S64x1024_S2048x1024_1_0_0_1_n_n.rhsIdx i c 0).val = (c ⟨0, by decide⟩).val :=
  dot_S2048x64_S64x1024_S2048x1024_1_0_0_1_n_n.rhsIdx_val_of_single rfl i c
theorem rhs_axis1 (i : S2048x1024.Idx) (c : dot_S2048x64_S64x1024_S2048x1024_1_0_0_1_n_n.contr.Idx) :
    (dot_S2048x64_S64x1024_S2048x1024_1_0_0_1_n_n.rhsIdx i c 1).val = (i 1).val := by
  unfold DotDims.rhsIdx
  rw [dif_neg (show ¬(1 : Fin S64x1024.rank) ∈ dot_S2048x64_S64x1024_S2048x1024_1_0_0_1_n_n.rhsBatch by decide), dif_pos (show (1 : Fin S64x1024.rank) ∈ dot_S2048x64_S64x1024_S2048x1024_1_0_0_1_n_n.rhsNonContracting by decide)]
  rfl

theorem pay3_apply (v3 : Vec Ideal S2048x64 .bf16) (v5 : Vec Ideal S1024x64 .bf16) (r : Fin 2048) (q : Fin 1024) :
    k1_pay3 (F := Ideal) v3 v5 (ix2 r q) = Triplet.simRow (fun k => v3 (ix2 r k)) (fun k => v5 (ix2 q k)) := by
  unfold k1_pay3
  simp only [shapeCast_self, matmul]
  rw [Ideal.matmul_constant_zero_apply, ← Equiv.sum_comp (contrEquiv1 dot_S2048x64_S64x1024_S2048x1024_1_0_0_1_n_n 64 rfl rfl).symm]
  unfold Triplet.simRow
  refine Finset.sum_congr rfl fun k _ => ?_
  have hk := contrEquiv1_symm_val dot_S2048x64_S64x1024_S2048x1024_1_0_0_1_n_n 64 rfl rfl k
  have el : dot_S2048x64_S64x1024_S2048x1024_1_0_0_1_n_n.lhsIdx (ix2 r q) ((contrEquiv1 dot_S2048x64_S64x1024_S2048x1024_1_0_0_1_n_n 64 rfl rfl).symm k) = ix2 r k := funext fun a => Fin.ext (by
    match a with
    | ⟨0, _⟩ => exact lhs_axis0 _ _
    | ⟨1, _⟩ => exact (lhs_axis1 _ _).trans hk)
  have er : dot_S2048x64_S64x1024_S2048x1024_1_0_0_1_n_n.rhsIdx (ix2 r q) ((contrEquiv1 dot_S2048x64_S64x1024_S2048x1024_1_0_0_1_n_n 64 rfl rfl).symm k) = ix2 k q := funext fun a => Fin.ext (by
    match a with
    | ⟨0, _⟩ => exact (rhs_axis0 _ _).trans hk
    | ⟨1, _⟩ => exact rhs_axis1 _ _)
  rw [el, er, transpose_ix2_apply]

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_lane {a b : ℕ} (h : (⟨2, ![a, b]⟩ : Shape).Reduces [1] ⟨1, ![a]⟩) (p : Fin a) (k : Fin b) :
    h.lift (ValueIdx.ix1 p) k = ix2 p k := by
  funext c
  apply Fin.ext
  match c with
  | ⟨0, _⟩ => rfl
  | ⟨1, _⟩ => rfl

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

theorem laneMax_apply (src : FVec Ideal S2048x1024 .f32) (r : Fin 2048) :
    multiReduction (F := Ideal) .maximumf [1] S2048 src 0xFF800000#32 reduces_S2048x1024_S2048 (.inl rfl) rfl (ValueIdx.ix1 r)
      = (Finset.univ : Finset (Fin 1024)).fold max ⊥ (fun q => src (ix2 r q)) := by
  refine (Ideal.multiReduction_maximumf_single src 0xFF800000#32 reduces_S2048x1024_S2048 (.inl rfl) rfl (ValueIdx.ix1 r)).trans ?_
  rw [Ideal.ofBits_def, ofBits_neg_inf]
  exact Finset.fold_congr fun q _ => congrArg src (lift_lane reduces_S2048x1024_S2048 r q)

theorem laneMin_apply (src : FVec Ideal S2048x1024 .f32) (r : Fin 2048) :
    multiReduction (F := Ideal) .minimumf [1] S2048 src 0x7F800000#32 reduces_S2048x1024_S2048 (.inl rfl) rfl (ValueIdx.ix1 r)
      = (Finset.univ : Finset (Fin 1024)).fold min ⊤ (fun q => src (ix2 r q)) := by
  refine (multiReduction_minimumf_single src 0x7F800000#32 reduces_S2048x1024_S2048 (.inl rfl) rfl (ValueIdx.ix1 r)).trans ?_
  rw [Ideal.ofBits_def, ofBits_pos_inf]
  exact Finset.fold_congr fun q _ => congrArg src (lift_lane reduces_S2048x1024_S2048 r q)

theorem pay5_apply (v25 : Vec Ideal S2048x1 .i32) (v27 : Vec Ideal S1x1024 .i32) (r : Fin 2048) (q : Fin 1024) :
    k1_pay5 (F := Ideal) v25 v27 (ix2 r q) = IntOp.cmpi .eq (v25 (ix2 r 0)) (v27 (ix2 0 q)) := by
  unfold k1_pay5
  simp only [shapeCast_self, cmpi]
  rw [broadcastTo_a1_ab_apply, broadcastTo_1b_ab_apply]

theorem select_cmpi_eq {α : Type} {w : ℕ} (x y : BitVec w) (A B : α) :
    Scalar.select (IntOp.cmpi .eq x y) A B = if x = y then A else B := by
  show (if BitVec.ofBool (x == y) = 1 then A else B) = _
  by_cases h : x = y
  · have hb : (x == y) = true := beq_iff_eq.2 h
    rw [hb, if_pos h]; exact if_pos rfl
  · have hb : (x == y) = false := beq_eq_false_iff_ne.2 h
    rw [hb, if_neg h]; exact if_neg (by decide)

theorem neg_fill : Named.named (F := Ideal) κ "neg_fill" (φ := .f32) 0xC0000000#32 = ⊥ :=
  IdealRules.named_const.ideal_named_scalar _ _ _ _ rfl

theorem pay4_apply (v3 : Vec Ideal S2048x64 .bf16) (v5 : Vec Ideal S1024x64 .bf16) (prev : Vec Ideal S2048x1 .f32) (r : Fin 2048) :
    k1_pay4 (F := Ideal) v3 v5 prev (ix2 r 0)
      = max (prev (ix2 r 0)) (Triplet.blockAll (fun k => v3 (ix2 r k)) (fun q k => v5 (ix2 q k))) := by
  unfold k1_pay4
  simp only [shapeCast_self]
  rw [maximumf_apply, shapeCast_a_a1_apply, laneMax_apply]
  unfold Triplet.blockAll
  simp only [pay3_apply]

theorem pay6_apply (v3 : Vec Ideal S2048x64 .bf16) (v5 : Vec Ideal S1024x64 .bf16) (v25 : Vec Ideal S2048x1 .i32)
    (v27 : Vec Ideal S1x1024 .i32) (prev : Vec Ideal S2048x1 .f32) (r : Fin 2048) :
    k1_pay6 (F := Ideal) v3 v5 v25 v27 prev (ix2 r 0)
      = min (prev (ix2 r 0)) (Triplet.blockPos (fun k => v3 (ix2 r k)) (v25 (ix2 r 0)) (fun q k => v5 (ix2 q k)) (fun q => v27 (ix2 0 q))) := by
  unfold k1_pay6
  simp only [shapeCast_self]
  rw [minimumf_apply, shapeCast_a_a1_apply, laneMin_apply]
  unfold Triplet.blockPos
  simp only [select_apply, pay5_apply, pay3_apply, broadcast_apply, select_cmpi_eq]
  rfl

theorem pay7_apply (v3 : Vec Ideal S2048x64 .bf16) (v5 : Vec Ideal S1024x64 .bf16) (v25 : Vec Ideal S2048x1 .i32)
    (v27 : Vec Ideal S1x1024 .i32) (prev : Vec Ideal S2048x1 .f32) (r : Fin 2048) :
    k1_pay7 (F := Ideal) v3 v5 v25 v27 prev (ix2 r 0)
      = max (prev (ix2 r 0)) (Triplet.blockNeg (fun k => v3 (ix2 r k)) (v25 (ix2 r 0)) (fun q k => v5 (ix2 q k)) (fun q => v27 (ix2 0 q))) := by
  unfold k1_pay7
  simp only [shapeCast_self]
  rw [maximumf_apply, shapeCast_a_a1_apply, laneMax_apply]
  unfold Triplet.blockNeg
  simp only [select_apply, pay5_apply, pay3_apply, broadcast_apply, select_cmpi_eq, neg_fill]

end Cert.KernelIdeal.Pay1

end
-- ==== Proof.Bridge.Walk.lean ====
import proofs.«412808_j68015102100189_2_alg».proof.Proof.Spec

noncomputable section

namespace Triplet

/-- A trajectory that starts a row block from the start pair and then takes the walk's step at every column block ends at the walk's end. -/
theorem walk_of_steps (u : Rows) (t : Labels) (rmin rmax : Fin 8 → BitVec 32) (cmin cmax : Fin 16 → BitVec 32)
    (I : Fin 8) (r : Fin 2048) (o : (n : ℕ) → n < 128 → EReal × EReal)
    (hfirst : ∀ h, o (16 * I.val) h = step u t rmin rmax cmin cmax I r ⟨0, by decide⟩ (cTwo, ⊥))
    (hnext : ∀ (J : Fin 16) (_ : J.val ≠ 0) (h : 16 * I.val + J.val < 128) (h' : 16 * I.val + J.val - 1 < 128),
      o (16 * I.val + J.val) h = step u t rmin rmax cmin cmax I r J (o (16 * I.val + J.val - 1) h')) :
    o (16 * I.val + 15) (by omega) = (tiledPos u t rmin rmax cmin cmax I r, tiledNeg u t rmin rmax cmin cmax I r) := by
  have key : ∀ (n : ℕ) (hn : n + 1 ≤ 16), o (16 * I.val + n) (by omega) = walk u t rmin rmax cmin cmax I r (n + 1) hn := by
    intro n
    induction n with
    | zero => exact fun hn => hfirst _
    | succ n ih =>
      exact fun hn => (hnext ⟨n + 1, hn⟩ (Nat.succ_ne_zero n) _ (by show 16 * I.val + (n + 1) - 1 < 128; omega)).trans
        (congrArg (step u t rmin rmax cmin cmax I r ⟨n + 1, hn⟩) (ih (Nat.le_of_succ_le hn)))
  exact key 15 (by decide)

end Triplet

end
-- ==== Proof.KI.Value1.lean ====
import proofs.«412808_j68015102100189_2_alg».proof.Proof.KI.Reg1Arr
import proofs.«412808_j68015102100189_2_alg».proof.Proof.KI.Value1a
import proofs.«412808_j68015102100189_2_alg».proof.Proof.KI.Pay1
import proofs.«412808_j68015102100189_2_alg».proof.Proof.Bridge.Walk

noncomputable section

namespace Cert.KernelIdeal.Value1

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (pf : pre1.Contents (Elt Ideal))
variable (c : Dev nD)

section Blocks
variable (t : Fin (R1.cfgM pf).N) (I : Fin 8) (J : Fin 16) (ht : t.val = 16 * I.val + J.val)
include ht

theorem iblk_0_apply (r : Fin 2048) (k : Fin 64) :
    R1.iblk1 V pf c 0 t (ix2 r k) = V c main_v16_0 (ix2 (Triplet.rowOf I r) k) := by
  show V c main_v16_0 ((((R1.cfgM pf).win 0).blk t).view.emb (ix2 r k)) = V c main_v16_0 _
  congr 1
  funext a; apply Fin.ext
  obtain ⟨e0, e1, -⟩ := idx_facts1 (R1.adm pf) t
  have := J.isLt
  match a with
  | ⟨0, _⟩ => show ((R1.cfgM pf).win 0).index t (0 : Fin 2) * 2048 + 1 * r.val = 2048 * I.val + r.val; rw [e0, ht]; omega
  | ⟨1, _⟩ => show ((R1.cfgM pf).win 0).index t (1 : Fin 2) * 64 + 1 * k.val = k.val; rw [e1]; omega

theorem iblk_1_apply (q : Fin 1024) (k : Fin 64) :
    R1.iblk1 V pf c 1 t (ix2 q k) = V c main_v16_0 (ix2 (Triplet.colOf J q) k) := by
  show V c main_v16_0 ((((R1.cfgM pf).win 1).blk t).view.emb (ix2 q k)) = V c main_v16_0 _
  congr 1
  funext a; apply Fin.ext
  obtain ⟨-, -, e0, e1, -⟩ := idx_facts1 (R1.adm pf) t
  have := J.isLt
  match a with
  | ⟨0, _⟩ => show ((R1.cfgM pf).win 1).index t (0 : Fin 2) * 1024 + 1 * q.val = 1024 * J.val + q.val; rw [e0, ht]; omega
  | ⟨1, _⟩ => show ((R1.cfgM pf).win 1).index t (1 : Fin 2) * 64 + 1 * k.val = k.val; rw [e1]; omega

theorem iblk_2_apply (r : Fin 2048) :
    R1.iblk1 V pf c 2 t (ix2 r (0 : Fin 1)) = V c main_v15 (ix2 (Triplet.rowOf I r) (0 : Fin 1)) := by
  show V c main_v15 ((((R1.cfgM pf).win 2).blk t).view.emb (ix2 r (0 : Fin 1))) = V c main_v15 _
  congr 1
  funext a; apply Fin.ext
  obtain ⟨-, -, -, -, e0, e1, -⟩ := idx_facts1 (R1.adm pf) t
  have := J.isLt
  match a with
  | ⟨0, _⟩ => show ((R1.cfgM pf).win 2).index t (0 : Fin 2) * 2048 + 1 * r.val = 2048 * I.val + r.val; rw [e0, ht]; omega
  | ⟨1, _⟩ => show ((R1.cfgM pf).win 2).index t (1 : Fin 2) * 1 + 1 * 0 = 0; rw [e1]

theorem iblk_3_apply (q : Fin 1024) :
    R1.iblk1 V pf c 3 t (ix2 (0 : Fin 1) q) = V c main_v27 (ix2 (0 : Fin 1) (Triplet.colOf J q)) := by
  show V c main_v27 ((((R1.cfgM pf).win 3).blk t).view.emb (ix2 (0 : Fin 1) q)) = V c main_v27 _
  congr 1
  funext a; apply Fin.ext
  obtain ⟨-, -, -, -, -, -, e0, e1⟩ := idx_facts1 (R1.adm pf) t
  have := J.isLt
  match a with
  | ⟨0, _⟩ => show ((R1.cfgM pf).win 3).index t (0 : Fin 2) * 1 + 1 * 0 = 0; rw [e0]
  | ⟨1, _⟩ => show ((R1.cfgM pf).win 3).index t (1 : Fin 2) * 1024 + 1 * q.val = 1024 * J.val + q.val; rw [e1, ht]; omega

end Blocks

section Tables
variable (rmin rmax : Fin 8 → BitVec 32) (cmin cmax : Fin 16 → BitVec 32)
variable (hp0 : ∀ I : Fin 8, pf 0 (ValueIdx.ix1 I) = rmin I) (hp1 : ∀ I : Fin 8, pf 1 (ValueIdx.ix1 I) = rmax I)
variable (hp2 : ∀ J : Fin 16, pf 2 (ValueIdx.ix1 J) = cmin J) (hp3 : ∀ J : Fin 16, pf 3 (ValueIdx.ix1 J) = cmax J)
include hp0 hp1 hp2 hp3

theorem c2_iff_apart (t : Fin (R1.cfgM pf).N) (I : Fin 8) (J : Fin 16) (ht : t.val = 16 * I.val + J.val) :
    R1.c2 pf (grid1.coords t) ↔ Triplet.apart rmin rmax cmin cmax I J := by
  obtain ⟨o1, o2⟩ := off_facts t
  have := J.isLt
  have e0 : pf.atD 0 (k1_off1 (grid1.coords t)) = rmin I :=
    (atD_eq pf 0 _ (ValueIdx.ix1 I) (fun a => match a with
      | ⟨0, _⟩ => by show k1_off1 (grid1.coords t) 0 = I.val; rw [o1, ht]; omega)).trans (hp0 I)
  have e1 : pf.atD 1 (k1_off1 (grid1.coords t)) = rmax I :=
    (atD_eq pf 1 _ (ValueIdx.ix1 I) (fun a => match a with
      | ⟨0, _⟩ => by show k1_off1 (grid1.coords t) 0 = I.val; rw [o1, ht]; omega)).trans (hp1 I)
  have e2 : pf.atD 2 (k1_off2 (grid1.coords t)) = cmin J :=
    (atD_eq pf 2 _ (ValueIdx.ix1 J) (fun a => match a with
      | ⟨0, _⟩ => by show k1_off2 (grid1.coords t) 0 = J.val; rw [o2, ht]; omega)).trans (hp2 J)
  have e3 : pf.atD 3 (k1_off2 (grid1.coords t)) = cmax J :=
    (atD_eq pf 3 _ (ValueIdx.ix1 J) (fun a => match a with
      | ⟨0, _⟩ => by show k1_off2 (grid1.coords t) 0 = J.val; rw [o2, ht]; omega)).trans (hp3 J)
  show k1_cond2 (pf.atD 0 (k1_off1 (grid1.coords t))) (pf.atD 1 (k1_off1 (grid1.coords t)))
    (pf.atD 2 (k1_off2 (grid1.coords t))) (pf.atD 3 (k1_off2 (grid1.coords t))) = 1#1 ↔ _
  rw [e0, e1, e2, e3, cond2_iff]
  rfl

end Tables

def rowPair (r : Fin 2048) (n : ℕ) (hn : n < 128) : EReal × EReal :=
  ((R1.outsAt1 V pf c n hn).1 (ix2 r (0 : Fin 1)), (R1.outsAt1 V pf c n hn).2 (ix2 r (0 : Fin 1)))

theorem blockPos_congr {a a' : Triplet.Row} {w w' : BitVec 32} {b b' : Fin 1024 → Triplet.Row} {tb tb' : Fin 1024 → BitVec 32}
    (h1 : a = a') (h2 : w = w') (h3 : b = b') (h4 : tb = tb') : Triplet.blockPos a w b tb = Triplet.blockPos a' w' b' tb' := by
  subst h1 h2 h3 h4; rfl
theorem blockNeg_congr {a a' : Triplet.Row} {w w' : BitVec 32} {b b' : Fin 1024 → Triplet.Row} {tb tb' : Fin 1024 → BitVec 32}
    (h1 : a = a') (h2 : w = w') (h3 : b = b') (h4 : tb = tb') : Triplet.blockNeg a w b tb = Triplet.blockNeg a' w' b' tb' := by
  subst h1 h2 h3 h4; rfl

section Steps
variable (u : Triplet.Rows) (Ts : Triplet.Labels)
variable (rmin rmax : Fin 8 → BitVec 32) (cmin cmax : Fin 16 → BitVec 32)
variable (hU : ∀ (i : Fin 16384) (k : Fin 64), V c main_v16_0 (ix2 i k) = u i k)
variable (hTc : ∀ i : Fin 16384, V c main_v15 (ix2 i (0 : Fin 1)) = Ts i)
variable (hTr : ∀ j : Fin 16384, V c main_v27 (ix2 (0 : Fin 1) j) = Ts j)
variable (hp0 : ∀ I : Fin 8, pf 0 (ValueIdx.ix1 I) = rmin I) (hp1 : ∀ I : Fin 8, pf 1 (ValueIdx.ix1 I) = rmax I)
variable (hp2 : ∀ J : Fin 16, pf 2 (ValueIdx.ix1 J) = cmin J) (hp3 : ∀ J : Fin 16, pf 3 (ValueIdx.ix1 J) = cmax J)

section Point
variable (t : Fin (R1.cfgM pf).N) (I : Fin 8) (J : Fin 16) (ht : t.val = 16 * I.val + J.val)

include hU ht in

theorem xi_row (r : Fin 2048) : (fun k : Fin 64 => R1.iblk1 V pf c 0 t (ix2 r k)) = u (Triplet.rowOf I r) :=
  funext fun k => (iblk_0_apply V pf c t I J ht r k).trans (hU _ k)

include hU ht in

theorem xj_rows : (fun (q : Fin 1024) (k : Fin 64) => R1.iblk1 V pf c 1 t (ix2 q k)) = fun q => u (Triplet.colOf J q) :=
  funext fun q => funext fun k => (iblk_1_apply V pf c t I J ht q k).trans (hU _ k)

include hTc ht in

theorem ti_row (r : Fin 2048) : R1.iblk1 V pf c 2 t (ix2 r (0 : Fin 1)) = Ts (Triplet.rowOf I r) :=
  (iblk_2_apply V pf c t I J ht r).trans (hTc _)

include hTr ht in

theorem tj_rows : (fun q : Fin 1024 => R1.iblk1 V pf c 3 t (ix2 (0 : Fin 1) q)) = fun q => Ts (Triplet.colOf J q) :=
  funext fun q => (iblk_3_apply V pf c t I J ht q).trans (hTr _)

end Point

section Point2
variable (t : Fin (R1.cfgM pf).N) (I : Fin 8) (J : Fin 16) (ht : t.val = 16 * I.val + J.val)
include hU hTc hTr hp0 hp1 hp2 hp3 ht

/-- One point of the accumulation, read at a row, is the walk's step over the pair the point starts from. -/
theorem stepOut_row (b : Vec Ideal S2048x1 .f32 × Vec Ideal S2048x1 .f32) (r : Fin 2048) :
    let o := R1.stepOut pf (grid1.coords t) (R1.iblk1 V pf c 0 t) (R1.iblk1 V pf c 1 t) (R1.iblk1 V pf c 2 t) (R1.iblk1 V pf c 3 t) b
    (o.1 (ix2 r (0 : Fin 1)), o.2 (ix2 r (0 : Fin 1)))
      = Triplet.step u Ts rmin rmax cmin cmax I r J
          ((R1.base (grid1.coords t) b).1 (ix2 r (0 : Fin 1)), (R1.base (grid1.coords t) b).2 (ix2 r (0 : Fin 1))) := by
  have hc := c2_iff_apart pf rmin rmax cmin cmax hp0 hp1 hp2 hp3 t I J ht
  unfold R1.stepOut Triplet.step
  by_cases hap : Triplet.apart rmin rmax cmin cmax I J
  · rw [if_pos hap, if_pos (hc.mpr hap)]
    exact congrArg₂ Prod.mk rfl ((Pay1.pay4_apply _ _ _ r).trans (congrArg₂ max rfl
      (congrArg₂ Triplet.blockAll (xi_row V pf c u hU t I J ht r) (xj_rows V pf c u hU t I J ht))))
  · rw [if_neg hap, if_neg (fun h => hap (hc.mp h))]
    exact congrArg₂ Prod.mk
      ((Pay1.pay6_apply _ _ _ _ _ r).trans (congrArg₂ min rfl
        (blockPos_congr (xi_row V pf c u hU t I J ht r) (ti_row V pf c Ts hTc t I J ht r) (xj_rows V pf c u hU t I J ht) (tj_rows V pf c Ts hTr t I J ht))))
      ((Pay1.pay7_apply _ _ _ _ _ r).trans (congrArg₂ max rfl
        (blockNeg_congr (xi_row V pf c u hU t I J ht r) (ti_row V pf c Ts hTc t I J ht r) (xj_rows V pf c u hU t I J ht) (tj_rows V pf c Ts hTr t I J ht))))

/-- The first column block of a row block starts from the reset pair. -/
theorem row_first (r : Fin 2048) (hJ : J.val = 0) :
    rowPair V pf c r t.val (R1.lt128 pf t) = Triplet.step u Ts rmin rmax cmin cmax I r J (Triplet.cTwo, ⊥) := by
  have h0 : t.val % 16 = 0 := by rw [ht, hJ]; omega
  unfold rowPair
  rw [R1.outsAt1_J0 V pf c t h0]
  refine (stepOut_row V pf c u Ts rmin rmax cmin cmax hU hTc hTr hp0 hp1 hp2 hp3 t I J ht _ r).trans ?_
  unfold R1.base
  rw [ite_self]
  exact congrArg _ (congrArg₂ Prod.mk (Pay1.pay1_apply r) (Pay1.pay2_apply r))

/-- A later column block starts from what the block before left. -/
theorem row_next (r : Fin 2048) (hJ : J.val ≠ 0) :
    rowPair V pf c r t.val (R1.lt128 pf t)
      = Triplet.step u Ts rmin rmax cmin cmax I r J (rowPair V pf c r (t.val - 1) (R1.pred_lt128 pf t)) := by
  have h0 : ¬ t.val % 16 = 0 := by rw [ht]; have := J.isLt; omega
  unfold rowPair
  rw [R1.outsAt1_pos V pf c t (fun h => h0 (by rw [h]))]
  refine (stepOut_row V pf c u Ts rmin rmax cmin cmax hU hTc hTr hp0 hp1 hp2 hp3 t I J ht _ r).trans ?_
  unfold R1.base
  rw [if_neg (fun h => h0 ((R1.hcond1 t).mp h))]

end Point2

include hU hTc hTr hp0 hp1 hp2 hp3

theorem outs_tiled (I : Fin 8) (r : Fin 2048) :
    rowPair V pf c r (16 * I.val + 15) (by have := I.isLt; omega)
      = (Triplet.tiledPos u Ts rmin rmax cmin cmax I r, Triplet.tiledNeg u Ts rmin rmax cmin cmax I r) :=
  Triplet.walk_of_steps u Ts rmin rmax cmin cmax I r (rowPair V pf c r)
    (fun h => row_first V pf c u Ts rmin rmax cmin cmax hU hTc hTr hp0 hp1 hp2 hp3 (R1.pt pf (16 * I.val) h) I ⟨0, by decide⟩ rfl r rfl)
    (fun J hJ h h' => row_next V pf c u Ts rmin rmax cmin cmax hU hTc hTr hp0 hp1 hp2 hp3 (R1.pt pf (16 * I.val + J.val) h) I J rfl r hJ)

theorem val1_4 (I : Fin 8) (r : Fin 2048) :
    (R1.dat1 V pf c).arrAt 4 (R1.cfgM pf).N (ix2 (Triplet.rowOf I r) (0 : Fin 1)) = Triplet.tiledPos u Ts rmin rmax cmin cmax I r :=
  (R1.arr1_4 V pf c I r).trans
    (congrArg Prod.fst (outs_tiled V pf c u Ts rmin rmax cmin cmax hU hTc hTr hp0 hp1 hp2 hp3 I r))

theorem val1_5 (I : Fin 8) (r : Fin 2048) :
    (R1.dat1 V pf c).arrAt 5 (R1.cfgM pf).N (ix2 (Triplet.rowOf I r) (0 : Fin 1)) = Triplet.tiledNeg u Ts rmin rmax cmin cmax I r :=
  (R1.arr1_5 V pf c I r).trans
    (congrArg Prod.snd (outs_tiled V pf c u Ts rmin rmax cmin cmax hU hTc hTr hp0 hp1 hp2 hp3 I r))

end Steps

end Cert.KernelIdeal.Value1

end
-- ==== Proof.KI.HostTail.lean ====
import proofs.«412808_j68015102100189_2_alg».proof.Proof.Gen.KernelIdeal.Regions
import proofs.«412808_j68015102100189_2_alg».proof.Proof.Spec
import Idealize.ShloMosaic.Lib.IdealHost
import Idealize.ShloMosaic.Lib.ValueIdxRank1
import Idealize.ShloMosaic.Lib.Pipeline.Value

noncomputable section

namespace Cert.KernelIdeal.Host

open Idealize.ShloMosaic Idealize.ShloMosaic.ValueIdx Idealize.ShloMosaic.TcCoe
open scoped BigOperators

theorem reshape_col {α : Type} (x : S16384x1.Idx → α) (h : S16384x1.ShapeCasts S16384) (j : S16384.Idx) :
    shapeCast S16384 x h j = x (ix2 (j 0) 0) := by
  refine shapeCast_apply x h j (ix2 (j 0) 0) ?_
  rw [Shape.rowMajor_val_two, Shape.rowMajor_val_one]
  show (j 0).val * 1 + 0 = (j 0).val
  omega

theorem sum_vec (x : S16384.Idx → EReal) (f : Fin 16384 → EReal) (hx : ∀ j, x j = f (j 0)) :
    ∑ j : S16384.Idx, x j = ∑ i : Fin 16384, f i := by
  rw [← Equiv.sum_comp (idxEquiv1 (n := 16384)) f]
  exact Finset.sum_congr rfl fun j _ => hx j

theorem mean_read (x : FVec Ideal S16384 .f32) (f : Fin 16384 → EReal) (hx : ∀ j, x j = f (j 0)) (k : S_.Idx) :
    Host.divf (Host.reduceAdd x (constant (F := Ideal) S_ .f32 0x00000000#32) Gen.reducesTo_S16384_S_d0 Gen.h_S_)
      (constant (F := Ideal) S_ .f32 0x46800000#32) k = Triplet.mean f := by
  rw [hostDivf_apply, hostReduceAdd_apply, Ideal.hostReduceAdd_total _ (fun b => b.elim0), sum_vec x f hx]
  rfl

variable (m : (ℓ : Loc nD τ sig) → Buf (Elt Ideal) ℓ) (outs : Gen.Outs (F := Ideal)) (c : Dev nD)

abbrev ap (i : Fin 16384) : EReal := outs 5 main_v28_0 c (ix2 i 0)

abbrev an (i : Fin 16384) : EReal := outs 5 main_v28_1 c (ix2 i 0)

abbrev ce (i : Fin 16384) : EReal := outs 3 main_v16_1 c (ix2 i 0)

theorem V5_v28_0 : Gen.V5 m outs c main_v28_0 = outs 5 main_v28_0 c := by
  dsimp only [Gen.V5]
  rw [Function.update_of_ne (StableHlo.devRef_ne_of_ne (by decide)), Function.update_self]

theorem V5_v28_1 : Gen.V5 m outs c main_v28_1 = outs 5 main_v28_1 c := by
  dsimp only [Gen.V5]
  rw [Function.update_self]

theorem V11_v16_1 : Gen.V11 m outs c main_v16_1 = outs 3 main_v16_1 c := by
  rw [Gen.V11_of m outs c _ (by decide), Gen.V10_of m outs c _ (by decide), Gen.V9_of m outs c _ (by decide),
    Gen.V8_of m outs c _ (by decide), Gen.V7_of m outs c _ (by decide), Gen.V6_of m outs c _ (by decide),
    Gen.V5_of m outs c _ (by decide), Gen.V4_of m outs c _ (by decide)]
  dsimp only [Gen.V3]
  rw [Function.update_self]

theorem v29_apply (j : S16384.Idx) :
    (Gen.V6 m outs c main_v29 : S16384.Idx → EReal) j = ap outs c (j 0) := by
  have e : (Gen.V6 m outs c main_v29 : S16384.Idx → EReal)
      = shapeCast S16384 (Gen.V5 m outs c main_v28_0) Gen.shapeCasts_S16384x1_S16384 := by
    dsimp only [Gen.V6]; simp only [Gen.hostOps2]; after_results <;> rfl
  rw [e, reshape_col, V5_v28_0]

theorem v30_apply (j : S16384.Idx) :
    (Gen.V6 m outs c main_v30 : S16384.Idx → EReal) j = an outs c (j 0) := by
  have e : (Gen.V6 m outs c main_v30 : S16384.Idx → EReal)
      = shapeCast S16384 (Gen.V5 m outs c main_v28_1) Gen.shapeCasts_S16384x1_S16384 := by
    dsimp only [Gen.V6]; simp only [Gen.hostOps2]; after_results <;> rfl
  rw [e, reshape_col, V5_v28_1]

theorem v33_apply (j : S16384.Idx) :
    (Gen.V6 m outs c main_v33 : S16384.Idx → EReal) j
      = Triplet.cMargin + ap outs c (j 0) - an outs c (j 0) := by
  have e : (Gen.V6 m outs c main_v33 : S16384.Idx → EReal)
      = subf (addf (broadcastInDim S16384 ![] Gen.bcast_S_S16384 (constant (F := Ideal) S_ .f32 0x3F000000#32))
          (shapeCast S16384 (Gen.V5 m outs c main_v28_0) Gen.shapeCasts_S16384x1_S16384))
          (shapeCast S16384 (Gen.V5 m outs c main_v28_1) Gen.shapeCasts_S16384x1_S16384) := by
    dsimp only [Gen.V6]; simp only [Gen.hostOps2]; after_results <;> rfl
  rw [e, subf_apply, addf_apply, broadcastInDim_scalar_apply, reshape_col, reshape_col, V5_v28_0, V5_v28_1]
  <;> rfl

theorem v34_apply (j : S16384.Idx) :
    (Gen.V7 m outs c main_v34 : S16384.Idx → EReal) j
      = Triplet.relu (Triplet.cMargin + ap outs c (j 0) - an outs c (j 0)) := by
  have e : (Gen.V7 m outs c main_v34 : S16384.Idx → EReal)
      = maximumf (Gen.V6 m outs c main_v33 : S16384.Idx → EReal)
          (broadcastInDim S16384 ![] Gen.bcast_S_S16384 (constant (F := Ideal) S_ .f32 0x00000000#32)) := by
    dsimp only [Gen.V7]; simp only [Gen.hostOps2_1]; after_results <;> rfl
  rw [e, maximumf_apply, broadcastInDim_scalar_apply, v33_apply]
  <;> rfl

theorem v36_apply (k : S_.Idx) :
    (Gen.V8 m outs c main_v36 : S_.Idx → EReal) k
      = Triplet.mean (fun i => Triplet.relu
          (Triplet.cMargin + ap outs c i - an outs c i)) := by
  have e : (Gen.V8 m outs c main_v36 : S_.Idx → EReal)
      = Host.divf (Host.reduceAdd (Gen.V7 m outs c main_v34 : S16384.Idx → EReal)
          (constant (F := Ideal) S_ .f32 0x00000000#32) Gen.reducesTo_S16384_S_d0 Gen.h_S_)
          (constant (F := Ideal) S_ .f32 0x46800000#32) := by
    dsimp only [Gen.V8]; simp only [Gen.hostOps2_2]; after_results <;> rfl
  rw [e]
  exact mean_read _ _ (fun j => v34_apply m outs c j) k

theorem v38_apply (j : S16384.Idx) :
    (Gen.V8 m outs c main_v38 : S16384.Idx → EReal) j = Triplet.cPos - ap outs c (j 0) := by
  have e : (Gen.V8 m outs c main_v38 : S16384.Idx → EReal)
      = subf (broadcastInDim S16384 ![] Gen.bcast_S_S16384 (constant (F := Ideal) S_ .f32 0x3F4CCCCD#32))
          (Gen.V7 m outs c main_v29 : S16384.Idx → EReal) := by
    dsimp only [Gen.V8]; simp only [Gen.hostOps2_2]; after_results <;> rfl
  rw [e, subf_apply, broadcastInDim_scalar_apply, Gen.V7_of m outs c _ (by decide), v29_apply]
  <;> rfl

theorem v39_apply (j : S16384.Idx) :
    (Gen.V9 m outs c main_v39 : S16384.Idx → EReal) j
      = Triplet.relu (Triplet.cPos - ap outs c (j 0)) := by
  have e : (Gen.V9 m outs c main_v39 : S16384.Idx → EReal)
      = maximumf (Gen.V8 m outs c main_v38 : S16384.Idx → EReal)
          (broadcastInDim S16384 ![] Gen.bcast_S_S16384 (constant (F := Ideal) S_ .f32 0x00000000#32)) := by
    dsimp only [Gen.V9]; simp only [Gen.hostOps2_3]; after_results <;> rfl
  rw [e, maximumf_apply, broadcastInDim_scalar_apply, v38_apply]
  <;> rfl

theorem v41_apply (j : S16384.Idx) :
    (Gen.V10 m outs c main_v41 : S16384.Idx → EReal) j = an outs c (j 0) - Triplet.cNeg := by
  have e : (Gen.V10 m outs c main_v41 : S16384.Idx → EReal)
      = subf (Gen.V9 m outs c main_v30 : S16384.Idx → EReal)
          (broadcastInDim S16384 ![] Gen.bcast_S_S16384 (constant (F := Ideal) S_ .f32 0x3ECCCCCD#32)) := by
    dsimp only [Gen.V10]; simp only [Gen.hostOps2_4]; after_results <;> rfl
  rw [e, subf_apply, broadcastInDim_scalar_apply, Gen.V9_of m outs c _ (by decide), Gen.V8_of m outs c _ (by decide),
    Gen.V7_of m outs c _ (by decide), v30_apply]
  <;> rfl

theorem v42_apply (j : S16384.Idx) :
    (Gen.V11 m outs c main_v42 : S16384.Idx → EReal) j
      = Triplet.relu (an outs c (j 0) - Triplet.cNeg) := by
  have e : (Gen.V11 m outs c main_v42 : S16384.Idx → EReal)
      = maximumf (Gen.V10 m outs c main_v41 : S16384.Idx → EReal)
          (broadcastInDim S16384 ![] Gen.bcast_S_S16384 (constant (F := Ideal) S_ .f32 0x00000000#32)) := by
    dsimp only [Gen.V11]; simp only [Gen.hostOps2_5]; after_results <;> rfl
  rw [e, maximumf_apply, broadcastInDim_scalar_apply, v41_apply]
  <;> rfl

theorem tail_value :
    Gen.V12 m outs c main_v53 ix0
      = Triplet.hinges (fun i => outs 5 main_v28_0 c (ix2 i 0)) (fun i => outs 5 main_v28_1 c (ix2 i 0))
        + Triplet.mean (fun i => outs 3 main_v16_1 c (ix2 i 0)) := by
  have h42 : ∀ j : S16384.Idx, (Gen.V11 m outs c main_v42 : S16384.Idx → EReal) j
      = (fun i => Triplet.relu (an outs c i - Triplet.cNeg)) (j 0) :=
    fun j => v42_apply m outs c j
  have h39 : ∀ j : S16384.Idx, (Gen.V11 m outs c main_v39 : S16384.Idx → EReal) j
      = (fun i => Triplet.relu (Triplet.cPos - ap outs c i)) (j 0) := fun j => by
    rw [Gen.V11_of m outs c _ (by decide), Gen.V10_of m outs c _ (by decide)]
    exact v39_apply m outs c j
  have h36 : (Gen.V11 m outs c main_v36 : S_.Idx → EReal) ix0
      = Triplet.mean (fun i => Triplet.relu (Triplet.cMargin + ap outs c i - an outs c i)) := by
    rw [Gen.V11_of m outs c _ (by decide), Gen.V10_of m outs c _ (by decide), Gen.V9_of m outs c _ (by decide)]
    exact v36_apply m outs c ix0
  have h16 : Gen.V11 m outs c main_v16_1 = outs 3 main_v16_1 c := V11_v16_1 m outs c
  show (Gen.V12 m outs c main_v53 : S_.Idx → EReal) ix0 = _
  dsimp only [Gen.V12]
  generalize Gen.V11 m outs c = W at h42 h39 h36 h16 ⊢
  simp only [Gen.hostOps2_6]; after_results_simp
  rw [addf_apply, addf_apply, mulf_apply, addf_apply,
    mean_read _ (fun i => Triplet.relu (an outs c i - Triplet.cNeg)) h42,
    mean_read _ (fun i => Triplet.relu (Triplet.cPos - ap outs c i)) h39,
    h36, mean_read _ (ce outs c) ?_, constant_apply]
  · rfl
  · intro j
    show shapeCast S16384 (W main_v16_1) Gen.shapeCasts_S16384x1_S16384 j = _
    rw [reshape_col, h16]

end Cert.KernelIdeal.Host

end
-- ==== Proof.Bridge.Tiles.lean ====
import proofs.«412808_j68015102100189_2_alg».proof.Proof.Spec
import Mathlib.Data.Finset.Fold
import Mathlib.Order.Basic
import Mathlib.Order.MinMax
import Mathlib.Order.BoundedOrder.Basic

noncomputable section

namespace Triplet

theorem colOf_val (J : Fin 16) (q : Fin 1024) : (colOf J q).val = 1024 * J.val + q.val := rfl

theorem rowOf_val (I : Fin 8) (r : Fin 2048) : (rowOf I r).val = 2048 * I.val + r.val := rfl

theorem col_split (n : ℕ) (h : n < 16) (j : Fin 16384) (hj : j.val < 1024 * (n + 1)) :
    j.val < 1024 * n ∨ ∃ q : Fin 1024, j = colOf ⟨n, h⟩ q := by
  by_cases hlt : j.val < 1024 * n
  · exact Or.inl hlt
  · refine Or.inr ⟨⟨j.val - 1024 * n, by omega⟩, ?_⟩
    apply Fin.ext
    simp only [colOf_val]
    omega

theorem col_lt (n : ℕ) (h : n < 16) (q : Fin 1024) : (colOf ⟨n, h⟩ q).val < 1024 * (n + 1) := by
  simp only [colOf_val]
  omega

section Sorted

variable (t : Labels) (hsorted : ∀ i j : Fin 16384, i ≤ j → ¬ (t j).slt (t i) = true)

include hsorted

theorem toInt_mono {i j : Fin 16384} (hij : i ≤ j) : (t i).toInt ≤ (t j).toInt := by
  have h := hsorted i j hij
  rw [BitVec.slt_iff_toInt_lt] at h
  exact not_lt.mp h

theorem ne_of_apart (rmin rmax : Fin 8 → BitVec 32) (cmin cmax : Fin 16 → BitVec 32)
    (hrmin : ∀ I, rmin I = t (rowOf I ⟨0, by decide⟩)) (hrmax : ∀ I, rmax I = t (rowOf I ⟨2047, by decide⟩))
    (hcmin : ∀ J, cmin J = t (colOf J ⟨0, by decide⟩)) (hcmax : ∀ J, cmax J = t (colOf J ⟨1023, by decide⟩))
    (I : Fin 8) (J : Fin 16) (hap : apart rmin rmax cmin cmax I J) (r : Fin 2048) (q : Fin 1024) :
    t (rowOf I r) ≠ t (colOf J q) := by
  have r0 : (t (rowOf I ⟨0, by decide⟩)).toInt ≤ (t (rowOf I r)).toInt :=
    toInt_mono t hsorted (by rw [Fin.le_def]; simp only [rowOf_val]; omega)
  have r1 : (t (rowOf I r)).toInt ≤ (t (rowOf I ⟨2047, by decide⟩)).toInt :=
    toInt_mono t hsorted (by rw [Fin.le_def]; simp only [rowOf_val]; omega)
  have c0 : (t (colOf J ⟨0, by decide⟩)).toInt ≤ (t (colOf J q)).toInt :=
    toInt_mono t hsorted (by rw [Fin.le_def]; simp only [colOf_val]; omega)
  have c1 : (t (colOf J q)).toInt ≤ (t (colOf J ⟨1023, by decide⟩)).toInt :=
    toInt_mono t hsorted (by rw [Fin.le_def]; simp only [colOf_val]; omega)
  intro heq
  rw [heq] at r0 r1
  rcases hap with hap | hap
  · rw [BitVec.slt_iff_toInt_lt, hrmax, hcmin] at hap
    omega
  · rw [BitVec.slt_iff_toInt_lt, hcmax, hrmin] at hap
    omega

end Sorted

section Walk

variable (u : Rows) (t : Labels) (rmin rmax : Fin 8 → BitVec 32) (cmin cmax : Fin 16 → BitVec 32)
  (hsorted : ∀ i j : Fin 16384, i ≤ j → ¬ (t j).slt (t i) = true)
  (hrmin : ∀ I, rmin I = t (rowOf I ⟨0, by decide⟩)) (hrmax : ∀ I, rmax I = t (rowOf I ⟨2047, by decide⟩))
  (hcmin : ∀ J, cmin J = t (colOf J ⟨0, by decide⟩)) (hcmax : ∀ J, cmax J = t (colOf J ⟨1023, by decide⟩))

theorem walk_succ (I : Fin 8) (r : Fin 2048) (n : ℕ) (h : n + 1 ≤ 16) :
    walk u t rmin rmax cmin cmax I r (n + 1) h
      = step u t rmin rmax cmin cmax I r ⟨n, h⟩ (walk u t rmin rmax cmin cmax I r n (Nat.le_of_succ_le h)) := rfl

include hsorted hrmin hrmax hcmin hcmax

theorem walk_snd_le (I : Fin 8) (r : Fin 2048) (d : EReal) :
    ∀ (n : ℕ) (h : n ≤ 16), (walk u t rmin rmax cmin cmax I r n h).2 ≤ d ↔
      ∀ j : Fin 16384, j.val < 1024 * n →
        (if t (rowOf I r) = t j then (⊥ : EReal) else sim u (rowOf I r) j) ≤ d
  | 0, _ => by
    constructor
    · intro _ j hj
      omega
    · intro _
      exact bot_le
  | n + 1, h => by
    have ih := walk_snd_le I r d n (Nat.le_of_succ_le h)
    rw [walk_succ, step]
    by_cases hap : apart rmin rmax cmin cmax I ⟨n, h⟩
    · rw [if_pos hap]
      simp only [max_le_iff, ih, blockAll, Finset.fold_max_le, bot_le, true_and, Finset.mem_univ, true_implies]
      constructor
      · rintro ⟨h1, h2⟩ j hj
        rcases col_split n h j hj with hlt | ⟨q, rfl⟩
        · exact h1 j hlt
        · rw [if_neg (ne_of_apart t hsorted rmin rmax cmin cmax hrmin hrmax hcmin hcmax I ⟨n, h⟩ hap r q)]
          exact h2 q
      · intro hall
        refine ⟨fun j hj => hall j (by omega), fun q => ?_⟩
        have := hall (colOf ⟨n, h⟩ q) (col_lt n h q)
        rw [if_neg (ne_of_apart t hsorted rmin rmax cmin cmax hrmin hrmax hcmin hcmax I ⟨n, h⟩ hap r q)] at this
        exact this
    · rw [if_neg hap]
      simp only [max_le_iff, ih, blockNeg, Finset.fold_max_le, bot_le, true_and, Finset.mem_univ, true_implies]
      constructor
      · rintro ⟨h1, h2⟩ j hj
        rcases col_split n h j hj with hlt | ⟨q, rfl⟩
        · exact h1 j hlt
        · exact h2 q
      · intro hall
        exact ⟨fun j hj => hall j (by omega), fun q => hall (colOf ⟨n, h⟩ q) (col_lt n h q)⟩

theorem le_walk_fst (I : Fin 8) (r : Fin 2048) (d : EReal) :
    ∀ (n : ℕ) (h : n ≤ 16), d ≤ (walk u t rmin rmax cmin cmax I r n h).1 ↔
      d ≤ cTwo ∧ ∀ j : Fin 16384, j.val < 1024 * n →
        d ≤ (if t (rowOf I r) = t j then sim u (rowOf I r) j else (⊤ : EReal))
  | 0, _ => by
    constructor
    · intro h0
      exact ⟨h0, fun j hj => by omega⟩
    · intro h0
      exact h0.1
  | n + 1, h => by
    have ih := le_walk_fst I r d n (Nat.le_of_succ_le h)
    rw [walk_succ, step]
    by_cases hap : apart rmin rmax cmin cmax I ⟨n, h⟩
    · rw [if_pos hap]
      simp only [ih]
      constructor
      · rintro ⟨h0, h1⟩
        refine ⟨h0, fun j hj => ?_⟩
        rcases col_split n h j hj with hlt | ⟨q, rfl⟩
        · exact h1 j hlt
        · rw [if_neg (ne_of_apart t hsorted rmin rmax cmin cmax hrmin hrmax hcmin hcmax I ⟨n, h⟩ hap r q)]
          exact le_top
      · rintro ⟨h0, hall⟩
        exact ⟨h0, fun j hj => hall j (by omega)⟩
    · rw [if_neg hap]
      simp only [le_min_iff, ih, blockPos, Finset.le_fold_min, le_top, true_and, Finset.mem_univ, true_implies]
      constructor
      · rintro ⟨⟨h0, h1⟩, h2⟩
        refine ⟨h0, fun j hj => ?_⟩
        rcases col_split n h j hj with hlt | ⟨q, rfl⟩
        · exact h1 j hlt
        · have := h2 q
          by_cases he : t (rowOf I r) = t (colOf ⟨n, h⟩ q)
          · rw [if_pos he] at this ⊢
            exact this
          · rw [if_neg he]
            exact le_top
      · rintro ⟨h0, hall⟩
        refine ⟨⟨h0, fun j hj => hall j (by omega)⟩, fun q => ?_⟩
        have := hall (colOf ⟨n, h⟩ q) (col_lt n h q)
        by_cases he : t (rowOf I r) = t (colOf ⟨n, h⟩ q)
        · rw [if_pos he] at this ⊢
          exact this
        · rw [if_neg he]
          exact h0

end Walk

theorem tiledNeg_eq (u : Rows) (t : Labels) (rmin rmax : Fin 8 → BitVec 32) (cmin cmax : Fin 16 → BitVec 32)
    (hsorted : ∀ i j : Fin 16384, i ≤ j → ¬ (t j).slt (t i) = true)
    (hrmin : ∀ I, rmin I = t (rowOf I ⟨0, by decide⟩)) (hrmax : ∀ I, rmax I = t (rowOf I ⟨2047, by decide⟩))
    (hcmin : ∀ J, cmin J = t (colOf J ⟨0, by decide⟩)) (hcmax : ∀ J, cmax J = t (colOf J ⟨1023, by decide⟩))
    (I : Fin 8) (r : Fin 2048) : tiledNeg u t rmin rmax cmin cmax I r = hardNeg u t (rowOf I r) := by
  apply eq_of_forall_ge_iff
  intro d
  rw [tiledNeg, hardNeg, walk_snd_le u t rmin rmax cmin cmax hsorted hrmin hrmax hcmin hcmax I r d 16 (Nat.le_refl _),
    Finset.fold_max_le]
  constructor
  · intro hall
    exact ⟨bot_le, fun j _ => hall j j.isLt⟩
  · rintro ⟨_, hall⟩ j _
    exact hall j (Finset.mem_univ j)

theorem tiledPos_eq (u : Rows) (t : Labels) (rmin rmax : Fin 8 → BitVec 32) (cmin cmax : Fin 16 → BitVec 32)
    (hsorted : ∀ i j : Fin 16384, i ≤ j → ¬ (t j).slt (t i) = true)
    (hrmin : ∀ I, rmin I = t (rowOf I ⟨0, by decide⟩)) (hrmax : ∀ I, rmax I = t (rowOf I ⟨2047, by decide⟩))
    (hcmin : ∀ J, cmin J = t (colOf J ⟨0, by decide⟩)) (hcmax : ∀ J, cmax J = t (colOf J ⟨1023, by decide⟩))
    (I : Fin 8) (r : Fin 2048) :
    tiledPos u t rmin rmax cmin cmax I r = min cTwo (hardPos u t (rowOf I r)) := by
  apply eq_of_forall_le_iff
  intro d
  rw [tiledPos, hardPos, le_walk_fst u t rmin rmax cmin cmax hsorted hrmin hrmax hcmin hcmax I r d 16 (Nat.le_refl _),
    le_min_iff, Finset.le_fold_min]
  constructor
  · rintro ⟨h0, hall⟩
    exact ⟨h0, le_top, fun j _ => hall j j.isLt⟩
  · rintro ⟨h0, _, hall⟩
    exact ⟨h0, fun j _ => hall j (Finset.mem_univ j)⟩

end Triplet

end
-- ==== Proof.Bridge.Perm.lean ====
import proofs.«412808_j68015102100189_2_alg».proof.Proof.Spec
import Mathlib.Data.Finset.Fold
import Mathlib.Data.Finset.BooleanAlgebra
import Mathlib.Algebra.BigOperators.Group.Finset.Defs

noncomputable section

open scoped BigOperators

namespace Triplet

variable {σ : Fin 16384 → Fin 16384}

theorem unit_perm (x : Rows) : unit (fun i => x (σ i)) = fun i => unit x (σ i) := rfl

theorem fold_perm {β : Type} (op : β → β → β) [Std.Commutative op] [Std.Associative op]
    (hσ : Function.Bijective σ) (b : β) (g : Fin 16384 → β) :
    (Finset.univ : Finset (Fin 16384)).fold op b (fun j => g (σ j))
      = (Finset.univ : Finset (Fin 16384)).fold op b g := by
  have h := Finset.fold_image (op := op) (b := b) (f := g) (g := σ)
    (s := (Finset.univ : Finset (Fin 16384))) hσ.injective.injOn
  rw [Finset.image_univ_of_surjective hσ.surjective] at h
  exact h.symm

theorem hardPos_perm (hσ : Function.Bijective σ) (u : Rows) (t : Labels) (i : Fin 16384) :
    hardPos (fun i => u (σ i)) (fun i => t (σ i)) i = hardPos u t (σ i) :=
  fold_perm min hσ ⊤ (fun j => if t (σ i) = t j then sim u (σ i) j else ⊤)

theorem hardNeg_perm (hσ : Function.Bijective σ) (u : Rows) (t : Labels) (i : Fin 16384) :
    hardNeg (fun i => u (σ i)) (fun i => t (σ i)) i = hardNeg u t (σ i) :=
  fold_perm max hσ ⊥ (fun j => if t (σ i) = t j then ⊥ else sim u (σ i) j)

theorem sum_perm (hσ : Function.Bijective σ) (f : Fin 16384 → EReal) : ∑ i, f (σ i) = ∑ i, f i :=
  hσ.sum_comp f

theorem mean_perm (hσ : Function.Bijective σ) (f : Fin 16384 → EReal) : mean (fun i => f (σ i)) = mean f := by
  unfold mean
  rw [sum_perm hσ f]

theorem hinges_perm (hσ : Function.Bijective σ) (ap an : Fin 16384 → EReal) :
    hinges (fun i => ap (σ i)) (fun i => an (σ i)) = hinges ap an := by
  unfold hinges
  rw [mean_perm hσ (fun i => relu (an i - cNeg)), mean_perm hσ (fun i => relu (cPos - ap i)),
    mean_perm hσ (fun i => relu (cMargin + ap i - an i))]

end Triplet

end
-- ==== Proof.Bridge.Rows.lean ====
import proofs.«412808_j68015102100189_2_alg».proof.Proof.Spec
import Mathlib.Data.EReal.Basic
import Mathlib.Data.EReal.Operations
import Mathlib.Data.EReal.Inv
import Mathlib.Analysis.Real.Sqrt
import Mathlib.Analysis.SpecialFunctions.Exp
import Mathlib.Analysis.SpecialFunctions.Log.Basic

noncomputable section

open scoped BigOperators

namespace Triplet

open Idealize.ShloMosaic

theorem coe_sum {ι : Type*} (s : Finset ι) (f : ι → ℝ) :
    ∑ i ∈ s, (f i : EReal) = ((∑ i ∈ s, f i : ℝ) : EReal) := by
  classical
  refine Finset.induction_on s ?_ ?_
  · simp
  · intro i s hi ih
    rw [Finset.sum_insert hi, Finset.sum_insert hi, ih, EReal.coe_add]

theorem sqrt_coe {r : ℝ} (h : 0 ≤ r) : Ideal.sqrt (r : EReal) = (Real.sqrt r : EReal) := by
  show (if r < 0 then ⊥ else (Real.sqrt r : EReal)) = _
  rw [if_neg (not_lt.2 h)]

theorem exp_coe (r : ℝ) : Ideal.exp (r : EReal) = (Real.exp r : EReal) := rfl

theorem log_coe {r : ℝ} (h : 0 < r) : Ideal.log (r : EReal) = (Real.log r : EReal) := by
  show (if r ≤ 0 then ⊥ else (Real.log r : EReal)) = _
  rw [if_neg (not_le.2 h)]

theorem div_coe (x : ℝ) {y : ℝ} (h : y ≠ 0) : Ideal.div (x : EReal) (y : EReal) = ((x * y⁻¹ : ℝ) : EReal) := by
  unfold Ideal.div
  rw [if_neg (EReal.coe_ne_zero.2 h), EReal.coe_mul, EReal.coe_inv]

theorem cZero_eq : cZero = 0 := by
  simp [cZero, Ideal.ofBits, Ideal.ieee]

theorem cOne_eq : cOne = 1 := by
  simp [cOne, Ideal.ofBits, Ideal.ieee, -EReal.coe_mul]; norm_num

theorem cTwo_eq : cTwo = ((2 : ℝ) : EReal) := by
  simp [cTwo, Ideal.ofBits, Ideal.ieee, -EReal.coe_mul]; norm_num

theorem cCount_eq : cCount = ((16384 : ℝ) : EReal) := by
  simp [cCount, Ideal.ofBits, Ideal.ieee, -EReal.coe_mul]; norm_num

theorem one_le_cTwo : (1 : EReal) ≤ cTwo := by
  rw [cTwo_eq, ← EReal.coe_one, EReal.coe_le_coe_iff]; norm_num

theorem sqRow_coe (v : Fin 64 → ℝ) :
    sqRow (fun k => (v k : EReal)) = ((∑ k, v k * v k : ℝ) : EReal) := by
  unfold sqRow
  rw [← coe_sum]
  exact Finset.sum_congr rfl fun k _ => (EReal.coe_mul _ _).symm

variable {a : Row}

theorem unitRow_real (hfin : ∀ k, ∃ r : ℝ, a k = (r : EReal)) (hnz : ∃ k, a k ≠ 0) :
    ∃ v : Fin 64 → ℝ, (∀ k, unitRow a k = (v k : EReal)) ∧ ∑ k, v k * v k = 1 := by
  choose u hu using hfin
  have ha : a = fun k => (u k : EReal) := funext hu
  subst ha
  obtain ⟨k₀, hk₀⟩ := hnz
  have hk₀' : u k₀ ≠ 0 := EReal.coe_ne_zero.1 hk₀
  obtain ⟨S, hS⟩ : ∃ S : ℝ, S = ∑ k, u k * u k := ⟨_, rfl⟩
  have hSpos : 0 < S := by
    have h1 : 0 < u k₀ * u k₀ := mul_self_pos.2 hk₀'
    have h2 : u k₀ * u k₀ ≤ ∑ k, u k * u k :=
      Finset.single_le_sum (f := fun k => u k * u k) (fun k _ => mul_self_nonneg (u k)) (Finset.mem_univ k₀)
    rw [hS]; exact lt_of_lt_of_le h1 h2
  have hsq : 0 < Real.sqrt S := Real.sqrt_pos.2 hSpos
  refine ⟨fun k => u k * (Real.sqrt S)⁻¹, fun k => ?_, ?_⟩
  · show Ideal.div (u k : EReal) (Ideal.sqrt (sqRow fun k => (u k : EReal))) = _
    rw [sqRow_coe, ← hS, sqrt_coe hSpos.le, div_coe _ hsq.ne']
  · calc ∑ k, u k * (Real.sqrt S)⁻¹ * (u k * (Real.sqrt S)⁻¹)
        = ∑ k, (u k * u k) * (Real.sqrt S * Real.sqrt S)⁻¹ :=
          Finset.sum_congr rfl fun k _ => by rw [mul_inv]; ring
      _ = S * (Real.sqrt S * Real.sqrt S)⁻¹ := by rw [← Finset.sum_mul, hS]
      _ = 1 := by rw [Real.mul_self_sqrt hSpos.le]; exact mul_inv_cancel₀ hSpos.ne'

theorem unitRow_zero (hz : ∀ k, a k = 0) : ∀ k, unitRow a k = ⊥ := by
  intro k
  have hs : sqRow a = ((0 : ℝ) : EReal) := by
    unfold sqRow
    rw [Finset.sum_eq_zero fun k _ => by rw [hz k, mul_zero]]; rfl
  unfold unitRow
  rw [hs, sqrt_coe le_rfl, Real.sqrt_zero, hz k]
  show (if ((0 : ℝ) : EReal) = 0 then (if (0 : EReal) < 0 then ⊤ else ⊥) else _) = (⊥ : EReal)
  rw [if_pos EReal.coe_zero, if_neg (lt_irrefl _)]

theorem simRow_self (hfin : ∀ k, ∃ r : ℝ, a k = (r : EReal)) (hnz : ∃ k, a k ≠ 0) :
    simRow (unitRow a) (unitRow a) = 1 := by
  obtain ⟨v, hv, h1⟩ := unitRow_real hfin hnz
  have h : ∀ k, unitRow a k * unitRow a k = ((v k * v k : ℝ) : EReal) := fun k => by
    rw [hv k, EReal.coe_mul]
  unfold simRow
  rw [Finset.sum_congr rfl fun k _ => h k, coe_sum, h1, EReal.coe_one]

theorem simRow_self_le_cTwo (hfin : ∀ k, ∃ r : ℝ, a k = (r : EReal)) (hnz : ∃ k, a k ≠ 0) :
    simRow (unitRow a) (unitRow a) ≤ cTwo := by
  rw [simRow_self hfin hnz]; exact one_le_cTwo

theorem maxRow_coe (v : Fin 64 → ℝ) : ∃ m : ℝ, maxRow (fun k => (v k : EReal)) = (m : EReal) := by
  unfold maxRow
  have key : ∀ s : Finset (Fin 64), s.fold max ⊥ (fun k => (v k : EReal)) = ⊥ ∨
      ∃ m : ℝ, s.fold max ⊥ (fun k => (v k : EReal)) = (m : EReal) := by
    intro s
    classical
    refine Finset.induction_on s (Or.inl Finset.fold_empty) ?_
    intro i s hi ih
    right
    rw [Finset.fold_insert hi]
    rcases ih with h | ⟨m, h⟩
    · exact ⟨v i, by rw [h, max_eq_left bot_le]⟩
    · rcases le_total (v i) m with hle | hle
      · exact ⟨m, by rw [h, max_eq_right (EReal.coe_le_coe_iff.2 hle)]⟩
      · exact ⟨v i, by rw [h, max_eq_left (EReal.coe_le_coe_iff.2 hle)]⟩
  rcases key Finset.univ with h | h
  · exfalso
    have h0 : (v 0 : EReal) ≤ Finset.univ.fold max ⊥ (fun k => (v k : EReal)) :=
      (Finset.le_fold_max _).2 (Or.inr ⟨0, Finset.mem_univ _, le_rfl⟩)
    rw [h] at h0
    exact EReal.coe_ne_bot _ (le_bot_iff.1 h0)
  · exact h

theorem logpRow_real (v : Fin 64 → ℝ) (k : Fin 64) :
    ∃ r : ℝ, logpRow (fun k => (v k : EReal)) k = (r : EReal) := by
  obtain ⟨m, hm⟩ := maxRow_coe v
  have hT : 0 < ∑ j, Real.exp (v j - m) :=
    Finset.sum_pos (fun j _ => Real.exp_pos _) Finset.univ_nonempty
  have hlse : lseRow (fun k => (v k : EReal)) = (Real.log (∑ j, Real.exp (v j - m)) : EReal) := by
    unfold lseRow
    rw [hm]
    have he : ∀ j, Ideal.exp ((v j : EReal) - (m : EReal)) = (Real.exp (v j - m) : EReal) := fun j => by
      rw [← EReal.coe_sub, exp_coe]
    rw [Finset.sum_congr rfl fun j _ => he j, coe_sum, log_coe hT]
  refine ⟨(v k - m) - Real.log (∑ j, Real.exp (v j - m)), ?_⟩
  unfold logpRow
  rw [hlse, hm, EReal.coe_sub, EReal.coe_sub]

theorem logpRow_bot (k : Fin 64) : logpRow (fun _ => (⊥ : EReal)) k = ⊥ := by
  unfold logpRow
  show (⊥ : EReal) - _ - _ = ⊥
  rw [EReal.bot_sub, EReal.bot_sub]

theorem ceRow_eq (b : Row) (w : BitVec 32) (hw : w.toNat < 64) :
    ceRow b w = - logpRow b ⟨w.toNat, hw⟩ := by
  unfold ceRow
  rw [Finset.sum_eq_single (⟨w.toNat, hw⟩ : Fin 64)]
  · have hw' : BitVec.ofNat 32 w.toNat = w :=
      BitVec.eq_of_toNat_eq (by rw [BitVec.toNat_ofNat]; exact Nat.mod_eq_of_lt w.isLt)
    rw [if_pos hw', sub_eq_add_neg, zero_add]
  · intro k _ hk
    rw [if_neg]
    intro h
    apply hk
    apply Fin.ext
    have h32 : k.val < 2 ^ 32 := lt_trans k.isLt (by norm_num)
    have ht := congrArg BitVec.toNat h
    rw [BitVec.toNat_ofNat, Nat.mod_eq_of_lt h32] at ht
    exact ht
  · intro h
    exact absurd (Finset.mem_univ _) h

end Triplet

end
-- ==== Proof.Bridge.Loss.lean ====
import proofs.«412808_j68015102100189_2_alg».proof.Proof.Spec
import proofs.«412808_j68015102100189_2_alg».proof.Proof.Bridge.Perm
import proofs.«412808_j68015102100189_2_alg».proof.Proof.Bridge.Rows
import Mathlib.Data.Finset.Fold
import Mathlib.Algebra.BigOperators.Group.Finset.Basic
import Mathlib.Algebra.Order.BigOperators.Group.Finset
import Mathlib.Data.EReal.Basic
import Mathlib.Data.EReal.Operations
import Mathlib.Data.EReal.Inv

noncomputable section

open scoped BigOperators

namespace Triplet

open Idealize.ShloMosaic

theorem sum_eq_bot_of_mem {ι : Type} (s : Finset ι) (f : ι → EReal) {i : ι} (hi : i ∈ s) (h : f i = ⊥) :
    ∑ j ∈ s, f j = ⊥ := by
  classical
  rw [← Finset.add_sum_erase s f hi, h, EReal.bot_add]

theorem sum_ne_bot {ι : Type} (s : Finset ι) (f : ι → EReal) (h : ∀ j ∈ s, f j ≠ ⊥) :
    ∑ j ∈ s, f j ≠ ⊥ :=
  Finset.sum_induction f (· ≠ ⊥) (fun _ _ ha hb => EReal.add_ne_bot_iff.mpr ⟨ha, hb⟩) (by simp) h

theorem sum_eq_top_of_mem {ι : Type} (s : Finset ι) (f : ι → EReal) (hnb : ∀ j ∈ s, f j ≠ ⊥)
    {i : ι} (hi : i ∈ s) (h : f i = ⊤) : ∑ j ∈ s, f j = ⊤ := by
  classical
  rw [← Finset.add_sum_erase s f hi, h]
  exact EReal.top_add_of_ne_bot (sum_ne_bot _ f fun j hj => hnb j (Finset.mem_of_mem_erase hj))

theorem add_top_of_nonneg {a : EReal} (h : 0 ≤ a) : a + ⊤ = ⊤ :=
  EReal.add_top_of_ne_bot (lt_of_lt_of_le EReal.bot_lt_zero h).ne'

theorem mean_eq (f : Fin 16384 → EReal) :
    mean f = (∑ i, f i) * ((1 / (16384 : ℝ) : ℝ) : EReal) := by
  unfold mean
  rw [cZero_eq, zero_add, cCount_eq, Ideal.div_coe (by norm_num)]

theorem mean_nonneg (f : Fin 16384 → EReal) (h : ∀ i, 0 ≤ f i) : 0 ≤ mean f := by
  rw [mean_eq]
  exact EReal.mul_nonneg (Finset.sum_nonneg fun i _ => h i) (EReal.coe_nonneg.mpr (by norm_num))

theorem mean_eq_top (f : Fin 16384 → EReal) (h : ∑ i, f i = ⊤) : mean f = ⊤ := by
  rw [mean_eq, h]; exact EReal.top_mul_coe_of_pos (by norm_num)

theorem mean_eq_bot (f : Fin 16384 → EReal) (h : ∑ i, f i = ⊥) : mean f = ⊥ := by
  rw [mean_eq, h]; exact EReal.bot_mul_coe_of_pos (by norm_num)

theorem mean_neg_coe (r : Fin 16384 → ℝ) :
    mean (fun i => -(r i : EReal)) = - mean (fun i => (r i : EReal)) := by
  have h1 : ∑ i, (r i : EReal) = ((∑ i, r i : ℝ) : EReal) := coe_sum _ r
  have h2 : ∑ i, -(r i : EReal) = ((∑ i, -r i : ℝ) : EReal) := coe_sum _ (fun i => -r i)
  rw [mean_eq, mean_eq, h1, h2, Finset.sum_neg_distrib, EReal.coe_neg, EReal.neg_mul]

theorem relu_nonneg (a : EReal) : 0 ≤ relu a := by
  unfold relu; rw [cZero_eq]; exact le_max_right _ _

theorem hinges_nonneg (ap an : Fin 16384 → EReal) : 0 ≤ hinges ap an := by
  unfold hinges
  rw [cOne_eq, mul_one]
  exact add_nonneg (add_nonneg (mean_nonneg _ fun _ => relu_nonneg _) (mean_nonneg _ fun _ => relu_nonneg _))
    (mean_nonneg _ fun _ => relu_nonneg _)

theorem logp_unit_cases (a : Row) (hfin : ∀ k, ∃ r : ℝ, a k = (r : EReal)) :
    ((∀ k, a k = 0) ∧ ∀ k, logpRow (unitRow a) k = ⊥)
      ∨ ((∃ k, a k ≠ 0) ∧ ∀ k, ∃ r : ℝ, logpRow (unitRow a) k = (r : EReal)) := by
  by_cases hz : ∀ k, a k = 0
  · left
    refine ⟨hz, fun k => ?_⟩
    have h : unitRow a = fun _ => (⊥ : EReal) := funext (unitRow_zero hz)
    rw [h]; exact logpRow_bot k
  · right
    have hnz : ∃ k, a k ≠ 0 := not_forall.mp hz
    obtain ⟨v, hv, _⟩ := unitRow_real hfin hnz
    refine ⟨hnz, fun k => ?_⟩
    have h : unitRow a = fun k => (v k : EReal) := funext hv
    rw [h]; exact logpRow_real v k

theorem logp_unit_ne_top (a : Row) (hfin : ∀ k, ∃ r : ℝ, a k = (r : EReal)) (k : Fin 64) :
    logpRow (unitRow a) k ≠ ⊤ := by
  rcases logp_unit_cases a hfin with ⟨_, h⟩ | ⟨_, h⟩
  · rw [h k]; exact bot_ne_top
  · obtain ⟨r, hr⟩ := h k; rw [hr]; exact EReal.coe_ne_top r

theorem min_cTwo_hardPos (x : Rows) (t : Labels) (i : Fin 16384)
    (hfin : ∀ k, ∃ r : ℝ, x i k = (r : EReal)) (hnz : ∃ k, x i k ≠ 0) :
    min cTwo (hardPos (unit x) t i) = hardPos (unit x) t i := by
  apply min_eq_right
  unfold hardPos
  refine (Finset.fold_min_le _).mpr (Or.inr ⟨i, Finset.mem_univ i, ?_⟩)
  rw [if_pos rfl]
  show simRow (unitRow (x i)) (unitRow (x i)) ≤ cTwo
  rw [simRow_self hfin hnz]; exact one_le_cTwo

theorem loss_eq (x : Rows) (t : Labels) {σ : Fin 16384 → Fin 16384} (hσ : Function.Bijective σ)
    (hfin : ∀ i k, ∃ r : ℝ, x i k = (r : EReal)) (hlab : ∀ i, (t i).toNat < 64) :
    hinges (fun i => min cTwo (hardPos (unit fun i => x (σ i)) (fun i => t (σ i)) i))
           (fun i => hardNeg (unit fun i => x (σ i)) (fun i => t (σ i)) i)
      + mean (fun i => ceRow (unit (fun i => x (σ i)) i) (t (σ i)))
    = hinges (hardPos (unit x) t) (hardNeg (unit x) t)
      + - mean (fun i => logpRow (unit x i) ⟨(t i).toNat, hlab i⟩) := by

  have e1 := hinges_perm hσ (fun i => min cTwo (hardPos (unit x) t i)) (hardNeg (unit x) t)
  have e2 := mean_perm hσ (fun i => ceRow (unit x i) (t i))
  have hp : ∀ i, hardPos (unit fun i => x (σ i)) (fun i => t (σ i)) i = hardPos (unit x) t (σ i) :=
    fun i => hardPos_perm hσ (unit x) t i
  have hn : ∀ i, hardNeg (unit fun i => x (σ i)) (fun i => t (σ i)) i = hardNeg (unit x) t (σ i) :=
    fun i => hardNeg_perm hσ (unit x) t i
  have hc : ∀ i, ceRow (unit (fun i => x (σ i)) i) (t (σ i)) = ceRow (unit x (σ i)) (t (σ i)) :=
    fun _ => rfl
  simp only [hp, hn, hc]
  rw [e1, e2]

  have hce : ∀ i, ceRow (unit x i) (t i) = - logpRow (unit x i) ⟨(t i).toNat, hlab i⟩ :=
    fun i => ceRow_eq _ _ (hlab i)
  simp only [hce]
  by_cases hz : ∃ i0, ∀ k, x i0 k = 0
  ·
    obtain ⟨i0, h0⟩ := hz
    have hL0 : logpRow (unit x i0) ⟨(t i0).toNat, hlab i0⟩ = ⊥ := by
      rcases logp_unit_cases (x i0) (hfin i0) with ⟨_, h⟩ | ⟨⟨k, hk⟩, _⟩
      · exact h _
      · exact absurd (h0 k) hk
    have hm1 : mean (fun i => - logpRow (unit x i) ⟨(t i).toNat, hlab i⟩) = ⊤ :=
      mean_eq_top _ (sum_eq_top_of_mem _ _
        (fun i _ h => logp_unit_ne_top (x i) (hfin i) _ (EReal.neg_eq_bot_iff.mp h))
        (Finset.mem_univ i0) (by rw [hL0, EReal.neg_bot]))
    have hm2 : mean (fun i => logpRow (unit x i) ⟨(t i).toNat, hlab i⟩) = ⊥ :=
      mean_eq_bot _ (sum_eq_bot_of_mem _ _ (Finset.mem_univ i0) hL0)
    rw [hm1, hm2, EReal.neg_bot, add_top_of_nonneg (hinges_nonneg _ _),
      add_top_of_nonneg (hinges_nonneg _ _)]
  ·
    have hnz : ∀ i, ∃ k, x i k ≠ 0 := fun i => by
      by_contra h
      exact hz ⟨i, fun k => by by_contra hk; exact h ⟨k, hk⟩⟩
    have hmin : (fun i => min cTwo (hardPos (unit x) t i)) = hardPos (unit x) t :=
      funext fun i => min_cTwo_hardPos x t i (hfin i) (hnz i)
    have hr : ∀ i, ∃ r : ℝ, logpRow (unit x i) ⟨(t i).toNat, hlab i⟩ = (r : EReal) := fun i => by
      rcases logp_unit_cases (x i) (hfin i) with ⟨h, _⟩ | ⟨_, h⟩
      · obtain ⟨k, hk⟩ := hnz i; exact absurd (h k) hk
      · exact h _
    choose r hr using hr
    have hmean : mean (fun i => - logpRow (unit x i) ⟨(t i).toNat, hlab i⟩)
        = - mean (fun i => logpRow (unit x i) ⟨(t i).toNat, hlab i⟩) := by
      simp only [hr]
      exact mean_neg_coe r
    rw [hmin, hmean]

end Triplet

end
-- ==== Proof.KI.Value.lean ====
import proofs.«412808_j68015102100189_2_alg».proof.Proof.KI.Value0
import proofs.«412808_j68015102100189_2_alg».proof.Proof.KI.HostHead
import proofs.«412808_j68015102100189_2_alg».proof.Proof.KI.Outs
import proofs.«412808_j68015102100189_2_alg».proof.Proof.KI.Value1
import proofs.«412808_j68015102100189_2_alg».proof.Proof.KI.HostTail
import proofs.«412808_j68015102100189_2_alg».proof.Proof.Bridge.Tiles
import proofs.«412808_j68015102100189_2_alg».proof.Proof.Bridge.Loss
import Idealize.ShloMosaic.Lib.ValueIdx

noncomputable section

namespace Cert.KernelIdeal.Value

open Cert.KernelIdeal Cert.KernelIdeal.Gen
open Idealize.ShloMosaic Idealize.ShloMosaic.TcCoe Idealize.ShloMosaic.ValueIdx

variable (m : (ℓ : Loc nD τ sig) → Buf (Elt Ideal) ℓ)

abbrev rmin (c : Dev nD) : Fin 8 → BitVec 32 := fun I => Ts m c (Triplet.rowOf I ⟨0, by decide⟩)

abbrev rmax (c : Dev nD) : Fin 8 → BitVec 32 := fun I => Ts m c (Triplet.rowOf I ⟨2047, by decide⟩)

abbrev cmin (c : Dev nD) : Fin 16 → BitVec 32 := fun J => Ts m c (Triplet.colOf J ⟨0, by decide⟩)

abbrev cmax (c : Dev nD) : Fin 16 → BitVec 32 := fun J => Ts m c (Triplet.colOf J ⟨1023, by decide⟩)

theorem split_rowOf (i : Fin 16384) : ∃ (I : Fin 8) (r : Fin 2048), i = Triplet.rowOf I r := split_row i

theorem sorted_Ts (c : Dev nD) : ∀ i j : Fin 16384, i ≤ j → ¬ ((Ts m c) j).slt ((Ts m c) i) = true :=
  Host.perm_sorted (m ((c : Thread nD τ).loc main_arg1))

theorem outsA3_0 (c : Dev nD) : Run.outsA m 3 main_v16_0 c = Run.a2 m c := by
  unfold Run.outsA Run.val3
  rw [Function.update_of_ne (StableHlo.devRef_ne_of_ne (by decide)), Function.update_self]

theorem in1_U (c : Dev nD) (i : Fin 16384) (k : Fin 64) :
    Run.Vin1 m c main_v16_0 (ix2 i k) = Triplet.unit (Xs m c) i k :=
  (congrFun (Host.V4_v16_0 m (Run.outsA m) c) (ix2 i k)).trans
    ((congrFun (outsA3_0 m c) (ix2 i k)).trans
      ((congrFun (Run.a2_eq m c) (ix2 i k)).trans (val0_2 m c i k)))

theorem in1_Tc (c : Dev nD) (i : Fin 16384) : Run.Vin1 m c main_v15 (ix2 i (0 : Fin 1)) = Ts m c i :=
  (congrFun (Host.V4_keep15 m (Run.outsA m) c) (ix2 i (0 : Fin 1))).trans (lab_eq m c i)

theorem in1_Tr (c : Dev nD) (j : Fin 16384) : Run.Vin1 m c main_v27 (ix2 (0 : Fin 1) j) = Ts m c j :=
  Host.V4_v27 m (Run.outsA m) c j

theorem tbl_0 (c : Dev nD) (I : Fin 8) : Run.tbl m 0 (ValueIdx.ix1 I) = rmin m c I := by
  obtain rfl : c = 0 := Subsingleton.elim _ _
  exact (Host.V4_v19 m (Run.outsA m) 0 I).trans (congrArg (fun i => T m 0 (σ m 0 i)) (Fin.ext rfl))
theorem tbl_1 (c : Dev nD) (I : Fin 8) : Run.tbl m 1 (ValueIdx.ix1 I) = rmax m c I := by
  obtain rfl : c = 0 := Subsingleton.elim _ _
  exact (Host.V4_v21 m (Run.outsA m) 0 I).trans (congrArg (fun i => T m 0 (σ m 0 i)) (Fin.ext rfl))
theorem tbl_2 (c : Dev nD) (J : Fin 16) : Run.tbl m 2 (ValueIdx.ix1 J) = cmin m c J := by
  obtain rfl : c = 0 := Subsingleton.elim _ _
  exact (Host.V4_v24 m (Run.outsA m) 0 J).trans (congrArg (fun i => T m 0 (σ m 0 i)) (Fin.ext rfl))
theorem tbl_3 (c : Dev nD) (J : Fin 16) : Run.tbl m 3 (ValueIdx.ix1 J) = cmax m c J := by
  obtain rfl : c = 0 := Subsingleton.elim _ _
  exact (Host.V4_v26 m (Run.outsA m) 0 J).trans (congrArg (fun i => T m 0 (σ m 0 i)) (Fin.ext rfl))

theorem pos_row (c : Dev nD) (i : Fin 16384) :
    Run.outs m 5 main_v28_0 c (ix2 i (0 : Fin 1))
      = min Triplet.cTwo (Triplet.hardPos (Triplet.unit (Xs m c)) (Ts m c) i) := by
  obtain ⟨I, r, rfl⟩ := split_rowOf i
  exact (congrFun (Run.outs5_0 m c) (ix2 (Triplet.rowOf I r) (0 : Fin 1))).trans
    ((congrFun (Run.a4_eq m c) (ix2 (Triplet.rowOf I r) (0 : Fin 1))).trans
      ((Value1.val1_4 (Run.Vin1 m) (Run.tbl m) c (Triplet.unit (Xs m c)) (Ts m c) (rmin m c) (rmax m c) (cmin m c) (cmax m c)
          (in1_U m c) (in1_Tc m c) (in1_Tr m c) (tbl_0 m c) (tbl_1 m c) (tbl_2 m c) (tbl_3 m c) I r).trans
        (Triplet.tiledPos_eq (Triplet.unit (Xs m c)) (Ts m c) (rmin m c) (rmax m c) (cmin m c) (cmax m c) (sorted_Ts m c)
          (fun _ => rfl) (fun _ => rfl) (fun _ => rfl) (fun _ => rfl) I r)))

theorem neg_row (c : Dev nD) (i : Fin 16384) :
    Run.outs m 5 main_v28_1 c (ix2 i (0 : Fin 1))
      = Triplet.hardNeg (Triplet.unit (Xs m c)) (Ts m c) i := by
  obtain ⟨I, r, rfl⟩ := split_rowOf i
  exact (congrFun (Run.outs5_1 m c) (ix2 (Triplet.rowOf I r) (0 : Fin 1))).trans
    ((congrFun (Run.a5_eq m c) (ix2 (Triplet.rowOf I r) (0 : Fin 1))).trans
      ((Value1.val1_5 (Run.Vin1 m) (Run.tbl m) c (Triplet.unit (Xs m c)) (Ts m c) (rmin m c) (rmax m c) (cmin m c) (cmax m c)
          (in1_U m c) (in1_Tc m c) (in1_Tr m c) (tbl_0 m c) (tbl_1 m c) (tbl_2 m c) (tbl_3 m c) I r).trans
        (Triplet.tiledNeg_eq (Triplet.unit (Xs m c)) (Ts m c) (rmin m c) (rmax m c) (cmin m c) (cmax m c) (sorted_Ts m c)
          (fun _ => rfl) (fun _ => rfl) (fun _ => rfl) (fun _ => rfl) I r)))

theorem ce_row (c : Dev nD) (i : Fin 16384) :
    Run.outs m 3 main_v16_1 c (ix2 i (0 : Fin 1)) = Triplet.ceRow (Triplet.unit (Xs m c) i) (Ts m c i) :=
  (congrFun (Run.outs3_1 m c) (ix2 i (0 : Fin 1))).trans
    ((congrFun (Run.a3_eq m c) (ix2 i (0 : Fin 1))).trans (val0_3 m c i))

theorem kernel_value (c : Dev nD) (hfin : ∀ i k, ∃ r : ℝ, X m c i k = (r : EReal)) (hlab : ∀ i, (T m c i).toNat < 64) :
    Gen.V12 m (Run.outs m) c main_v53 ValueIdx.ix0
      = Triplet.hinges (Triplet.hardPos (Triplet.unit (X m c)) (T m c)) (Triplet.hardNeg (Triplet.unit (X m c)) (T m c))
        + - Triplet.mean (fun i => Triplet.logpRow (Triplet.unit (X m c) i) ⟨(T m c i).toNat, hlab i⟩) := by
  have hp : (fun i : Fin 16384 => Run.outs m 5 main_v28_0 c (ix2 i (0 : Fin 1)))
      = fun i => min Triplet.cTwo (Triplet.hardPos (Triplet.unit (Xs m c)) (Ts m c) i) := funext (pos_row m c)
  have hn : (fun i : Fin 16384 => Run.outs m 5 main_v28_1 c (ix2 i (0 : Fin 1)))
      = fun i => Triplet.hardNeg (Triplet.unit (Xs m c)) (Ts m c) i := funext (neg_row m c)
  have hc : (fun i : Fin 16384 => Run.outs m 3 main_v16_1 c (ix2 i (0 : Fin 1)))
      = fun i => Triplet.ceRow (Triplet.unit (Xs m c) i) (Ts m c i) := funext (ce_row m c)
  exact (Host.tail_value m (Run.outs m) c).trans
    ((congrArg₂ (fun a b => a + b) (congrArg₂ Triplet.hinges hp hn) (congrArg Triplet.mean hc)).trans
      (Triplet.loss_eq (X m c) (T m c) (σ := σ m c) (Host.perm_bijective _) hfin hlab))

end Cert.KernelIdeal.Value

end
-- ==== Proof.RefRead.lean ====
import proofs.«412808_j68015102100189_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_call0_v0 (x0 : Vec F S16384x64 .f32) : Vec F S16384x64 .f32 :=
  mulf (x0) (x0)
theorem val_main_call0_v0_apply (x0 : Vec F S16384x64 .f32) (i : S16384x64.Idx) :
    val_main_call0_v0 x0 i = FloatOps.mulf (x0 i) (x0 i) := rfl

def val_main_call0_cst : Vec F S_ .f32 :=
  constant S_ .f32 0x00000000#32
theorem val_main_call0_cst_apply (i : S_.Idx) :
    val_main_call0_cst (F := F) i = FloatOps.ofBits .f32 0x00000000#32 := rfl

def val_main_call0_v1 (x0 : Vec F S16384x64 .f32) : Vec F S16384 .f32 :=
  Host.reduceAdd (val_main_call0_v0 x0) (val_main_call0_cst (F := F)) reducesTo_S16384x64_S16384_d1 h_S_
abbrev idx_main_call0_v1 (i : S16384.Idx) (k : Fin 64) : S16384x64.Idx := fun a => match a with
  | ⟨0, _⟩ => ⟨(i 0).val, (i 0).isLt⟩
  | ⟨1, _⟩ => ⟨k.val, k.isLt⟩

theorem val_main_call0_v1_apply (x0 : Vec Ideal S16384x64 .f32) (i : S16384.Idx) :
    val_main_call0_v1 x0 i = (val_main_call0_cst (F := Ideal)) (Shape.Idx.first h_S_) + ∑ k : Fin 64, (val_main_call0_v0 x0) (idx_main_call0_v1 i k) := by
  unfold val_main_call0_v1
  generalize val_main_call0_v0 x0 = y0
  simp only [Host.reduceAdd, Ideal.hostReduceAdd_def]
  rw [Ideal.hostReduceAdd_single reducesTo_S16384x64_S16384_d1 (by decide)]
  refine congrArg (_ + ·) (Finset.sum_congr rfl fun k _ => ?_)
  exact congrArg y0 (funext fun a => Fin.ext (by match a with | ⟨0, _⟩ => rfl | ⟨1, _⟩ => rfl))

def val_main_call0_v2 (x0 : Vec F S16384x64 .f32) : Vec F S16384x1 .f32 :=
  broadcastInDim S16384x1 ![0] bcast_S16384_S16384x1_0 (val_main_call0_v1 x0)
abbrev idx_main_call0_v2 (i : S16384x1.Idx) : S16384.Idx := fun a => match a with
  | ⟨0, _⟩ => ⟨(i 0).val, (i 0).isLt⟩
theorem val_main_call0_v2_apply (x0 : Vec F S16384x64 .f32) (i : S16384x1.Idx) :
    val_main_call0_v2 x0 i = val_main_call0_v1 x0 (idx_main_call0_v2 i) := by
  unfold val_main_call0_v2
  generalize val_main_call0_v1 x0 = y
  exact broadcastInDim_apply _ bcast_S16384_S16384x1_0 y i (idx_main_call0_v2 i) (fun a => match a with
    | ⟨0, _⟩ => by show (i 0).val = if (16384 : Nat) = 1 then 0 else (i 0).val; rw [if_neg (by decide)])

def val_main_v0 (x0 : Vec F S16384x64 .f32) : Vec F S16384x1 .f32 :=
  Host.sqrt (val_main_call0_v2 x0)
theorem val_main_v0_apply (x0 : Vec F S16384x64 .f32) (i : S16384x1.Idx) :
    val_main_v0 x0 i = FloatOps.hostUnary .sqrt (val_main_call0_v2 x0 i) := rfl

def val_main_v1 (x0 : Vec F S16384x64 .f32) : Vec F S16384x64 .f32 :=
  broadcastInDim S16384x64 ![0, 1] bcast_S16384x1_S16384x64_0_1 (val_main_v0 x0)
abbrev idx_main_v1 (i : S16384x64.Idx) : S16384x1.Idx := fun a => match a with
  | ⟨0, _⟩ => ⟨(i 0).val, (i 0).isLt⟩
  | ⟨1, _⟩ => ⟨0, Nat.one_pos⟩
theorem val_main_v1_apply (x0 : Vec F S16384x64 .f32) (i : S16384x64.Idx) :
    val_main_v1 x0 i = val_main_v0 x0 (idx_main_v1 i) := by
  unfold val_main_v1
  generalize val_main_v0 x0 = y
  exact broadcastInDim_apply _ bcast_S16384x1_S16384x64_0_1 y i (idx_main_v1 i) (fun a => match a with
    | ⟨0, _⟩ => by show (i 0).val = if (16384 : Nat) = 1 then 0 else (i 0).val; rw [if_neg (by decide)]
    | ⟨1, _⟩ => by show 0 = if (1 : Nat) = 1 then 0 else (i 1).val; rw [if_pos rfl])

def val_main_v2 (x0 : Vec F S16384x64 .f32) : Vec F S16384x64 .f32 :=
  Host.divf (x0) (val_main_v1 x0)
theorem val_main_v2_apply (x0 : Vec F S16384x64 .f32) (i : S16384x64.Idx) :
    val_main_v2 x0 i = FloatOps.hostDivf (x0 i) (val_main_v1 x0 i) := rfl

def val_main_call1_cst : Vec F S_ .f32 :=
  constant S_ .f32 0xFF800000#32
theorem val_main_call1_cst_apply (i : S_.Idx) :
    val_main_call1_cst (F := F) i = FloatOps.ofBits .f32 0xFF800000#32 := rfl

def val_main_call1_v0 (x0 : Vec F S16384x64 .f32) : Vec F S16384 .f32 :=
  Host.reduce FloatOps.maximumf (val_main_v2 x0) (val_main_call1_cst (F := F)) reducesTo_S16384x64_S16384_d1 h_S_

def val_main_call1_cst_0 : Vec F S_ .f32 :=
  constant S_ .f32 0xFF800000#32
theorem val_main_call1_cst_0_apply (i : S_.Idx) :
    val_main_call1_cst_0 (F := F) i = FloatOps.ofBits .f32 0xFF800000#32 := rfl

def val_main_call1_v1 : Vec F S16384 .f32 :=
  broadcastInDim S16384 ![] bcast_S_S16384 (val_main_call1_cst_0 (F := F))
abbrev idx_main_call1_v1 (i : S16384.Idx) : S_.Idx := fun a => a.elim0
theorem val_main_call1_v1_apply (i : S16384.Idx) :
    val_main_call1_v1 (F := F) i = val_main_call1_cst_0 (F := F) (idx_main_call1_v1 i) := by
  unfold val_main_call1_v1
  generalize val_main_call1_cst_0 (F := F) = y
  exact broadcastInDim_apply _ bcast_S_S16384 y i (idx_main_call1_v1 i) (fun a => a.elim0)

def val_main_call1_v2 (x0 : Vec F S16384x64 .f32) : Vec F S16384 .f32 :=
  maximumf (val_main_call1_v1 (F := F)) (val_main_call1_v0 x0)
theorem val_main_call1_v2_apply (x0 : Vec F S16384x64 .f32) (i : S16384.Idx) :
    val_main_call1_v2 x0 i = FloatOps.maximumf (val_main_call1_v1 (F := F) i) (val_main_call1_v0 x0 i) := rfl

def val_main_call1_v3 (x0 : Vec F S16384x64 .f32) : Vec F S16384x1 .f32 :=
  broadcastInDim S16384x1 ![0] bcast_S16384_S16384x1_0 (val_main_call1_v2 x0)
abbrev idx_main_call1_v3 (i : S16384x1.Idx) : S16384.Idx := fun a => match a with
  | ⟨0, _⟩ => ⟨(i 0).val, (i 0).isLt⟩
theorem val_main_call1_v3_apply (x0 : Vec F S16384x64 .f32) (i : S16384x1.Idx) :
    val_main_call1_v3 x0 i = val_main_call1_v2 x0 (idx_main_call1_v3 i) := by
  unfold val_main_call1_v3
  generalize val_main_call1_v2 x0 = y
  exact broadcastInDim_apply _ bcast_S16384_S16384x1_0 y i (idx_main_call1_v3 i) (fun a => match a with
    | ⟨0, _⟩ => by show (i 0).val = if (16384 : Nat) = 1 then 0 else (i 0).val; rw [if_neg (by decide)])

def val_main_call1_v4 (x0 : Vec F S16384x64 .f32) : Vec F S16384x64 .f32 :=
  broadcastInDim S16384x64 ![0, 1] bcast_S16384x1_S16384x64_0_1 (val_main_call1_v3 x0)
abbrev idx_main_call1_v4 (i : S16384x64.Idx) : S16384x1.Idx := fun a => match a with
  | ⟨0, _⟩ => ⟨(i 0).val, (i 0).isLt⟩
  | ⟨1, _⟩ => ⟨0, Nat.one_pos⟩
theorem val_main_call1_v4_apply (x0 : Vec F S16384x64 .f32) (i : S16384x64.Idx) :
    val_main_call1_v4 x0 i = val_main_call1_v3 x0 (idx_main_call1_v4 i) := by
  unfold val_main_call1_v4
  generalize val_main_call1_v3 x0 = y
  exact broadcastInDim_apply _ bcast_S16384x1_S16384x64_0_1 y i (idx_main_call1_v4 i) (fun a => match a with
    | ⟨0, _⟩ => by show (i 0).val = if (16384 : Nat) = 1 then 0 else (i 0).val; rw [if_neg (by decide)]
    | ⟨1, _⟩ => by show 0 = if (1 : Nat) = 1 then 0 else (i 1).val; rw [if_pos rfl])

def val_main_call1_v5 (x0 : Vec F S16384x64 .f32) : Vec F S16384x64 .f32 :=
  subf (val_main_v2 x0) (val_main_call1_v4 x0)
theorem val_main_call1_v5_apply (x0 : Vec F S16384x64 .f32) (i : S16384x64.Idx) :
    val_main_call1_v5 x0 i = FloatOps.subf (val_main_v2 x0 i) (val_main_call1_v4 x0 i) := rfl

def val_main_call1_v6 (x0 : Vec F S16384x64 .f32) : Vec F S16384x64 .f32 :=
  Host.exp (val_main_call1_v5 x0)
theorem val_main_call1_v6_apply (x0 : Vec F S16384x64 .f32) (i : S16384x64.Idx) :
    val_main_call1_v6 x0 i = FloatOps.hostUnary .exp (val_main_call1_v5 x0 i) := rfl

def val_main_call1_cst_1 : Vec F S_ .f32 :=
  constant S_ .f32 0x00000000#32
theorem val_main_call1_cst_1_apply (i : S_.Idx) :
    val_main_call1_cst_1 (F := F) i = FloatOps.ofBits .f32 0x00000000#32 := rfl

def val_main_call1_v7 (x0 : Vec F S16384x64 .f32) : Vec F S16384 .f32 :=
  Host.reduceAdd (val_main_call1_v6 x0) (val_main_call1_cst_1 (F := F)) reducesTo_S16384x64_S16384_d1 h_S_
abbrev idx_main_call1_v7 (i : S16384.Idx) (k : Fin 64) : S16384x64.Idx := fun a => match a with
  | ⟨0, _⟩ => ⟨(i 0).val, (i 0).isLt⟩
  | ⟨1, _⟩ => ⟨k.val, k.isLt⟩

theorem val_main_call1_v7_apply (x0 : Vec Ideal S16384x64 .f32) (i : S16384.Idx) :
    val_main_call1_v7 x0 i = (val_main_call1_cst_1 (F := Ideal)) (Shape.Idx.first h_S_) + ∑ k : Fin 64, (val_main_call1_v6 x0) (idx_main_call1_v7 i k) := by
  unfold val_main_call1_v7
  generalize val_main_call1_v6 x0 = y0
  simp only [Host.reduceAdd, Ideal.hostReduceAdd_def]
  rw [Ideal.hostReduceAdd_single reducesTo_S16384x64_S16384_d1 (by decide)]
  refine congrArg (_ + ·) (Finset.sum_congr rfl fun k _ => ?_)
  exact congrArg y0 (funext fun a => Fin.ext (by match a with | ⟨0, _⟩ => rfl | ⟨1, _⟩ => rfl))

def val_main_call1_v8 (x0 : Vec F S16384x64 .f32) : Vec F S16384x1 .f32 :=
  broadcastInDim S16384x1 ![0] bcast_S16384_S16384x1_0 (val_main_call1_v7 x0)
abbrev idx_main_call1_v8 (i : S16384x1.Idx) : S16384.Idx := fun a => match a with
  | ⟨0, _⟩ => ⟨(i 0).val, (i 0).isLt⟩
theorem val_main_call1_v8_apply (x0 : Vec F S16384x64 .f32) (i : S16384x1.Idx) :
    val_main_call1_v8 x0 i = val_main_call1_v7 x0 (idx_main_call1_v8 i) := by
  unfold val_main_call1_v8
  generalize val_main_call1_v7 x0 = y
  exact broadcastInDim_apply _ bcast_S16384_S16384x1_0 y i (idx_main_call1_v8 i) (fun a => match a with
    | ⟨0, _⟩ => by show (i 0).val = if (16384 : Nat) = 1 then 0 else (i 0).val; rw [if_neg (by decide)])

def val_main_call1_v9 (x0 : Vec F S16384x64 .f32) : Vec F S16384x1 .f32 :=
  Host.log (val_main_call1_v8 x0)
theorem val_main_call1_v9_apply (x0 : Vec F S16384x64 .f32) (i : S16384x1.Idx) :
    val_main_call1_v9 x0 i = FloatOps.hostUnary .log (val_main_call1_v8 x0 i) := rfl

def val_main_call1_v10 (x0 : Vec F S16384x64 .f32) : Vec F S16384x64 .f32 :=
  broadcastInDim S16384x64 ![0, 1] bcast_S16384x1_S16384x64_0_1 (val_main_call1_v9 x0)
abbrev idx_main_call1_v10 (i : S16384x64.Idx) : S16384x1.Idx := fun a => match a with
  | ⟨0, _⟩ => ⟨(i 0).val, (i 0).isLt⟩
  | ⟨1, _⟩ => ⟨0, Nat.one_pos⟩
theorem val_main_call1_v10_apply (x0 : Vec F S16384x64 .f32) (i : S16384x64.Idx) :
    val_main_call1_v10 x0 i = val_main_call1_v9 x0 (idx_main_call1_v10 i) := by
  unfold val_main_call1_v10
  generalize val_main_call1_v9 x0 = y
  exact broadcastInDim_apply _ bcast_S16384x1_S16384x64_0_1 y i (idx_main_call1_v10 i) (fun a => match a with
    | ⟨0, _⟩ => by show (i 0).val = if (16384 : Nat) = 1 then 0 else (i 0).val; rw [if_neg (by decide)]
    | ⟨1, _⟩ => by show 0 = if (1 : Nat) = 1 then 0 else (i 1).val; rw [if_pos rfl])

def val_main_v3 (x0 : Vec F S16384x64 .f32) : Vec F S16384x64 .f32 :=
  subf (val_main_call1_v5 x0) (val_main_call1_v10 x0)
theorem val_main_v3_apply (x0 : Vec F S16384x64 .f32) (i : S16384x64.Idx) :
    val_main_v3 x0 i = FloatOps.subf (val_main_call1_v5 x0 i) (val_main_call1_v10 x0 i) := rfl

def val_main_v4 (x1 : Vec F S16384 .i32) : Vec F S16384x1 .i32 :=
  broadcastInDim S16384x1 ![0] bcast_S16384_S16384x1_0 (x1)
abbrev idx_main_v4 (i : S16384x1.Idx) : S16384.Idx := fun a => match a with
  | ⟨0, _⟩ => ⟨(i 0).val, (i 0).isLt⟩
theorem val_main_v4_apply (x1 : Vec F S16384 .i32) (i : S16384x1.Idx) :
    val_main_v4 x1 i = x1 (idx_main_v4 i) := by
  unfold val_main_v4
  exact broadcastInDim_apply _ bcast_S16384_S16384x1_0 x1 i (idx_main_v4 i) (fun a => match a with
    | ⟨0, _⟩ => by show (i 0).val = if (16384 : Nat) = 1 then 0 else (i 0).val; rw [if_neg (by decide)])

def val_main_call2_c : Vec F S_ .i32 :=
  constantI S_ 32 0#32
theorem val_main_call2_c_apply (i : S_.Idx) :
    val_main_call2_c (F := F) i = 0#32 := rfl

def val_main_call2_v0 : Vec F S16384x1 .i32 :=
  broadcastInDim S16384x1 ![] bcast_S_S16384x1 (val_main_call2_c (F := F))
abbrev idx_main_call2_v0 (i : S16384x1.Idx) : S_.Idx := fun a => a.elim0
theorem val_main_call2_v0_apply (i : S16384x1.Idx) :
    val_main_call2_v0 (F := F) i = val_main_call2_c (F := F) (idx_main_call2_v0 i) := by
  unfold val_main_call2_v0
  generalize val_main_call2_c (F := F) = y
  exact broadcastInDim_apply _ bcast_S_S16384x1 y i (idx_main_call2_v0 i) (fun a => a.elim0)

def val_main_call2_v1 (x1 : Vec F S16384 .i32) : Vec F S16384x1 .i1 :=
  cmpi .slt (val_main_v4 x1) (val_main_call2_v0 (F := F))
theorem val_main_call2_v1_apply (x1 : Vec F S16384 .i32) (i : S16384x1.Idx) :
    val_main_call2_v1 x1 i = IntOp.cmpi .slt (val_main_v4 x1 i) (val_main_call2_v0 (F := F) i) := rfl

def val_main_call2_c_0 : Vec F S_ .i32 :=
  constantI S_ 32 64#32
def val_main_call2_v2 : Vec F S16384x1 .i32 :=
  broadcastInDim S16384x1 ![] bcast_S_S16384x1 (val_main_call2_c_0 (F := F))
def val_main_call2_v3 (x1 : Vec F S16384 .i32) : Vec F S16384x1 .i32 :=
  addi (val_main_v4 x1) (val_main_call2_v2 (F := F))
def val_main_call2_v4 (x1 : Vec F S16384 .i32) : Vec F S16384x1 .i32 :=
  select (val_main_call2_v1 x1) (val_main_call2_v3 x1) (val_main_v4 x1)
theorem val_main_call2_v4_apply (x1 : Vec F S16384 .i32) (i : S16384x1.Idx) :
    val_main_call2_v4 x1 i = Scalar.select (val_main_call2_v1 x1 i) (val_main_call2_v3 x1 i) (val_main_v4 x1 i) := rfl

def val_main_call2_v5 (x1 : Vec F S16384 .i32) : Vec F S16384x1x1 .i32 :=
  shapeCast _ (val_main_call2_v4 x1) shapeCasts_S16384x1_S16384x1x1
abbrev idx_main_call2_v5 (i : S16384x1x1.Idx) : S16384x1.Idx := fun a => match a with
  | ⟨0, _⟩ => ⟨(((i 0).val * 1 + (i 1).val) * 1 + (i 2).val) / 1, by have h0 : (i 0).val < 16384 := (i 0).isLt; have h1 : (i 1).val < 1 := (i 1).isLt; have h2 : (i 2).val < 1 := (i 2).isLt; show (((i 0).val * 1 + (i 1).val) * 1 + (i 2).val) / 1 < 16384; omega⟩
  | ⟨1, _⟩ => ⟨0, Nat.one_pos⟩
theorem val_main_call2_v5_apply (x1 : Vec F S16384 .i32) (i : S16384x1x1.Idx) :
    val_main_call2_v5 x1 i = val_main_call2_v4 x1 (idx_main_call2_v5 i) := by
  unfold val_main_call2_v5
  generalize val_main_call2_v4 x1 = y
  exact shapeCast_apply y shapeCasts_S16384x1_S16384x1x1 i (idx_main_call2_v5 i)
    (by rewrite [Shape.rowMajor_val_two, Shape.rowMajor_val_three]; have h0 : (i 0).val < 16384 := (i 0).isLt; have h1 : (i 1).val < 1 := (i 1).isLt; have h2 : (i 2).val < 1 := (i 2).isLt; show (((i 0).val * 1 + (i 1).val) * 1 + (i 2).val) / 1 * 1 + 0 = ((i 0).val * 1 + (i 1).val) * 1 + (i 2).val; omega)

def val_main_call2_c_1 : Vec F S1 .i32 :=
  constantI S1 32 63#32
theorem val_main_call2_c_1_apply (i : S1.Idx) :
    val_main_call2_c_1 (F := F) i = 63#32 := rfl

def val_main_call2_c_2 : Vec F S_ .i32 :=
  constantI S_ 32 0#32
theorem val_main_call2_c_2_apply (i : S_.Idx) :
    val_main_call2_c_2 (F := F) i = 0#32 := rfl

def val_main_call2_v6 : Vec F S16384x1x1 .i32 :=
  broadcastInDim S16384x1x1 ![] bcast_S_S16384x1x1 (val_main_call2_c_2 (F := F))
abbrev idx_main_call2_v6 (i : S16384x1x1.Idx) : S_.Idx := fun a => a.elim0
theorem val_main_call2_v6_apply (i : S16384x1x1.Idx) :
    val_main_call2_v6 (F := F) i = val_main_call2_c_2 (F := F) (idx_main_call2_v6 i) := by
  unfold val_main_call2_v6
  generalize val_main_call2_c_2 (F := F) = y
  exact broadcastInDim_apply _ bcast_S_S16384x1x1 y i (idx_main_call2_v6 i) (fun a => a.elim0)

def val_main_call2_v7 (x1 : Vec F S16384 .i32) : Vec F S16384x1x1 .i1 :=
  cmpi .sge (val_main_call2_v5 x1) (val_main_call2_v6 (F := F))
theorem val_main_call2_v7_apply (x1 : Vec F S16384 .i32) (i : S16384x1x1.Idx) :
    val_main_call2_v7 x1 i = IntOp.cmpi .sge (val_main_call2_v5 x1 i) (val_main_call2_v6 (F := F) i) := rfl

def val_main_call2_v8 : Vec F S1x1x1 .i32 :=
  broadcastInDim S1x1x1 ![2] bcast_S1_S1x1x1_2 (val_main_call2_c_1 (F := F))
abbrev idx_main_call2_v8 (i : S1x1x1.Idx) : S1.Idx := fun a => match a with
  | ⟨0, _⟩ => ⟨0, Nat.one_pos⟩
theorem val_main_call2_v8_apply (i : S1x1x1.Idx) :
    val_main_call2_v8 (F := F) i = val_main_call2_c_1 (F := F) (idx_main_call2_v8 i) := by
  unfold val_main_call2_v8
  generalize val_main_call2_c_1 (F := F) = y
  exact broadcastInDim_apply _ bcast_S1_S1x1x1_2 y i (idx_main_call2_v8 i) (fun a => match a with
    | ⟨0, _⟩ => by show 0 = if (1 : Nat) = 1 then 0 else (i 2).val; rw [if_pos rfl])

def val_main_call2_v9 : Vec F S16384x1x1 .i32 :=
  broadcastInDim S16384x1x1 ![0, 1, 2] bcast_S1x1x1_S16384x1x1_0_1_2 (val_main_call2_v8 (F := F))
abbrev idx_main_call2_v9 (i : S16384x1x1.Idx) : S1x1x1.Idx := fun a => match a with
  | ⟨0, _⟩ => ⟨0, Nat.one_pos⟩
  | ⟨1, _⟩ => ⟨0, Nat.one_pos⟩
  | ⟨2, _⟩ => ⟨0, Nat.one_pos⟩
theorem val_main_call2_v9_apply (i : S16384x1x1.Idx) :
    val_main_call2_v9 (F := F) i = val_main_call2_v8 (F := F) (idx_main_call2_v9 i) := by
  unfold val_main_call2_v9
  generalize val_main_call2_v8 (F := F) = y
  exact broadcastInDim_apply _ bcast_S1x1x1_S16384x1x1_0_1_2 y i (idx_main_call2_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])

def val_main_call2_v10 (x1 : Vec F S16384 .i32) : Vec F S16384x1x1 .i1 :=
  cmpi .sle (val_main_call2_v5 x1) (val_main_call2_v9 (F := F))
theorem val_main_call2_v10_apply (x1 : Vec F S16384 .i32) (i : S16384x1x1.Idx) :
    val_main_call2_v10 x1 i = IntOp.cmpi .sle (val_main_call2_v5 x1 i) (val_main_call2_v9 (F := F) i) := rfl

def val_main_call2_v11 (x1 : Vec F S16384 .i32) : Vec F S16384x1x1 .i1 :=
  andi (val_main_call2_v7 x1) (val_main_call2_v10 x1)
theorem val_main_call2_v11_apply (x1 : Vec F S16384 .i32) (i : S16384x1x1.Idx) :
    val_main_call2_v11 x1 i = IntOp.andi (val_main_call2_v7 x1 i) (val_main_call2_v10 x1 i) := rfl

def val_main_call2_c_3 : Vec F S_ .i1 :=
  constantI S_ 1 1#1
theorem val_main_call2_c_3_apply (i : S_.Idx) :
    val_main_call2_c_3 (F := F) i = 1#1 := rfl

def val_main_call2_v12 (x1 : Vec F S16384 .i32) : Vec F S16384x1 .i1 :=
  Host.reduce IntOp.andi (val_main_call2_v11 x1) (val_main_call2_c_3 (F := F)) reducesTo_S16384x1x1_S16384x1_d2 h_S_

def val_main_call2_v13 (x0 : Vec F S16384x64 .f32) (x1 : Vec F S16384 .i32) : Vec F S16384x1 .f32 :=
  Host.gather gather_S16384x64_S16384x1x1_S16384x1_n_1_0_0_1_2_11 (val_main_v3 x0) (val_main_call2_v5 x1)

def val_main_call2_cst : Vec F S_ .f32 :=
  constant S_ .f32 0x7FC00000#32
def val_main_call2_v14 : Vec F S16384x1 .f32 :=
  broadcastInDim S16384x1 ![] bcast_S_S16384x1 (val_main_call2_cst (F := F))
def val_main_v5 (x0 : Vec F S16384x64 .f32) (x1 : Vec F S16384 .i32) : Vec F S16384x1 .f32 :=
  select (val_main_call2_v12 x1) (val_main_call2_v13 x0 x1) (val_main_call2_v14 (F := F))
theorem val_main_v5_apply (x0 : Vec F S16384x64 .f32) (x1 : Vec F S16384 .i32) (i : S16384x1.Idx) :
    val_main_v5 x0 x1 i = Scalar.select (val_main_call2_v12 x1 i) (val_main_call2_v13 x0 x1 i) (val_main_call2_v14 (F := F) i) := rfl

def val_main_cst : Vec F S_ .f32 :=
  constant S_ .f32 0x00000000#32
def val_main_v6 (x0 : Vec F S16384x64 .f32) (x1 : Vec F S16384 .i32) : Vec F S_ .f32 :=
  Host.reduceAdd (val_main_v5 x0 x1) (val_main_cst (F := F)) reducesTo_S16384x1_S_d0_1 h_S_

theorem val_main_v6_apply (x0 : Vec Ideal S16384x64 .f32) (x1 : Vec Ideal S16384 .i32) (i : S_.Idx) :
    val_main_v6 x0 x1 i = (val_main_cst (F := Ideal)) (Shape.Idx.first h_S_) + ∑ j : S16384x1.Idx, (val_main_v5 x0 x1) j := by
  unfold val_main_v6
  generalize val_main_v5 x0 x1 = y0
  simp only [Host.reduceAdd, Ideal.hostReduceAdd_def]
  exact Ideal.hostReduceAdd_total reducesTo_S16384x1_S_d0_1 (fun b => b.elim0) y0 _ i

def val_main_cst_0 : Vec F S_ .f32 :=
  constant S_ .f32 0x46800000#32
def val_main_v7 (x0 : Vec F S16384x64 .f32) (x1 : Vec F S16384 .i32) : Vec F S_ .f32 :=
  Host.divf (val_main_v6 x0 x1) (val_main_cst_0 (F := F))
theorem val_main_v7_apply (x0 : Vec F S16384x64 .f32) (x1 : Vec F S16384 .i32) (i : S_.Idx) :
    val_main_v7 x0 x1 i = FloatOps.hostDivf (val_main_v6 x0 x1 i) (val_main_cst_0 (F := F) i) := rfl

def val_main_v8 (x0 : Vec F S16384x64 .f32) (x1 : Vec F S16384 .i32) : Vec F S_ .f32 :=
  Host.negf (val_main_v7 x0 x1)
theorem val_main_v8_apply (x0 : Vec F S16384x64 .f32) (x1 : Vec F S16384 .i32) (i : S_.Idx) :
    val_main_v8 x0 x1 i = FloatOps.hostNegf (val_main_v7 x0 x1 i) := rfl

def val_main_v9 (x0 : Vec F S16384x64 .f32) : Vec F S64x16384 .f32 :=
  transpose S64x16384 [1, 0] (val_main_v2 x0) transposes_S16384x64_S64x16384_1_0
abbrev idx_main_v9 (i : S64x16384.Idx) : S16384x64.Idx := fun a => match a with
  | ⟨0, _⟩ => ⟨(i 1).val, (i 1).isLt⟩
  | ⟨1, _⟩ => ⟨(i 0).val, (i 0).isLt⟩
theorem val_main_v9_apply (x0 : Vec F S16384x64 .f32) (i : S64x16384.Idx) :
    val_main_v9 x0 i = val_main_v2 x0 (idx_main_v9 i) := by
  unfold val_main_v9
  generalize val_main_v2 x0 = y
  exact transpose_apply [1, 0] y transposes_S16384x64_S64x16384_1_0 i (idx_main_v9 i) (fun b => match b with
    | ⟨0, _⟩ => rfl
    | ⟨1, _⟩ => rfl)

def val_main_v10 (x0 : Vec F S16384x64 .f32) : Vec F S16384x16384 .f32 :=
  Host.dotGeneral dot_S16384x64_S64x16384_S16384x16384_1_0_0_1_n_n none (val_main_v2 x0) (val_main_v9 x0)
theorem lhs_main_v10_0 (i : S16384x16384.Idx) (q : dot_S16384x64_S64x16384_S16384x16384_1_0_0_1_n_n.contr.Idx) :
    (dot_S16384x64_S64x16384_S16384x16384_1_0_0_1_n_n.lhsIdx i q 0).val = (i 0).val := by
  unfold DotDims.lhsIdx
  rw [dif_neg (show ¬(0 : Fin S16384x64.rank) ∈ dot_S16384x64_S64x16384_S16384x16384_1_0_0_1_n_n.lhsBatch by decide), dif_pos (show (0 : Fin S16384x64.rank) ∈ dot_S16384x64_S64x16384_S16384x16384_1_0_0_1_n_n.lhsNonContracting by decide)]
  rfl
theorem lhs_main_v10_1 (i : S16384x16384.Idx) (q : dot_S16384x64_S64x16384_S16384x16384_1_0_0_1_n_n.contr.Idx) :
    (dot_S16384x64_S64x16384_S16384x16384_1_0_0_1_n_n.lhsIdx i q 1).val = (q ⟨0, by decide⟩).val :=
  dot_S16384x64_S64x16384_S16384x16384_1_0_0_1_n_n.lhsIdx_val_of_single rfl i q
theorem rhs_main_v10_0 (i : S16384x16384.Idx) (q : dot_S16384x64_S64x16384_S16384x16384_1_0_0_1_n_n.contr.Idx) :
    (dot_S16384x64_S64x16384_S16384x16384_1_0_0_1_n_n.rhsIdx i q 0).val = (q ⟨0, by decide⟩).val :=
  dot_S16384x64_S64x16384_S16384x16384_1_0_0_1_n_n.rhsIdx_val_of_single rfl i q
theorem rhs_main_v10_1 (i : S16384x16384.Idx) (q : dot_S16384x64_S64x16384_S16384x16384_1_0_0_1_n_n.contr.Idx) :
    (dot_S16384x64_S64x16384_S16384x16384_1_0_0_1_n_n.rhsIdx i q 1).val = (i 1).val := by
  unfold DotDims.rhsIdx
  rw [dif_neg (show ¬(1 : Fin S64x16384.rank) ∈ dot_S16384x64_S64x16384_S16384x16384_1_0_0_1_n_n.rhsBatch by decide), dif_pos (show (1 : Fin S64x16384.rank) ∈ dot_S16384x64_S64x16384_S16384x16384_1_0_0_1_n_n.rhsNonContracting by decide)]
  rfl
abbrev lidx_main_v10 (i : S16384x16384.Idx) (k : Fin 64) : S16384x64.Idx := fun a => match a with
  | ⟨0, _⟩ => ⟨(i 0).val, (i 0).isLt⟩
  | ⟨1, _⟩ => ⟨k.val, k.isLt⟩
abbrev ridx_main_v10 (i : S16384x16384.Idx) (k : Fin 64) : S64x16384.Idx := fun a => match a with
  | ⟨0, _⟩ => ⟨k.val, k.isLt⟩
  | ⟨1, _⟩ => ⟨(i 1).val, (i 1).isLt⟩

theorem val_main_v10_apply (x0 : Vec Ideal S16384x64 .f32) (i : S16384x16384.Idx) :
    val_main_v10 x0 i = ∑ k : Fin 64, (val_main_v2 x0) (lidx_main_v10 i k) * (val_main_v9 x0) (ridx_main_v10 i k) := by
  unfold val_main_v10
  generalize val_main_v2 x0 = y0
  generalize val_main_v9 x0 = y1
  simp only [Host.dotGeneral]
  rw [Ideal.dotGeneral_apply, ← Equiv.sum_comp (ValueIdx.contrEquiv1 dot_S16384x64_S64x16384_S16384x16384_1_0_0_1_n_n 64 rfl rfl).symm]
  refine Finset.sum_congr rfl fun k _ => ?_
  have hk := ValueIdx.contrEquiv1_symm_val dot_S16384x64_S64x16384_S16384x16384_1_0_0_1_n_n 64 rfl rfl k
  have el : dot_S16384x64_S64x16384_S16384x16384_1_0_0_1_n_n.lhsIdx i ((ValueIdx.contrEquiv1 dot_S16384x64_S64x16384_S16384x16384_1_0_0_1_n_n 64 rfl rfl).symm k) = lidx_main_v10 i k := funext fun a => Fin.ext (by
    match a with
    | ⟨0, _⟩ => exact lhs_main_v10_0 _ _
    | ⟨1, _⟩ => exact (lhs_main_v10_1 _ _).trans hk)
  have er : dot_S16384x64_S64x16384_S16384x16384_1_0_0_1_n_n.rhsIdx i ((ValueIdx.contrEquiv1 dot_S16384x64_S64x16384_S16384x16384_1_0_0_1_n_n 64 rfl rfl).symm k) = ridx_main_v10 i k := funext fun a => Fin.ext (by
    match a with
    | ⟨0, _⟩ => exact (rhs_main_v10_0 _ _).trans hk
    | ⟨1, _⟩ => exact rhs_main_v10_1 _ _)
  rw [el, er]

def val_main_v11 (x1 : Vec F S16384 .i32) : Vec F S1x16384 .i32 :=
  broadcastInDim S1x16384 ![1] bcast_S16384_S1x16384_1 (x1)
abbrev idx_main_v11 (i : S1x16384.Idx) : S16384.Idx := fun a => match a with
  | ⟨0, _⟩ => ⟨(i 1).val, (i 1).isLt⟩
theorem val_main_v11_apply (x1 : Vec F S16384 .i32) (i : S1x16384.Idx) :
    val_main_v11 x1 i = x1 (idx_main_v11 i) := by
  unfold val_main_v11
  exact broadcastInDim_apply _ bcast_S16384_S1x16384_1 x1 i (idx_main_v11 i) (fun a => match a with
    | ⟨0, _⟩ => by show (i 1).val = if (16384 : Nat) = 1 then 0 else (i 1).val; rw [if_neg (by decide)])

def val_main_v12 (x1 : Vec F S16384 .i32) : Vec F S16384x1 .i32 :=
  broadcastInDim S16384x1 ![0] bcast_S16384_S16384x1_0 (x1)
abbrev idx_main_v12 (i : S16384x1.Idx) : S16384.Idx := fun a => match a with
  | ⟨0, _⟩ => ⟨(i 0).val, (i 0).isLt⟩
theorem val_main_v12_apply (x1 : Vec F S16384 .i32) (i : S16384x1.Idx) :
    val_main_v12 x1 i = x1 (idx_main_v12 i) := by
  unfold val_main_v12
  exact broadcastInDim_apply _ bcast_S16384_S16384x1_0 x1 i (idx_main_v12 i) (fun a => match a with
    | ⟨0, _⟩ => by show (i 0).val = if (16384 : Nat) = 1 then 0 else (i 0).val; rw [if_neg (by decide)])

def val_main_v13 (x1 : Vec F S16384 .i32) : Vec F S16384x16384 .i32 :=
  broadcastInDim S16384x16384 ![0, 1] bcast_S1x16384_S16384x16384_0_1 (val_main_v11 x1)
abbrev idx_main_v13 (i : S16384x16384.Idx) : S1x16384.Idx := fun a => match a with
  | ⟨0, _⟩ => ⟨0, Nat.one_pos⟩
  | ⟨1, _⟩ => ⟨(i 1).val, (i 1).isLt⟩
theorem val_main_v13_apply (x1 : Vec F S16384 .i32) (i : S16384x16384.Idx) :
    val_main_v13 x1 i = val_main_v11 x1 (idx_main_v13 i) := by
  unfold val_main_v13
  generalize val_main_v11 x1 = y
  exact broadcastInDim_apply _ bcast_S1x16384_S16384x16384_0_1 y i (idx_main_v13 i) (fun a => match a with
    | ⟨0, _⟩ => by show 0 = if (1 : Nat) = 1 then 0 else (i 0).val; rw [if_pos rfl]
    | ⟨1, _⟩ => by show (i 1).val = if (16384 : Nat) = 1 then 0 else (i 1).val; rw [if_neg (by decide)])

def val_main_v14 (x1 : Vec F S16384 .i32) : Vec F S16384x16384 .i32 :=
  broadcastInDim S16384x16384 ![0, 1] bcast_S16384x1_S16384x16384_0_1 (val_main_v12 x1)
abbrev idx_main_v14 (i : S16384x16384.Idx) : S16384x1.Idx := fun a => match a with
  | ⟨0, _⟩ => ⟨(i 0).val, (i 0).isLt⟩
  | ⟨1, _⟩ => ⟨0, Nat.one_pos⟩
theorem val_main_v14_apply (x1 : Vec F S16384 .i32) (i : S16384x16384.Idx) :
    val_main_v14 x1 i = val_main_v12 x1 (idx_main_v14 i) := by
  unfold val_main_v14
  generalize val_main_v12 x1 = y
  exact broadcastInDim_apply _ bcast_S16384x1_S16384x16384_0_1 y i (idx_main_v14 i) (fun a => match a with
    | ⟨0, _⟩ => by show (i 0).val = if (16384 : Nat) = 1 then 0 else (i 0).val; rw [if_neg (by decide)]
    | ⟨1, _⟩ => by show 0 = if (1 : Nat) = 1 then 0 else (i 1).val; rw [if_pos rfl])

def val_main_v15 (x1 : Vec F S16384 .i32) : Vec F S16384x16384 .i1 :=
  cmpi .eq (val_main_v13 x1) (val_main_v14 x1)
theorem val_main_v15_apply (x1 : Vec F S16384 .i32) (i : S16384x16384.Idx) :
    val_main_v15 x1 i = IntOp.cmpi .eq (val_main_v13 x1 i) (val_main_v14 x1 i) := rfl

def val_main_cst_1 : Vec F S_ .f32 :=
  constant S_ .f32 0x7F800000#32
theorem val_main_cst_1_apply (i : S_.Idx) :
    val_main_cst_1 (F := F) i = FloatOps.ofBits .f32 0x7F800000#32 := rfl

def val_main_call3_v0 : Vec F S_ .f32 :=
  id (val_main_cst_1 (F := F))
theorem val_main_call3_v0_apply (i : S_.Idx) :
    val_main_call3_v0 (F := F) i = (val_main_cst_1 (F := F) i) := rfl

def val_main_call3_v1 : Vec F S16384x16384 .f32 :=
  broadcastInDim S16384x16384 ![] bcast_S_S16384x16384 (val_main_call3_v0 (F := F))
abbrev idx_main_call3_v1 (i : S16384x16384.Idx) : S_.Idx := fun a => a.elim0
theorem val_main_call3_v1_apply (i : S16384x16384.Idx) :
    val_main_call3_v1 (F := F) i = val_main_call3_v0 (F := F) (idx_main_call3_v1 i) := by
  unfold val_main_call3_v1
  generalize val_main_call3_v0 (F := F) = y
  exact broadcastInDim_apply _ bcast_S_S16384x16384 y i (idx_main_call3_v1 i) (fun a => a.elim0)

def val_main_v16 (x0 : Vec F S16384x64 .f32) (x1 : Vec F S16384 .i32) : Vec F S16384x16384 .f32 :=
  select (val_main_v15 x1) (val_main_v10 x0) (val_main_call3_v1 (F := F))
theorem val_main_v16_apply (x0 : Vec F S16384x64 .f32) (x1 : Vec F S16384 .i32) (i : S16384x16384.Idx) :
    val_main_v16 x0 x1 i = Scalar.select (val_main_v15 x1 i) (val_main_v10 x0 i) (val_main_call3_v1 (F := F) i) := rfl

def val_main_cst_2 : Vec F S_ .f32 :=
  constant S_ .f32 0x7F800000#32
def val_main_v17 (x0 : Vec F S16384x64 .f32) (x1 : Vec F S16384 .i32) : Vec F S16384 .f32 :=
  Host.reduce FloatOps.minimumf (val_main_v16 x0 x1) (val_main_cst_2 (F := F)) reducesTo_S16384x16384_S16384_d1 h_S_

def val_main_cst_3 : Vec F S_ .f32 :=
  constant S_ .f32 0xFF800000#32
theorem val_main_cst_3_apply (i : S_.Idx) :
    val_main_cst_3 (F := F) i = FloatOps.ofBits .f32 0xFF800000#32 := rfl

def val_main_call4_v0 : Vec F S_ .f32 :=
  id (val_main_cst_3 (F := F))
theorem val_main_call4_v0_apply (i : S_.Idx) :
    val_main_call4_v0 (F := F) i = (val_main_cst_3 (F := F) i) := rfl

def val_main_call4_v1 : Vec F S16384x16384 .f32 :=
  broadcastInDim S16384x16384 ![] bcast_S_S16384x16384 (val_main_call4_v0 (F := F))
abbrev idx_main_call4_v1 (i : S16384x16384.Idx) : S_.Idx := fun a => a.elim0
theorem val_main_call4_v1_apply (i : S16384x16384.Idx) :
    val_main_call4_v1 (F := F) i = val_main_call4_v0 (F := F) (idx_main_call4_v1 i) := by
  unfold val_main_call4_v1
  generalize val_main_call4_v0 (F := F) = y
  exact broadcastInDim_apply _ bcast_S_S16384x16384 y i (idx_main_call4_v1 i) (fun a => a.elim0)

def val_main_v18 (x0 : Vec F S16384x64 .f32) (x1 : Vec F S16384 .i32) : Vec F S16384x16384 .f32 :=
  select (val_main_v15 x1) (val_main_call4_v1 (F := F)) (val_main_v10 x0)
theorem val_main_v18_apply (x0 : Vec F S16384x64 .f32) (x1 : Vec F S16384 .i32) (i : S16384x16384.Idx) :
    val_main_v18 x0 x1 i = Scalar.select (val_main_v15 x1 i) (val_main_call4_v1 (F := F) i) (val_main_v10 x0 i) := rfl

def val_main_cst_4 : Vec F S_ .f32 :=
  constant S_ .f32 0xFF800000#32
def val_main_v19 (x0 : Vec F S16384x64 .f32) (x1 : Vec F S16384 .i32) : Vec F S16384 .f32 :=
  Host.reduce FloatOps.maximumf (val_main_v18 x0 x1) (val_main_cst_4 (F := F)) reducesTo_S16384x16384_S16384_d1 h_S_

def val_main_cst_5 : Vec F S_ .f32 :=
  constant S_ .f32 0x3F000000#32
def val_main_v20 : Vec F S16384 .f32 :=
  broadcastInDim S16384 ![] bcast_S_S16384 (val_main_cst_5 (F := F))
abbrev idx_main_v20 (i : S16384.Idx) : S_.Idx := fun a => a.elim0
theorem val_main_v20_apply (i : S16384.Idx) :
    val_main_v20 (F := F) i = val_main_cst_5 (F := F) (idx_main_v20 i) := by
  unfold val_main_v20
  generalize val_main_cst_5 (F := F) = y
  exact broadcastInDim_apply _ bcast_S_S16384 y i (idx_main_v20 i) (fun a => a.elim0)

def val_main_v21 (x0 : Vec F S16384x64 .f32) (x1 : Vec F S16384 .i32) : Vec F S16384 .f32 :=
  addf (val_main_v20 (F := F)) (val_main_v17 x0 x1)
theorem val_main_v21_apply (x0 : Vec F S16384x64 .f32) (x1 : Vec F S16384 .i32) (i : S16384.Idx) :
    val_main_v21 x0 x1 i = FloatOps.addf (val_main_v20 (F := F) i) (val_main_v17 x0 x1 i) := rfl

def val_main_v22 (x0 : Vec F S16384x64 .f32) (x1 : Vec F S16384 .i32) : Vec F S16384 .f32 :=
  subf (val_main_v21 x0 x1) (val_main_v19 x0 x1)
theorem val_main_v22_apply (x0 : Vec F S16384x64 .f32) (x1 : Vec F S16384 .i32) (i : S16384.Idx) :
    val_main_v22 x0 x1 i = FloatOps.subf (val_main_v21 x0 x1 i) (val_main_v19 x0 x1 i) := rfl

def val_main_call5_cst : Vec F S_ .f32 :=
  constant S_ .f32 0x00000000#32
def val_main_call5_v0 : Vec F S16384 .f32 :=
  broadcastInDim S16384 ![] bcast_S_S16384 (val_main_call5_cst (F := F))
abbrev idx_main_call5_v0 (i : S16384.Idx) : S_.Idx := fun a => a.elim0
theorem val_main_call5_v0_apply (i : S16384.Idx) :
    val_main_call5_v0 (F := F) i = val_main_call5_cst (F := F) (idx_main_call5_v0 i) := by
  unfold val_main_call5_v0
  generalize val_main_call5_cst (F := F) = y
  exact broadcastInDim_apply _ bcast_S_S16384 y i (idx_main_call5_v0 i) (fun a => a.elim0)

def val_main_v23 (x0 : Vec F S16384x64 .f32) (x1 : Vec F S16384 .i32) : Vec F S16384 .f32 :=
  maximumf (val_main_v22 x0 x1) (val_main_call5_v0 (F := F))
theorem val_main_v23_apply (x0 : Vec F S16384x64 .f32) (x1 : Vec F S16384 .i32) (i : S16384.Idx) :
    val_main_v23 x0 x1 i = FloatOps.maximumf (val_main_v22 x0 x1 i) (val_main_call5_v0 (F := F) i) := rfl

def val_main_cst_6 : Vec F S_ .f32 :=
  constant S_ .f32 0x00000000#32
def val_main_v24 (x0 : Vec F S16384x64 .f32) (x1 : Vec F S16384 .i32) : Vec F S_ .f32 :=
  Host.reduceAdd (val_main_v23 x0 x1) (val_main_cst_6 (F := F)) reducesTo_S16384_S_d0 h_S_

theorem val_main_v24_apply (x0 : Vec Ideal S16384x64 .f32) (x1 : Vec Ideal S16384 .i32) (i : S_.Idx) :
    val_main_v24 x0 x1 i = (val_main_cst_6 (F := Ideal)) (Shape.Idx.first h_S_) + ∑ j : S16384.Idx, (val_main_v23 x0 x1) j := by
  unfold val_main_v24
  generalize val_main_v23 x0 x1 = y0
  simp only [Host.reduceAdd, Ideal.hostReduceAdd_def]
  exact Ideal.hostReduceAdd_total reducesTo_S16384_S_d0 (fun b => b.elim0) y0 _ i

def val_main_cst_7 : Vec F S_ .f32 :=
  constant S_ .f32 0x46800000#32
def val_main_v25 (x0 : Vec F S16384x64 .f32) (x1 : Vec F S16384 .i32) : Vec F S_ .f32 :=
  Host.divf (val_main_v24 x0 x1) (val_main_cst_7 (F := F))
theorem val_main_v25_apply (x0 : Vec F S16384x64 .f32) (x1 : Vec F S16384 .i32) (i : S_.Idx) :
    val_main_v25 x0 x1 i = FloatOps.hostDivf (val_main_v24 x0 x1 i) (val_main_cst_7 (F := F) i) := rfl

def val_main_cst_8 : Vec F S_ .f32 :=
  constant S_ .f32 0x3F4CCCCD#32
def val_main_v26 : Vec F S16384 .f32 :=
  broadcastInDim S16384 ![] bcast_S_S16384 (val_main_cst_8 (F := F))
abbrev idx_main_v26 (i : S16384.Idx) : S_.Idx := fun a => a.elim0
theorem val_main_v26_apply (i : S16384.Idx) :
    val_main_v26 (F := F) i = val_main_cst_8 (F := F) (idx_main_v26 i) := by
  unfold val_main_v26
  generalize val_main_cst_8 (F := F) = y
  exact broadcastInDim_apply _ bcast_S_S16384 y i (idx_main_v26 i) (fun a => a.elim0)

def val_main_v27 (x0 : Vec F S16384x64 .f32) (x1 : Vec F S16384 .i32) : Vec F S16384 .f32 :=
  subf (val_main_v26 (F := F)) (val_main_v17 x0 x1)
theorem val_main_v27_apply (x0 : Vec F S16384x64 .f32) (x1 : Vec F S16384 .i32) (i : S16384.Idx) :
    val_main_v27 x0 x1 i = FloatOps.subf (val_main_v26 (F := F) i) (val_main_v17 x0 x1 i) := rfl

def val_main_call6_cst : Vec F S_ .f32 :=
  constant S_ .f32 0x00000000#32
def val_main_call6_v0 : Vec F S16384 .f32 :=
  broadcastInDim S16384 ![] bcast_S_S16384 (val_main_call6_cst (F := F))
abbrev idx_main_call6_v0 (i : S16384.Idx) : S_.Idx := fun a => a.elim0
theorem val_main_call6_v0_apply (i : S16384.Idx) :
    val_main_call6_v0 (F := F) i = val_main_call6_cst (F := F) (idx_main_call6_v0 i) := by
  unfold val_main_call6_v0
  generalize val_main_call6_cst (F := F) = y
  exact broadcastInDim_apply _ bcast_S_S16384 y i (idx_main_call6_v0 i) (fun a => a.elim0)

def val_main_v28 (x0 : Vec F S16384x64 .f32) (x1 : Vec F S16384 .i32) : Vec F S16384 .f32 :=
  maximumf (val_main_v27 x0 x1) (val_main_call6_v0 (F := F))
theorem val_main_v28_apply (x0 : Vec F S16384x64 .f32) (x1 : Vec F S16384 .i32) (i : S16384.Idx) :
    val_main_v28 x0 x1 i = FloatOps.maximumf (val_main_v27 x0 x1 i) (val_main_call6_v0 (F := F) i) := rfl

def val_main_cst_9 : Vec F S_ .f32 :=
  constant S_ .f32 0x3ECCCCCD#32
def val_main_v29 : Vec F S16384 .f32 :=
  broadcastInDim S16384 ![] bcast_S_S16384 (val_main_cst_9 (F := F))
abbrev idx_main_v29 (i : S16384.Idx) : S_.Idx := fun a => a.elim0
theorem val_main_v29_apply (i : S16384.Idx) :
    val_main_v29 (F := F) i = val_main_cst_9 (F := F) (idx_main_v29 i) := by
  unfold val_main_v29
  generalize val_main_cst_9 (F := F) = y
  exact broadcastInDim_apply _ bcast_S_S16384 y i (idx_main_v29 i) (fun a => a.elim0)

def val_main_v30 (x0 : Vec F S16384x64 .f32) (x1 : Vec F S16384 .i32) : Vec F S16384 .f32 :=
  subf (val_main_v19 x0 x1) (val_main_v29 (F := F))
theorem val_main_v30_apply (x0 : Vec F S16384x64 .f32) (x1 : Vec F S16384 .i32) (i : S16384.Idx) :
    val_main_v30 x0 x1 i = FloatOps.subf (val_main_v19 x0 x1 i) (val_main_v29 (F := F) i) := rfl

def val_main_call7_cst : Vec F S_ .f32 :=
  constant S_ .f32 0x00000000#32
def val_main_call7_v0 : Vec F S16384 .f32 :=
  broadcastInDim S16384 ![] bcast_S_S16384 (val_main_call7_cst (F := F))
abbrev idx_main_call7_v0 (i : S16384.Idx) : S_.Idx := fun a => a.elim0
theorem val_main_call7_v0_apply (i : S16384.Idx) :
    val_main_call7_v0 (F := F) i = val_main_call7_cst (F := F) (idx_main_call7_v0 i) := by
  unfold val_main_call7_v0
  generalize val_main_call7_cst (F := F) = y
  exact broadcastInDim_apply _ bcast_S_S16384 y i (idx_main_call7_v0 i) (fun a => a.elim0)

def val_main_v31 (x0 : Vec F S16384x64 .f32) (x1 : Vec F S16384 .i32) : Vec F S16384 .f32 :=
  maximumf (val_main_v30 x0 x1) (val_main_call7_v0 (F := F))
theorem val_main_v31_apply (x0 : Vec F S16384x64 .f32) (x1 : Vec F S16384 .i32) (i : S16384.Idx) :
    val_main_v31 x0 x1 i = FloatOps.maximumf (val_main_v30 x0 x1 i) (val_main_call7_v0 (F := F) i) := rfl

def val_main_cst_10 : Vec F S_ .f32 :=
  constant S_ .f32 0x00000000#32
def val_main_v32 (x0 : Vec F S16384x64 .f32) (x1 : Vec F S16384 .i32) : Vec F S_ .f32 :=
  Host.reduceAdd (val_main_v31 x0 x1) (val_main_cst_10 (F := F)) reducesTo_S16384_S_d0 h_S_

theorem val_main_v32_apply (x0 : Vec Ideal S16384x64 .f32) (x1 : Vec Ideal S16384 .i32) (i : S_.Idx) :
    val_main_v32 x0 x1 i = (val_main_cst_10 (F := Ideal)) (Shape.Idx.first h_S_) + ∑ j : S16384.Idx, (val_main_v31 x0 x1) j := by
  unfold val_main_v32
  generalize val_main_v31 x0 x1 = y0
  simp only [Host.reduceAdd, Ideal.hostReduceAdd_def]
  exact Ideal.hostReduceAdd_total reducesTo_S16384_S_d0 (fun b => b.elim0) y0 _ i

def val_main_cst_11 : Vec F S_ .f32 :=
  constant S_ .f32 0x46800000#32
def val_main_v33 (x0 : Vec F S16384x64 .f32) (x1 : Vec F S16384 .i32) : Vec F S_ .f32 :=
  Host.divf (val_main_v32 x0 x1) (val_main_cst_11 (F := F))
theorem val_main_v33_apply (x0 : Vec F S16384x64 .f32) (x1 : Vec F S16384 .i32) (i : S_.Idx) :
    val_main_v33 x0 x1 i = FloatOps.hostDivf (val_main_v32 x0 x1 i) (val_main_cst_11 (F := F) i) := rfl

def val_main_cst_12 : Vec F S_ .f32 :=
  constant S_ .f32 0x00000000#32
def val_main_v34 (x0 : Vec F S16384x64 .f32) (x1 : Vec F S16384 .i32) : Vec F S_ .f32 :=
  Host.reduceAdd (val_main_v28 x0 x1) (val_main_cst_12 (F := F)) reducesTo_S16384_S_d0 h_S_

theorem val_main_v34_apply (x0 : Vec Ideal S16384x64 .f32) (x1 : Vec Ideal S16384 .i32) (i : S_.Idx) :
    val_main_v34 x0 x1 i = (val_main_cst_12 (F := Ideal)) (Shape.Idx.first h_S_) + ∑ j : S16384.Idx, (val_main_v28 x0 x1) j := by
  unfold val_main_v34
  generalize val_main_v28 x0 x1 = y0
  simp only [Host.reduceAdd, Ideal.hostReduceAdd_def]
  exact Ideal.hostReduceAdd_total reducesTo_S16384_S_d0 (fun b => b.elim0) y0 _ i

def val_main_cst_13 : Vec F S_ .f32 :=
  constant S_ .f32 0x46800000#32
def val_main_v35 (x0 : Vec F S16384x64 .f32) (x1 : Vec F S16384 .i32) : Vec F S_ .f32 :=
  Host.divf (val_main_v34 x0 x1) (val_main_cst_13 (F := F))
theorem val_main_v35_apply (x0 : Vec F S16384x64 .f32) (x1 : Vec F S16384 .i32) (i : S_.Idx) :
    val_main_v35 x0 x1 i = FloatOps.hostDivf (val_main_v34 x0 x1 i) (val_main_cst_13 (F := F) i) := rfl

def val_main_v36 (x0 : Vec F S16384x64 .f32) (x1 : Vec F S16384 .i32) : Vec F S_ .f32 :=
  addf (val_main_v33 x0 x1) (val_main_v35 x0 x1)
theorem val_main_v36_apply (x0 : Vec F S16384x64 .f32) (x1 : Vec F S16384 .i32) (i : S_.Idx) :
    val_main_v36 x0 x1 i = FloatOps.addf (val_main_v33 x0 x1 i) (val_main_v35 x0 x1 i) := rfl

def val_main_cst_14 : Vec F S_ .f32 :=
  constant S_ .f32 0x3F800000#32
def val_main_v37 (x0 : Vec F S16384x64 .f32) (x1 : Vec F S16384 .i32) : Vec F S_ .f32 :=
  mulf (val_main_v36 x0 x1) (val_main_cst_14 (F := F))
theorem val_main_v37_apply (x0 : Vec F S16384x64 .f32) (x1 : Vec F S16384 .i32) (i : S_.Idx) :
    val_main_v37 x0 x1 i = FloatOps.mulf (val_main_v36 x0 x1 i) (val_main_cst_14 (F := F) i) := rfl

def val_main_v38 (x0 : Vec F S16384x64 .f32) (x1 : Vec F S16384 .i32) : Vec F S_ .f32 :=
  addf (val_main_v37 x0 x1) (val_main_v25 x0 x1)
theorem val_main_v38_apply (x0 : Vec F S16384x64 .f32) (x1 : Vec F S16384 .i32) (i : S_.Idx) :
    val_main_v38 x0 x1 i = FloatOps.addf (val_main_v37 x0 x1 i) (val_main_v25 x0 x1 i) := rfl

def val_main_v39 (x0 : Vec F S16384x64 .f32) (x1 : Vec F S16384 .i32) : Vec F S_ .f32 :=
  addf (val_main_v38 x0 x1) (val_main_v8 x0 x1)
theorem val_main_v39_apply (x0 : Vec F S16384x64 .f32) (x1 : Vec F S16384 .i32) (i : S_.Idx) :
    val_main_v39 x0 x1 i = FloatOps.addf (val_main_v38 x0 x1 i) (val_main_v8 x0 x1 i) := rfl

end Cert.ReferenceIdeal.ReadP

end
-- ==== Proof.RefValueA.lean ====
import proofs.«412808_j68015102100189_2_alg».proof.Proof.RefRead
import proofs.«412808_j68015102100189_2_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

theorem idx_norm (i : Fin 16384) (k k' : Fin 64) :
    ReadP.idx_main_call0_v1 (ReadP.idx_main_call0_v2 (ReadP.idx_main_v1 (ix2 i k))) k' = ix2 i k' :=
  funext fun a => Fin.ext (by match a with | ⟨0, _⟩ => rfl | ⟨1, _⟩ => rfl)

theorem ref_unit (x0 : Vec Ideal S16384x64 .f32) (i : Fin 16384) (k : Fin 64) :
    ReadP.val_main_v2 (F := Ideal) x0 (ix2 i k) = Triplet.unit (fun i k => x0 (ix2 i k)) i k := by
  rw [ReadP.val_main_v2_apply, ReadP.val_main_v1_apply, ReadP.val_main_v0_apply, ReadP.val_main_call0_v2_apply,
    ReadP.val_main_call0_v1_apply]
  simp only [ReadP.val_main_call0_v0_apply, ReadP.val_main_call0_cst_apply, idx_norm, Ideal.hostDivf_def,
    Ideal.hostUnary_sqrt_def, Ideal.mulf_def, Ideal.ofBits_def, Ideal.ofBits_zero_f32, zero_add]
  rfl

theorem lift_row (h : S16384x64.Reduces [1] S16384) (i : Fin 16384) (k : Fin 64) :
    h.lift (ValueIdx.ix1 i) k = ix2 i k := by
  funext c
  match c with
  | ⟨0, _⟩ => exact Fin.ext rfl
  | ⟨1, _⟩ => exact Fin.ext rfl

theorem ref_rowmax (x0 : Vec Ideal S16384x64 .f32) (i : Fin 16384) :
    ReadP.val_main_call1_v2 (F := Ideal) x0 (ValueIdx.ix1 i) = Triplet.maxRow (Triplet.unit (fun i k => x0 (ix2 i k)) i) := by
  have h : S16384x64.Reduces [1] S16384 := by decide
  rw [ReadP.val_main_call1_v2_apply, ReadP.val_main_call1_v1_apply, ReadP.val_main_call1_cst_0_apply]
  unfold ReadP.val_main_call1_v0
  rw [Host.reduce_eq_fold_single FloatOps.maximumf _ _ reducesTo_S16384x64_S16384_d1 h h_S_, ReadP.val_main_call1_cst_apply]
  have b : (FloatOps.ofBits (F := Ideal) .f32 0xFF800000#32) = (⊥ : EReal) := by
    show Ideal.ofBits .f32 0xFF800000#32 = ⊥
    simp [Ideal.ofBits, Ideal.ieee]
  have e : (ReadP.val_main_v2 (F := Ideal) x0 ∘ h.lift (ValueIdx.ix1 i)) = Triplet.unit (fun i k => x0 (ix2 i k)) i :=
    funext fun k => (congrArg (ReadP.val_main_v2 (F := Ideal) x0) (lift_row h i k)).trans (ref_unit x0 i k)
  rw [b, e]
  show max (⊥ : EReal) (Finset.fold max ⊥ (Triplet.unit (fun i k => x0 (ix2 i k)) i) Finset.univ) = _
  rw [max_bot_left]
  rfl

theorem idx_rowmax (i : Fin 16384) (k : Fin 64) :
    ReadP.idx_main_call1_v3 (ReadP.idx_main_call1_v4 (ix2 i k)) = ValueIdx.ix1 i :=
  funext fun a => Fin.ext (by match a with | ⟨0, _⟩ => rfl)

theorem ref_shifted (x0 : Vec Ideal S16384x64 .f32) (i : Fin 16384) (k : Fin 64) :
    ReadP.val_main_call1_v5 (F := Ideal) x0 (ix2 i k)
      = Triplet.unit (fun i k => x0 (ix2 i k)) i k - Triplet.maxRow (Triplet.unit (fun i k => x0 (ix2 i k)) i) := by
  rw [ReadP.val_main_call1_v5_apply, ReadP.val_main_call1_v4_apply, ReadP.val_main_call1_v3_apply, idx_rowmax, ref_rowmax,
    ref_unit]
  rfl

theorem idx_lse (i : Fin 16384) (k k' : Fin 64) :
    ReadP.idx_main_call1_v7 (ReadP.idx_main_call1_v8 (ReadP.idx_main_call1_v10 (ix2 i k))) k' = ix2 i k' :=
  funext fun a => Fin.ext (by match a with | ⟨0, _⟩ => rfl | ⟨1, _⟩ => rfl)

theorem ref_logp (x0 : Vec Ideal S16384x64 .f32) (i : Fin 16384) (k : Fin 64) :
    ReadP.val_main_v3 (F := Ideal) x0 (ix2 i k) = Triplet.logpRow (Triplet.unit (fun i k => x0 (ix2 i k)) i) k := by
  rw [ReadP.val_main_v3_apply, ReadP.val_main_call1_v10_apply, ReadP.val_main_call1_v9_apply, ReadP.val_main_call1_v8_apply,
    ReadP.val_main_call1_v7_apply, ref_shifted]
  simp only [ReadP.val_main_call1_v6_apply, ReadP.val_main_call1_cst_1_apply, idx_lse, ref_shifted, Ideal.subf_def,
    Ideal.hostUnary_exp_def, Ideal.hostUnary_log_def, Ideal.ofBits_def, Ideal.ofBits_zero_f32, zero_add]
  rfl

theorem gather_lane {α : Type} {N M w : Nat} (d : GatherDims ⟨2, ![N, M]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, M]⟩ : Shape).Idx → α) (idx : IVec ⟨3, ![N, 1, 1]⟩ w) (p : Fin N) (hM : 0 < M) :
    Host.gather d x idx (ix2 p (0 : Fin 1))
      = x (ix2 p ⟨min (idx (ix3 p (0 : Fin 1) (0 : Fin 1))).toInt.toNat (M - 1), by omega⟩) := by
  unfold Host.gather
  refine congrArg x ?_
  funext a
  apply Fin.ext
  have hnk : ∀ a : Fin 2, a ∉ d.sKept := by
    intro a; rw [GatherDims.mem_sKept, hcoll, hob]; fin_cases a <;> simp
  have hbd : d.batchDims = [0, 1] := by
    show (⟨2, ![N, 1]⟩ : Shape).kept d.offsetDims = [0, 1]
    rw [hoff]; rfl
  have hsk : d.siKept = [0, 1] := by
    show (List.finRange 3).filter (·.val ≠ d.indexVectorDim) = [0, 1]
    rw [hivd]; rfl
  match a with
  | ⟨0, _⟩ =>
    have hb : (0 : Fin 2) ∈ d.operandBatchingDims := by rw [hob]; exact List.mem_singleton.mpr rfl
    show d.start (ix2 p 0) idx 0 + d.batchCoord (ix2 p 0) 0 + d.offCoord (ix2 p 0) 0 = p.val
    rw [GatherDims.start_batching _ _ _ _ hb, GatherDims.offCoord_eq_zero _ _ _ (hnk 0), Nat.zero_add, Nat.add_zero]
    unfold GatherDims.batchCoord
    rw [dif_pos hb]
    unfold GatherDims.siCoord
    simp only [Fin.val_cast]
    have e0 : ∀ (X : Fin 2), X = 0 → ((ix2 p (0 : Fin 1) : (⟨2, ![N, 1]⟩ : Shape).Idx) X).val = p.val := by
      intro X hX; subst hX; rfl
    refine e0 _ ?_
    have h1 : ∀ (i : Nat) (h : i < d.startIndicesBatchingDims.length), d.startIndicesBatchingDims[i]'h = 0 := by
      intro i h; rw [List.getElem_of_eq hsb]; exact List.getElem_singleton _
    have hk : ∀ h, List.idxOf (d.startIndicesBatchingDims[List.idxOf (0 : Fin 2) d.operandBatchingDims]'h) d.siKept = 0 := by
      intro h; rw [hsk, h1]; rfl
    rw [List.getElem_of_eq hbd]
    simp only [hk]
    rfl
  | ⟨1, _⟩ =>
    have hb : (1 : Fin 2) ∉ d.operandBatchingDims := by rw [hob]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 p 0) idx 1 + d.batchCoord (ix2 p 0) 1 + d.offCoord (ix2 p 0) 1 = _
    rw [GatherDims.batchCoord_eq_zero _ _ _ hb, GatherDims.offCoord_eq_zero _ _ _ (hnk 1), Nat.add_zero]
    unfold GatherDims.start
    rw [dif_pos hm]
    show min (idx _).toInt.toNat (M - d.sliceSizes 1) = min (idx (ix3 p 0 0)).toInt.toNat (M - 1)
    rw [hsl]
    refine congrArg (fun z => min (idx z).toInt.toNat (M - 1)) ?_
    have e0 : ∀ (X : Fin 2), X = 0 → ((ix2 p (0 : Fin 1) : (⟨2, ![N, 1]⟩ : Shape).Idx) X).val = p.val := by
      intro X hX; subst hX; rfl
    have e1 : ∀ (X : Fin 2), X = 1 → ((ix2 p (0 : Fin 1) : (⟨2, ![N, 1]⟩ : Shape).Idx) X).val = 0 := by
      intro X hX; subst hX; rfl
    funext b
    apply Fin.ext
    match b with
    | ⟨0, _⟩ =>
      unfold GatherDims.siIdx
      rw [dif_neg (by rw [hivd]; show ¬ (0 : ℕ) = 2; omega)]
      unfold GatherDims.siCoord
      simp only [Fin.val_cast]
      refine e0 _ ?_
      rw [List.getElem_of_eq hbd]
      simp only [hsk]
      rfl
    | ⟨1, _⟩ =>
      unfold GatherDims.siIdx
      rw [dif_neg (by rw [hivd]; show ¬ (1 : ℕ) = 2; omega)]
      unfold GatherDims.siCoord
      simp only [Fin.val_cast]
      refine e1 _ ?_
      rw [List.getElem_of_eq hbd]
      simp only [hsk]
      rfl
    | ⟨2, _⟩ =>
      unfold GatherDims.siIdx
      rw [dif_pos (by rw [hivd])]
      show List.idxOf (1 : Fin 2) d.startIndexMap = 0
      rw [hsim]; rfl

theorem slt_zero_of_small {w : BitVec 32} (hw : w.toNat < 64) : IntOp.cmpi .slt w 0#32 = 0#1 :=
  eq_zero_of_ne_one fun h =>
    absurd ((StableHlo.Predicate.slt_iff_toNat (a := w) (b := 0#32) (by omega) (by decide)).mp h) (by
      show ¬ w.toNat < 0
      omega)

theorem sge_zero_of_small {w : BitVec 32} (hw : w.toNat < 64) : IntOp.cmpi .sge w 0#32 = 1#1 := by
  show IntOp.cmpi .sle 0#32 w = 1#1
  exact (StableHlo.Predicate.sle_iff_toNat (a := 0#32) (b := w) (by decide) (by omega)).mpr (Nat.zero_le _)

theorem sle_63_of_small {w : BitVec 32} (hw : w.toNat < 64) : IntOp.cmpi .sle w 63#32 = 1#1 :=
  (StableHlo.Predicate.sle_iff_toNat (a := w) (b := 63#32) (by omega) (by decide)).mpr (by
    show w.toNat ≤ 63
    omega)

theorem idx_label (i : Fin 16384) :
    ReadP.idx_main_v4 (ReadP.idx_main_call2_v5 (ix3 i (0 : Fin 1) (0 : Fin 1))) = ValueIdx.ix1 i :=
  funext fun a => Fin.ext (by
    match a with
    | ⟨0, _⟩ =>
      show ((i.val * 1 + 0) * 1 + 0) / 1 = i.val
      omega)

theorem ref_start (x1 : Vec Ideal S16384 .i32)
    (hlab : ∀ i : Fin 16384, (x1 (ValueIdx.ix1 i) : BitVec 32).toNat < 64) (i : Fin 16384) :
    ReadP.val_main_call2_v5 (F := Ideal) x1 (ix3 i (0 : Fin 1) (0 : Fin 1)) = x1 (ValueIdx.ix1 i) := by
  rw [ReadP.val_main_call2_v5_apply, ReadP.val_main_call2_v4_apply, ReadP.val_main_call2_v1_apply, ReadP.val_main_v4_apply,
    ReadP.val_main_call2_v0_apply, ReadP.val_main_call2_c_apply, idx_label, slt_zero_of_small (hlab i)]
  exact select_zero _ _

theorem lift_unit (h : S16384x1x1.Reduces [2] S16384x1) (i : Fin 16384) (k : Fin (S16384x1x1.size 2)) :
    h.lift (ix2 i (0 : Fin 1)) k = ix3 i (0 : Fin 1) (0 : Fin 1) := by
  funext c
  match c with
  | ⟨0, _⟩ => exact Fin.ext rfl
  | ⟨1, _⟩ => exact Fin.ext rfl
  | ⟨2, _⟩ => exact Fin.ext (by have hk : k.val < 1 := k.isLt; show k.val = 0; omega)

theorem ref_inrange (x1 : Vec Ideal S16384 .i32)
    (hlab : ∀ i : Fin 16384, (x1 (ValueIdx.ix1 i) : BitVec 32).toNat < 64) (i : Fin 16384) :
    ReadP.val_main_call2_v12 (F := Ideal) x1 (ix2 i (0 : Fin 1)) = 1#1 := by
  have h : S16384x1x1.Reduces [2] S16384x1 := by decide
  haveI : Std.Commutative (IntOp.andi (w := 1)) := ⟨fun a b => BitVec.and_comm a b⟩
  haveI : Std.Associative (IntOp.andi (w := 1)) := ⟨fun a b c => BitVec.and_assoc a b c⟩
  unfold ReadP.val_main_call2_v12
  rw [Host.reduce_eq_fold_single IntOp.andi _ _ reducesTo_S16384x1x1_S16384x1_d2 h h_S_]
  have e : (ReadP.val_main_call2_v11 (F := Ideal) x1 ∘ h.lift (ix2 i (0 : Fin 1))) = fun _ => 1#1 := by
    funext k
    show ReadP.val_main_call2_v11 (F := Ideal) x1 (h.lift (ix2 i (0 : Fin 1)) k) = 1#1
    rw [lift_unit h i k, ReadP.val_main_call2_v11_apply, ReadP.val_main_call2_v7_apply, ReadP.val_main_call2_v10_apply,
      ReadP.val_main_call2_v6_apply, ReadP.val_main_call2_c_2_apply, ReadP.val_main_call2_v9_apply,
      ReadP.val_main_call2_v8_apply, ReadP.val_main_call2_c_1_apply, ref_start x1 hlab i,
      sge_zero_of_small (hlab i), sle_63_of_small (hlab i)]
    rfl
  rw [e, ReadP.val_main_call2_c_3_apply]
  refine Finset.induction_on (motive := fun s => Finset.fold IntOp.andi (1#1) (fun _ => 1#1) s = 1#1) Finset.univ rfl ?_
  intro a s ha ih
  rw [Finset.fold_insert ha, ih]
  rfl

theorem clamp_of_small {w : BitVec 32} (hw : w.toNat < 64) : min w.toInt.toNat (64 - 1) = w.toNat := by
  rw [StableHlo.Predicate.toInt_eq_toNat_of_lt (a := w) (by omega), Int.toNat_natCast]
  omega

theorem ref_gather (x0 : Vec Ideal S16384x64 .f32) (x1 : Vec Ideal S16384 .i32)
    (hlab : ∀ i : Fin 16384, (x1 (ValueIdx.ix1 i) : BitVec 32).toNat < 64) (i : Fin 16384) :
    ReadP.val_main_v5 (F := Ideal) x0 x1 (ix2 i (0 : Fin 1))
      = Triplet.logpRow (Triplet.unit (fun i k => x0 (ix2 i k)) i) ⟨(x1 (ValueIdx.ix1 i) : BitVec 32).toNat, hlab i⟩ := by
  rw [ReadP.val_main_v5_apply, ref_inrange x1 hlab i, select_one]
  unfold ReadP.val_main_call2_v13
  rw [gather_lane gather_S16384x64_S16384x1x1_S16384x1_n_1_0_0_1_2_11 rfl rfl rfl rfl rfl rfl _ _ i (by decide)]
  have e : (ix2 i (⟨min (ReadP.val_main_call2_v5 (F := Ideal) x1 (ix3 i (0 : Fin 1) (0 : Fin 1))).toInt.toNat (64 - 1),
        by omega⟩ : Fin 64) : S16384x64.Idx)
      = ix2 i (⟨(x1 (ValueIdx.ix1 i) : BitVec 32).toNat, hlab i⟩ : Fin 64) := by
    congr 1
    exact Fin.ext (by
      show min (ReadP.val_main_call2_v5 (F := Ideal) x1 (ix3 i (0 : Fin 1) (0 : Fin 1))).toInt.toNat (64 - 1) = _
      rw [ref_start x1 hlab i]; exact clamp_of_small (hlab i))
  rw [e]
  exact ref_logp x0 i _

end Cert.ReferenceIdeal.RefValue

end
-- ==== Proof.RefValueB.lean ====
import proofs.«412808_j68015102100189_2_alg».proof.Proof.RefRead
import proofs.«412808_j68015102100189_2_alg».proof.Proof.RefValueA
import proofs.«412808_j68015102100189_2_alg».proof.Proof.Spec
import Idealize.ShloMosaic.Lib.ValueIdx
import Idealize.ShloMosaic.PureOps.Reduce
import Idealize.ShloMosaic.PureOps.Ideal.Laws
import Mathlib.Data.Finset.Fold

noncomputable section

open scoped BigOperators

namespace Cert.ReferenceIdeal.RefValue

open Cert.ReferenceIdeal Cert.ReferenceIdeal.Gen Idealize.ShloMosaic Idealize.ShloMosaic.ValueIdx

theorem lidx_eq (i j : Fin 16384) (k : Fin 64) : ReadP.lidx_main_v10 (ix2 i j) k = ix2 i k :=
  funext fun a => Fin.ext (by match a with | ⟨0, _⟩ => rfl | ⟨1, _⟩ => rfl)

theorem ridx_eq (i j : Fin 16384) (k : Fin 64) : ReadP.idx_main_v9 (ReadP.ridx_main_v10 (ix2 i j) k) = ix2 j k :=
  funext fun a => Fin.ext (by match a with | ⟨0, _⟩ => rfl | ⟨1, _⟩ => rfl)

theorem idx_col (i j : Fin 16384) : ReadP.idx_main_v11 (ReadP.idx_main_v13 (ix2 i j)) = ValueIdx.ix1 j :=
  funext fun a => Fin.ext (by match a with | ⟨0, _⟩ => rfl)

theorem idx_row (i j : Fin 16384) : ReadP.idx_main_v12 (ReadP.idx_main_v14 (ix2 i j)) = ValueIdx.ix1 i :=
  funext fun a => Fin.ext (by match a with | ⟨0, _⟩ => rfl)

theorem lift_col (h : S16384x16384.Reduces [1] S16384) (i j : Fin 16384) : h.lift (ValueIdx.ix1 i) j = ix2 i j := by
  funext c
  match c with
  | ⟨0, _⟩ => exact Fin.ext rfl
  | ⟨1, _⟩ => exact Fin.ext rfl

theorem inf_eq : FloatOps.ofBits (F := Ideal) .f32 0x7F800000#32 = (⊤ : EReal) := by
  simp [Ideal.ofBits, Ideal.ieee]
theorem neg_inf_eq : FloatOps.ofBits (F := Ideal) .f32 0xFF800000#32 = (⊥ : EReal) := by
  simp [Ideal.ofBits, Ideal.ieee]

theorem select_eq {α : Type} {w : ℕ} (a b : BitVec w) (x y : α) :
    Scalar.select (IntOp.cmpi .eq a b) x y = if a = b then x else y := by
  show (if BitVec.ofBool (a == b) = 1#1 then x else y) = if a = b then x else y
  by_cases h : a = b
  · subst h; simp
  · rw [if_neg h, beq_eq_false_iff_ne.mpr h]; exact if_neg (by decide)

theorem ref_sim (x0 : Vec Ideal S16384x64 .f32) (i j : Fin 16384) :
    ReadP.val_main_v10 (F := Ideal) x0 (ix2 i j) = Triplet.sim (Triplet.unit (fun i k => x0 (ix2 i k))) i j := by
  rw [ReadP.val_main_v10_apply]
  unfold Triplet.sim Triplet.simRow
  refine Finset.sum_congr rfl fun k _ => ?_
  rw [ReadP.val_main_v9_apply, lidx_eq, ridx_eq, ref_unit, ref_unit]

theorem pos_term (x0 : Vec Ideal S16384x64 .f32) (x1 : Vec Ideal S16384 .i32)
    (i j : Fin 16384) :
    ReadP.val_main_v16 (F := Ideal) x0 x1 (ix2 i j)
      = if x1 (ValueIdx.ix1 i) = x1 (ValueIdx.ix1 j) then Triplet.sim (Triplet.unit (fun i k => x0 (ix2 i k))) i j else ⊤ := by
  rw [ReadP.val_main_v16_apply, ReadP.val_main_v15_apply, ReadP.val_main_v13_apply, ReadP.val_main_v11_apply,
    ReadP.val_main_v14_apply, ReadP.val_main_v12_apply, ReadP.val_main_call3_v1_apply, ReadP.val_main_call3_v0_apply,
    ReadP.val_main_cst_1_apply, idx_col, idx_row, select_eq, ref_sim, inf_eq]
  exact if_congr eq_comm rfl rfl

theorem neg_term (x0 : Vec Ideal S16384x64 .f32) (x1 : Vec Ideal S16384 .i32)
    (i j : Fin 16384) :
    ReadP.val_main_v18 (F := Ideal) x0 x1 (ix2 i j)
      = if x1 (ValueIdx.ix1 i) = x1 (ValueIdx.ix1 j) then ⊥ else Triplet.sim (Triplet.unit (fun i k => x0 (ix2 i k))) i j := by
  rw [ReadP.val_main_v18_apply, ReadP.val_main_v15_apply, ReadP.val_main_v13_apply, ReadP.val_main_v11_apply,
    ReadP.val_main_v14_apply, ReadP.val_main_v12_apply, ReadP.val_main_call4_v1_apply, ReadP.val_main_call4_v0_apply,
    ReadP.val_main_cst_3_apply, idx_col, idx_row, select_eq, ref_sim, neg_inf_eq]
  exact if_congr eq_comm rfl rfl

theorem ref_hardPos (x0 : Vec Ideal S16384x64 .f32) (x1 : Vec Ideal S16384 .i32)
    (i : Fin 16384) :
    ReadP.val_main_v17 (F := Ideal) x0 x1 (ValueIdx.ix1 i)
      = Triplet.hardPos (Triplet.unit (fun i k => x0 (ix2 i k))) (fun i => x1 (ValueIdx.ix1 i)) i := by
  have h : S16384x16384.Reduces [1] S16384 := by decide
  unfold ReadP.val_main_v17 Triplet.hardPos
  rw [Host.reduce_eq_fold_single (FloatOps.minimumf (F := Ideal) (φ := .f32)) _ _ reducesTo_S16384x16384_S16384_d1 h h_S_
    (ValueIdx.ix1 i)]
  show (Finset.univ : Finset (Fin 16384)).fold min (FloatOps.ofBits (F := Ideal) .f32 0x7F800000#32)
      (fun j => ReadP.val_main_v16 (F := Ideal) x0 x1 (h.lift (ValueIdx.ix1 i) j)) = _
  rw [inf_eq]
  exact Finset.fold_congr fun (j : Fin 16384) _ =>
    (congrArg (ReadP.val_main_v16 (F := Ideal) x0 x1) (lift_col h i j)).trans (pos_term x0 x1 i j)

theorem ref_hardNeg (x0 : Vec Ideal S16384x64 .f32) (x1 : Vec Ideal S16384 .i32)
    (i : Fin 16384) :
    ReadP.val_main_v19 (F := Ideal) x0 x1 (ValueIdx.ix1 i)
      = Triplet.hardNeg (Triplet.unit (fun i k => x0 (ix2 i k))) (fun i => x1 (ValueIdx.ix1 i)) i := by
  have h : S16384x16384.Reduces [1] S16384 := by decide
  unfold ReadP.val_main_v19 Triplet.hardNeg
  rw [Host.reduce_eq_fold_single (FloatOps.maximumf (F := Ideal) (φ := .f32)) _ _ reducesTo_S16384x16384_S16384_d1 h h_S_
    (ValueIdx.ix1 i)]
  show (Finset.univ : Finset (Fin 16384)).fold max (FloatOps.ofBits (F := Ideal) .f32 0xFF800000#32)
      (fun j => ReadP.val_main_v18 (F := Ideal) x0 x1 (h.lift (ValueIdx.ix1 i) j)) = _
  rw [neg_inf_eq]
  exact Finset.fold_congr fun (j : Fin 16384) _ =>
    (congrArg (ReadP.val_main_v18 (F := Ideal) x0 x1) (lift_col h i j)).trans (neg_term x0 x1 i j)

end Cert.ReferenceIdeal.RefValue

end
-- ==== Proof.RefValueC.lean ====
import proofs.«412808_j68015102100189_2_alg».proof.Proof.RefRead
import proofs.«412808_j68015102100189_2_alg».proof.Proof.Spec
import Idealize.ShloMosaic.Lib.ValueIdxRank1

noncomputable section

namespace Cert.ReferenceIdeal.RefValue

open Idealize.ShloMosaic Idealize.ShloMosaic.ValueIdx
open scoped BigOperators

namespace Tail

theorem sum_vec (x : S16384.Idx → EReal) (f : Fin 16384 → EReal) (hx : ∀ j, x j = f (j 0)) :
    ∑ j : S16384.Idx, x j = ∑ i : Fin 16384, f i := by
  rw [← Equiv.sum_comp (idxEquiv1 (n := 16384)) f]
  exact Finset.sum_congr rfl fun j _ => hx j

theorem sum_col (x : S16384x1.Idx → EReal) : ∑ j : S16384x1.Idx, x j = ∑ i : Fin 16384, x (ix2 i (0 : Fin 1)) := by
  rw [sum_idx2]
  exact Finset.sum_congr rfl fun i _ => Fintype.sum_unique _

variable (x0 : Vec Ideal S16384x64 .f32) (x1 : Vec Ideal S16384 .i32)

abbrev ap (i : Fin 16384) : EReal := ReadP.val_main_v17 (F := Ideal) x0 x1 (ValueIdx.ix1 i)

abbrev an (i : Fin 16384) : EReal := ReadP.val_main_v19 (F := Ideal) x0 x1 (ValueIdx.ix1 i)

abbrev lp (i : Fin 16384) : EReal := ReadP.val_main_v5 (F := Ideal) x0 x1 (ix2 i (0 : Fin 1))

theorem v23_at (j : S16384.Idx) :
    ReadP.val_main_v23 (F := Ideal) x0 x1 j = Triplet.relu (Triplet.cMargin + ap x0 x1 (j 0) - an x0 x1 (j 0)) := by
  rw [ReadP.val_main_v23_apply, ReadP.val_main_v22_apply, ReadP.val_main_v21_apply, ReadP.val_main_v20_apply,
    ReadP.val_main_call5_v0_apply, eq_ix1 j]
  rfl

theorem v28_at (j : S16384.Idx) :
    ReadP.val_main_v28 (F := Ideal) x0 x1 j = Triplet.relu (Triplet.cPos - ap x0 x1 (j 0)) := by
  rw [ReadP.val_main_v28_apply, ReadP.val_main_v27_apply, ReadP.val_main_v26_apply,
    ReadP.val_main_call6_v0_apply, eq_ix1 j]
  rfl

theorem v31_at (j : S16384.Idx) :
    ReadP.val_main_v31 (F := Ideal) x0 x1 j = Triplet.relu (an x0 x1 (j 0) - Triplet.cNeg) := by
  rw [ReadP.val_main_v31_apply, ReadP.val_main_v30_apply, ReadP.val_main_v29_apply,
    ReadP.val_main_call7_v0_apply, eq_ix1 j]
  rfl

theorem v25_at (k : S_.Idx) :
    ReadP.val_main_v25 (F := Ideal) x0 x1 k
      = Triplet.mean (fun i => Triplet.relu (Triplet.cMargin + ap x0 x1 i - an x0 x1 i)) := by
  rw [ReadP.val_main_v25_apply, ReadP.val_main_v24_apply, sum_vec _ (fun i => Triplet.relu (Triplet.cMargin + ap x0 x1 i - an x0 x1 i)) (v23_at x0 x1)]
  rfl

theorem v33_at (k : S_.Idx) :
    ReadP.val_main_v33 (F := Ideal) x0 x1 k = Triplet.mean (fun i => Triplet.relu (an x0 x1 i - Triplet.cNeg)) := by
  rw [ReadP.val_main_v33_apply, ReadP.val_main_v32_apply, sum_vec _ (fun i => Triplet.relu (an x0 x1 i - Triplet.cNeg)) (v31_at x0 x1)]
  rfl

theorem v35_at (k : S_.Idx) :
    ReadP.val_main_v35 (F := Ideal) x0 x1 k = Triplet.mean (fun i => Triplet.relu (Triplet.cPos - ap x0 x1 i)) := by
  rw [ReadP.val_main_v35_apply, ReadP.val_main_v34_apply, sum_vec _ (fun i => Triplet.relu (Triplet.cPos - ap x0 x1 i)) (v28_at x0 x1)]
  rfl

theorem v8_at (k : S_.Idx) :
    ReadP.val_main_v8 (F := Ideal) x0 x1 k = - Triplet.mean (lp x0 x1) := by
  rw [ReadP.val_main_v8_apply, ReadP.val_main_v7_apply, ReadP.val_main_v6_apply, sum_col]
  rfl

end Tail

variable (x0 : Vec Ideal S16384x64 .f32) (x1 : Vec Ideal S16384 .i32)

theorem ref_tail :
    ReadP.val_main_v39 (F := Ideal) x0 x1 ValueIdx.ix0
      = Triplet.hinges (fun i => ReadP.val_main_v17 (F := Ideal) x0 x1 (ValueIdx.ix1 i))
          (fun i => ReadP.val_main_v19 (F := Ideal) x0 x1 (ValueIdx.ix1 i))
        + - Triplet.mean (fun i => ReadP.val_main_v5 (F := Ideal) x0 x1 (ix2 i (0 : Fin 1))) := by
  rw [ReadP.val_main_v39_apply, ReadP.val_main_v38_apply, ReadP.val_main_v37_apply, ReadP.val_main_v36_apply,
    Tail.v33_at, Tail.v35_at, Tail.v25_at, Tail.v8_at]
  rfl

end Cert.ReferenceIdeal.RefValue

end
-- ==== Proof.RefValue.lean ====
import proofs.«412808_j68015102100189_2_alg».proof.Proof.RefRead
import proofs.«412808_j68015102100189_2_alg».proof.Proof.Spec
import proofs.«412808_j68015102100189_2_alg».proof.Proof.RefValueA
import proofs.«412808_j68015102100189_2_alg».proof.Proof.RefValueB
import proofs.«412808_j68015102100189_2_alg».proof.Proof.RefValueC

noncomputable section

namespace Cert.ReferenceIdeal.RefValue

open Cert.ReferenceIdeal Cert.ReferenceIdeal.Gen Idealize.ShloMosaic Idealize.ShloMosaic.ValueIdx Idealize.ShloMosaic.TcCoe

abbrev rowsOf (x0 : Vec Ideal S16384x64 .f32) : Triplet.Rows := fun i k => x0 (ix2 i k)

abbrev labelsOf (x1 : Vec Ideal S16384 .i32) : Triplet.Labels := fun i => x1 (ValueIdx.ix1 i)

variable (x0 : Vec Ideal S16384x64 .f32) (x1 : Vec Ideal S16384 .i32)

theorem ref_value_args (hlab : ∀ i : Fin 16384, (labelsOf x1 i).toNat < 64) :
    ReadP.val_main_v39 (F := Ideal) x0 x1 ValueIdx.ix0
      = Triplet.hinges (Triplet.hardPos (Triplet.unit (rowsOf x0)) (labelsOf x1))
          (Triplet.hardNeg (Triplet.unit (rowsOf x0)) (labelsOf x1))
        + - Triplet.mean (fun i => Triplet.logpRow (Triplet.unit (rowsOf x0) i) ⟨(labelsOf x1 i).toNat, hlab i⟩) := by
  rw [ref_tail x0 x1,
    show (fun i => ReadP.val_main_v17 (F := Ideal) x0 x1 (ValueIdx.ix1 i))
      = Triplet.hardPos (Triplet.unit (rowsOf x0)) (labelsOf x1) from funext (ref_hardPos x0 x1),
    show (fun i => ReadP.val_main_v19 (F := Ideal) x0 x1 (ValueIdx.ix1 i))
      = Triplet.hardNeg (Triplet.unit (rowsOf x0)) (labelsOf x1) from funext (ref_hardNeg x0 x1),
    show (fun i => ReadP.val_main_v5 (F := Ideal) x0 x1 (ix2 i (0 : Fin 1)))
      = (fun i => Triplet.logpRow (Triplet.unit (rowsOf x0) i) ⟨(labelsOf x1 i).toNat, hlab i⟩)
      from funext (ref_gather x0 x1 hlab)]

end Cert.ReferenceIdeal.RefValue

end
-- ==== Proof.RefOps.lean ====
import proofs.«412808_j68015102100189_2_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev cA : List (HloOp τ sig (Elt F)) :=
  [ binary main_arg0 main_arg0 main_call0_v0 mulf,
    nullary main_call0_cst (constant S_ .f32 0x00000000#32),
    binary main_call0_v0 main_call0_cst main_call0_v1 (fun x v => Host.reduceAdd x v reducesTo_S16384x64_S16384_d1 h_S_),
    unary main_call0_v1 main_call0_v2 (broadcastInDim S16384x1 ![0] bcast_S16384_S16384x1_0),
    unary main_call0_v2 main_v0 Host.sqrt,
    unary main_v0 main_v1 (broadcastInDim S16384x64 ![0, 1] bcast_S16384x1_S16384x64_0_1),
    binary main_arg0 main_v1 main_v2 Host.divf ]

abbrev cB : List (HloOp τ sig (Elt F)) :=
  [ nullary main_call1_cst (constant S_ .f32 0xFF800000#32),
    binary main_v2 main_call1_cst main_call1_v0 (fun x v => Host.reduce FloatOps.maximumf x v reducesTo_S16384x64_S16384_d1 h_S_),
    nullary main_call1_cst_0 (constant S_ .f32 0xFF800000#32),
    unary main_call1_cst_0 main_call1_v1 (broadcastInDim S16384 ![] bcast_S_S16384),
    binary main_call1_v1 main_call1_v0 main_call1_v2 maximumf,
    unary main_call1_v2 main_call1_v3 (broadcastInDim S16384x1 ![0] bcast_S16384_S16384x1_0),
    unary main_call1_v3 main_call1_v4 (broadcastInDim S16384x64 ![0, 1] bcast_S16384x1_S16384x64_0_1),
    binary main_v2 main_call1_v4 main_call1_v5 subf,
    unary main_call1_v5 main_call1_v6 Host.exp,
    nullary main_call1_cst_1 (constant S_ .f32 0x00000000#32),
    binary main_call1_v6 main_call1_cst_1 main_call1_v7 (fun x v => Host.reduceAdd x v reducesTo_S16384x64_S16384_d1 h_S_),
    unary main_call1_v7 main_call1_v8 (broadcastInDim S16384x1 ![0] bcast_S16384_S16384x1_0),
    unary main_call1_v8 main_call1_v9 Host.log,
    unary main_call1_v9 main_call1_v10 (broadcastInDim S16384x64 ![0, 1] bcast_S16384x1_S16384x64_0_1),
    binary main_call1_v5 main_call1_v10 main_v3 subf ]

abbrev cC1 : List (HloOp τ sig (Elt F)) :=
  [ unary main_arg1 main_v4 (broadcastInDim S16384x1 ![0] bcast_S16384_S16384x1_0),
    nullary main_call2_c (constantI S_ 32 0#32),
    unary main_call2_c main_call2_v0 (broadcastInDim S16384x1 ![] bcast_S_S16384x1),
    binary main_v4 main_call2_v0 main_call2_v1 (cmpi .slt),
    nullary main_call2_c_0 (constantI S_ 32 64#32),
    unary main_call2_c_0 main_call2_v2 (broadcastInDim S16384x1 ![] bcast_S_S16384x1),
    binary main_v4 main_call2_v2 main_call2_v3 addi,
    ternary main_call2_v1 main_call2_v3 main_v4 main_call2_v4 select,
    reshape main_call2_v4 main_call2_v5 rfl shapeCasts_S16384x1_S16384x1x1 ]

abbrev cC2 : List (HloOp τ sig (Elt F)) :=
  [ nullary main_call2_c_1 (constantI S1 32 63#32),
    nullary main_call2_c_2 (constantI S_ 32 0#32),
    unary main_call2_c_2 main_call2_v6 (broadcastInDim S16384x1x1 ![] bcast_S_S16384x1x1),
    binary main_call2_v5 main_call2_v6 main_call2_v7 (cmpi .sge),
    unary main_call2_c_1 main_call2_v8 (broadcastInDim S1x1x1 ![2] bcast_S1_S1x1x1_2),
    unary main_call2_v8 main_call2_v9 (broadcastInDim S16384x1x1 ![0, 1, 2] bcast_S1x1x1_S16384x1x1_0_1_2),
    binary main_call2_v5 main_call2_v9 main_call2_v10 (cmpi .sle),
    binary main_call2_v7 main_call2_v10 main_call2_v11 (andi),
    nullary main_call2_c_3 (constantI S_ 1 1#1),
    binary main_call2_v11 main_call2_c_3 main_call2_v12 (fun x v => Host.reduce IntOp.andi x v reducesTo_S16384x1x1_S16384x1_d2 h_S_),
    binary main_v3 main_call2_v5 main_call2_v13 (fun x i => Host.gather gather_S16384x64_S16384x1x1_S16384x1_n_1_0_0_1_2_11 x i),
    nullary main_call2_cst (constant S_ .f32 0x7FC00000#32),
    unary main_call2_cst main_call2_v14 (broadcastInDim S16384x1 ![] bcast_S_S16384x1),
    ternary main_call2_v12 main_call2_v13 main_call2_v14 main_v5 select ]

abbrev cD : List (HloOp τ sig (Elt F)) :=
  [ nullary main_cst (constant S_ .f32 0x00000000#32),
    binary main_v5 main_cst main_v6 (fun x v => Host.reduceAdd x v reducesTo_S16384x1_S_d0_1 h_S_),
    nullary main_cst_0 (constant S_ .f32 0x46800000#32),
    binary main_v6 main_cst_0 main_v7 Host.divf,
    unary main_v7 main_v8 Host.negf ]

abbrev cE : List (HloOp τ sig (Elt F)) :=
  [ unary main_v2 main_v9 (transpose S64x16384 [1, 0] · transposes_S16384x64_S64x16384_1_0),
    binary main_v2 main_v9 main_v10 (fun l r => Host.dotGeneral dot_S16384x64_S64x16384_S16384x16384_1_0_0_1_n_n none l r),
    unary main_arg1 main_v11 (broadcastInDim S1x16384 ![1] bcast_S16384_S1x16384_1),
    unary main_arg1 main_v12 (broadcastInDim S16384x1 ![0] bcast_S16384_S16384x1_0),
    unary main_v11 main_v13 (broadcastInDim S16384x16384 ![0, 1] bcast_S1x16384_S16384x16384_0_1),
    unary main_v12 main_v14 (broadcastInDim S16384x16384 ![0, 1] bcast_S16384x1_S16384x16384_0_1),
    binary main_v13 main_v14 main_v15 (cmpi .eq) ]

abbrev cF : List (HloOp τ sig (Elt F)) :=
  [ nullary main_cst_1 (constant S_ .f32 0x7F800000#32),
    unary main_cst_1 main_call3_v0 (id),
    unary main_call3_v0 main_call3_v1 (broadcastInDim S16384x16384 ![] bcast_S_S16384x16384),
    ternary main_v15 main_v10 main_call3_v1 main_v16 select,
    nullary main_cst_2 (constant S_ .f32 0x7F800000#32),
    binary main_v16 main_cst_2 main_v17 (fun x v => Host.reduce FloatOps.minimumf x v reducesTo_S16384x16384_S16384_d1 h_S_),
    nullary main_cst_3 (constant S_ .f32 0xFF800000#32),
    unary main_cst_3 main_call4_v0 (id),
    unary main_call4_v0 main_call4_v1 (broadcastInDim S16384x16384 ![] bcast_S_S16384x16384),
    ternary main_v15 main_call4_v1 main_v10 main_v18 select,
    nullary main_cst_4 (constant S_ .f32 0xFF800000#32),
    binary main_v18 main_cst_4 main_v19 (fun x v => Host.reduce FloatOps.maximumf x v reducesTo_S16384x16384_S16384_d1 h_S_) ]

abbrev cG : List (HloOp τ sig (Elt F)) :=
  [ nullary main_cst_5 (constant S_ .f32 0x3F000000#32),
    unary main_cst_5 main_v20 (broadcastInDim S16384 ![] bcast_S_S16384),
    binary main_v20 main_v17 main_v21 addf,
    binary main_v21 main_v19 main_v22 subf,
    nullary main_call5_cst (constant S_ .f32 0x00000000#32),
    unary main_call5_cst main_call5_v0 (broadcastInDim S16384 ![] bcast_S_S16384),
    binary main_v22 main_call5_v0 main_v23 maximumf,
    nullary main_cst_6 (constant S_ .f32 0x00000000#32),
    binary main_v23 main_cst_6 main_v24 (fun x v => Host.reduceAdd x v reducesTo_S16384_S_d0 h_S_),
    nullary main_cst_7 (constant S_ .f32 0x46800000#32),
    binary main_v24 main_cst_7 main_v25 Host.divf ]

abbrev cH : List (HloOp τ sig (Elt F)) :=
  [ nullary main_cst_8 (constant S_ .f32 0x3F4CCCCD#32),
    unary main_cst_8 main_v26 (broadcastInDim S16384 ![] bcast_S_S16384),
    binary main_v26 main_v17 main_v27 subf,
    nullary main_call6_cst (constant S_ .f32 0x00000000#32),
    unary main_call6_cst main_call6_v0 (broadcastInDim S16384 ![] bcast_S_S16384),
    binary main_v27 main_call6_v0 main_v28 maximumf,
    nullary main_cst_9 (constant S_ .f32 0x3ECCCCCD#32),
    unary main_cst_9 main_v29 (broadcastInDim S16384 ![] bcast_S_S16384),
    binary main_v19 main_v29 main_v30 subf,
    nullary main_call7_cst (constant S_ .f32 0x00000000#32),
    unary main_call7_cst main_call7_v0 (broadcastInDim S16384 ![] bcast_S_S16384),
    binary main_v30 main_call7_v0 main_v31 maximumf ]

abbrev cI : List (HloOp τ sig (Elt F)) :=
  [ nullary main_cst_10 (constant S_ .f32 0x00000000#32),
    binary main_v31 main_cst_10 main_v32 (fun x v => Host.reduceAdd x v reducesTo_S16384_S_d0 h_S_),
    nullary main_cst_11 (constant S_ .f32 0x46800000#32),
    binary main_v32 main_cst_11 main_v33 Host.divf,
    nullary main_cst_12 (constant S_ .f32 0x00000000#32),
    binary main_v28 main_cst_12 main_v34 (fun x v => Host.reduceAdd x v reducesTo_S16384_S_d0 h_S_),
    nullary main_cst_13 (constant S_ .f32 0x46800000#32),
    binary main_v34 main_cst_13 main_v35 Host.divf,
    binary main_v33 main_v35 main_v36 addf,
    nullary main_cst_14 (constant S_ .f32 0x3F800000#32),
    binary main_v36 main_cst_14 main_v37 mulf,
    binary main_v37 main_v25 main_v38 addf,
    binary main_v38 main_v8 main_v39 addf ]

abbrev opsP : List (HloOp τ sig (Elt F)) := cA ++ (cB ++ (cC1 ++ (cC2 ++ (cD ++ (cE ++ (cF ++ (cG ++ (cH ++ cI))))))))

end Cert.ReferenceIdeal.ValueP

end
-- ==== Proof.RefKeeps.lean ====
import proofs.«412808_j68015102100189_2_alg».proof.Proof.RefOps

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

variable (W : Valuation τ sig (Elt F))

theorem cA_keep_arg1 : after cA W (Proc.devRef .tc main_arg1) = W (Proc.devRef .tc main_arg1) := by
  simp only [cA]
  after_results_simp

theorem cB_keep_arg1 : after cB W (Proc.devRef .tc main_arg1) = W (Proc.devRef .tc main_arg1) := by
  simp only [cB]
  after_results_simp

theorem cB_keep_v2 : after cB W (Proc.devRef .tc main_v2) = W (Proc.devRef .tc main_v2) := by
  simp only [cB]
  after_results_simp

theorem cC1_keep_arg1 : after cC1 W (Proc.devRef .tc main_arg1) = W (Proc.devRef .tc main_arg1) := by
  simp only [cC1]
  after_results_simp

theorem cC1_keep_v2 : after cC1 W (Proc.devRef .tc main_v2) = W (Proc.devRef .tc main_v2) := by
  simp only [cC1]
  after_results_simp

theorem cC1_keep_v3 : after cC1 W (Proc.devRef .tc main_v3) = W (Proc.devRef .tc main_v3) := by
  simp only [cC1]
  after_results_simp

theorem cC2_keep_arg1 : after cC2 W (Proc.devRef .tc main_arg1) = W (Proc.devRef .tc main_arg1) := by
  simp only [cC2]
  after_results_simp

theorem cC2_keep_v2 : after cC2 W (Proc.devRef .tc main_v2) = W (Proc.devRef .tc main_v2) := by
  simp only [cC2]
  after_results_simp

theorem cD_keep_arg1 : after cD W (Proc.devRef .tc main_arg1) = W (Proc.devRef .tc main_arg1) := by
  simp only [cD]
  after_results_simp

theorem cD_keep_v2 : after cD W (Proc.devRef .tc main_v2) = W (Proc.devRef .tc main_v2) := by
  simp only [cD]
  after_results_simp

theorem cE_keep_v8 : after cE W (Proc.devRef .tc main_v8) = W (Proc.devRef .tc main_v8) := by
  simp only [cE]
  after_results_simp

theorem cF_keep_v8 : after cF W (Proc.devRef .tc main_v8) = W (Proc.devRef .tc main_v8) := by
  simp only [cF]
  after_results_simp

theorem cG_keep_v8 : after cG W (Proc.devRef .tc main_v8) = W (Proc.devRef .tc main_v8) := by
  simp only [cG]
  after_results_simp

theorem cG_keep_v17 : after cG W (Proc.devRef .tc main_v17) = W (Proc.devRef .tc main_v17) := by
  simp only [cG]
  after_results_simp

theorem cG_keep_v19 : after cG W (Proc.devRef .tc main_v19) = W (Proc.devRef .tc main_v19) := by
  simp only [cG]
  after_results_simp

theorem cH_keep_v8 : after cH W (Proc.devRef .tc main_v8) = W (Proc.devRef .tc main_v8) := by
  simp only [cH]
  after_results_simp

theorem cH_keep_v25 : after cH W (Proc.devRef .tc main_v25) = W (Proc.devRef .tc main_v25) := by
  simp only [cH]
  after_results_simp

end Cert.ReferenceIdeal.ValueP

end
-- ==== Proof.RefChunksA.lean ====
import proofs.«412808_j68015102100189_2_alg».proof.Proof.RefOps
import proofs.«412808_j68015102100189_2_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

variable (W : Valuation τ sig (Elt F)) (x0 : Vec F S16384x64 .f32)
  (x1 : Vec F S16384 .i32)

set_option maxHeartbeats 400000 in

theorem cA_v2 (h0 : W (Proc.devRef .tc main_arg0) = x0) :
    after cA W (Proc.devRef .tc main_v2) = ReadP.val_main_v2 x0 := by
  simp only [cA]
  after_results_simp
  rw [h0]
  rfl

set_option maxHeartbeats 400000 in

theorem cC1_c5 (h1 : W (Proc.devRef .tc main_arg1) = x1) :
    after cC1 W (Proc.devRef .tc main_call2_v5) = ReadP.val_main_call2_v5 x1 := by
  simp only [cC1]
  after_results_simp
  rw [h1]
  rfl

set_option maxHeartbeats 400000 in

theorem cC2_v5 (hc : W (Proc.devRef .tc main_call2_v5) = ReadP.val_main_call2_v5 x1)
    (h3 : W (Proc.devRef .tc main_v3) = ReadP.val_main_v3 x0) :
    after cC2 W (Proc.devRef .tc main_v5) = ReadP.val_main_v5 x0 x1 := by
  simp only [cC2]
  after_results_simp
  rw [hc, h3]
  rfl

set_option maxHeartbeats 400000 in

theorem cD_v8 (h5 : W (Proc.devRef .tc main_v5) = ReadP.val_main_v5 x0 x1) :
    after cD W (Proc.devRef .tc main_v8) = ReadP.val_main_v8 x0 x1 := by
  simp only [cD]
  after_results_simp
  rw [h5]
  rfl

end Cert.ReferenceIdeal.ValueP

end
-- ==== Proof.RefChunksB.lean ====
import proofs.«412808_j68015102100189_2_alg».proof.Proof.RefOps
import proofs.«412808_j68015102100189_2_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

variable (W : Valuation τ sig (Elt F)) (x0 : Vec F S16384x64 .f32) (x1 : Vec F S16384 .i32)

theorem cB_v3 (h2 : W (Proc.devRef .tc main_v2) = ReadP.val_main_v2 x0) :
    after cB W (Proc.devRef .tc main_v3) = ReadP.val_main_v3 x0 := by
  simp only [cB]
  after_results_simp
  rw [h2]
  rfl

theorem cE_v10 (h2 : W (Proc.devRef .tc main_v2) = ReadP.val_main_v2 x0) :
    after cE W (Proc.devRef .tc main_v10) = ReadP.val_main_v10 x0 := by
  simp only [cE]
  after_results_simp
  rw [h2]
  rfl

theorem cE_v15 (h1 : W (Proc.devRef .tc main_arg1) = x1) :
    after cE W (Proc.devRef .tc main_v15) = ReadP.val_main_v15 x1 := by
  simp only [cE]
  after_results_simp
  rw [h1]
  rfl

theorem cF_v17 (h15 : W (Proc.devRef .tc main_v15) = ReadP.val_main_v15 x1) (h10 : W (Proc.devRef .tc main_v10) = ReadP.val_main_v10 x0) :
    after cF W (Proc.devRef .tc main_v17) = ReadP.val_main_v17 x0 x1 := by
  simp only [cF]
  after_results_simp
  rw [h15, h10]
  rfl

theorem cF_v19 (h15 : W (Proc.devRef .tc main_v15) = ReadP.val_main_v15 x1) (h10 : W (Proc.devRef .tc main_v10) = ReadP.val_main_v10 x0) :
    after cF W (Proc.devRef .tc main_v19) = ReadP.val_main_v19 x0 x1 := by
  simp only [cF]
  after_results_simp
  rw [h15, h10]
  rfl

end Cert.ReferenceIdeal.ValueP

end
-- ==== Proof.RefChunksC.lean ====
import proofs.«412808_j68015102100189_2_alg».proof.Proof.RefRead
import proofs.«412808_j68015102100189_2_alg».proof.Proof.RefOps
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

variable (W : Valuation τ sig (Elt F)) (x0 : Vec F S16384x64 .f32)
  (x1 : Vec F S16384 .i32)

theorem cG_v25 (h17 : W (Proc.devRef .tc main_v17) = ReadP.val_main_v17 x0 x1)
    (h19 : W (Proc.devRef .tc main_v19) = ReadP.val_main_v19 x0 x1) :
    after cG W (Proc.devRef .tc main_v25) = ReadP.val_main_v25 x0 x1 := by
  simp only [cG]; after_results_simp; rw [h17, h19]; rfl

theorem cH_v28 (h17 : W (Proc.devRef .tc main_v17) = ReadP.val_main_v17 x0 x1) :
    after cH W (Proc.devRef .tc main_v28) = ReadP.val_main_v28 x0 x1 := by
  simp only [cH]; after_results_simp; rw [h17]; rfl

theorem cH_v31 (h19 : W (Proc.devRef .tc main_v19) = ReadP.val_main_v19 x0 x1) :
    after cH W (Proc.devRef .tc main_v31) = ReadP.val_main_v31 x0 x1 := by
  simp only [cH]; after_results_simp; rw [h19]; rfl

theorem cI_v39 (h31 : W (Proc.devRef .tc main_v31) = ReadP.val_main_v31 x0 x1)
    (h28 : W (Proc.devRef .tc main_v28) = ReadP.val_main_v28 x0 x1)
    (h25 : W (Proc.devRef .tc main_v25) = ReadP.val_main_v25 x0 x1)
    (h8 : W (Proc.devRef .tc main_v8) = ReadP.val_main_v8 x0 x1) :
    after cI W (Proc.devRef .tc main_v39) = ReadP.val_main_v39 x0 x1 := by
  simp only [cI]; after_results_simp; rw [h31, h28, h25, h8]; rfl

end Cert.ReferenceIdeal.ValueP

end
-- ==== Proof.RefBridge.lean ====
import proofs.«412808_j68015102100189_2_alg».proof.Proof.RefOps
import Idealize.ShloMosaic.Lib.Pipeline.Regions

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 100000 in
set_option maxHeartbeats 4000000 in

theorem main_eqP (c : Dev nD) : main (F := F) c = seq opsP := by chain_rfl

theorem scopedRefs_eqP : (Finset.univ.filter fun b : Ref sig .tc => b.isScoped) = ∅ := by decide
theorem scopedSems_eqP : (Finset.univ.filter fun sm : SemLoc sig => sm.isScoped .tc) = ∅ := by decide

set_option maxRecDepth 8192 in
theorem opsP_sub : (opsP : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., binary_bufs_sub .., unary_bufs_sub .., unary_bufs_sub .., binary_bufs_sub .., unary_bufs_sub .., unary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., nullary_bufs_sub .., unary_bufs_sub .., binary_bufs_sub .., binary_bufs_sub .., nullary_bufs_sub .., unary_bufs_sub .., binary_bufs_sub .., nullary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., binary_bufs_sub ..⟩

set_option maxRecDepth 8192 in
set_option maxHeartbeats 4000000 in
theorem opsP_fresh : ∀ op ∈ (opsP : List (HloOp τ sig (Elt F))), op.fresh = ∅ := by
  intro _ h; (repeat (cases h with | head => rfl | tail _ h => ?_)); exact nomatch h

set_option maxHeartbeats 4000000 in
theorem run_afterP (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after opsP (launchContents m c) (Proc.devRef .tc b) :=
  run_seq scopedRefs_eqP scopedSems_eqP defs main (fun _ => opsP) main_eqP (fun _ => opsP_sub) m ρ (fun _ => opsP_fresh)

end Cert.ReferenceIdeal.ValueP

end
-- ==== Proof.RefRunStages.lean ====
import proofs.«412808_j68015102100189_2_alg».proof.Proof.RefOps
import proofs.«412808_j68015102100189_2_alg».proof.Proof.RefRead
import proofs.«412808_j68015102100189_2_alg».proof.Proof.RefKeeps
import proofs.«412808_j68015102100189_2_alg».proof.Proof.RefChunksA
import proofs.«412808_j68015102100189_2_alg».proof.Proof.RefChunksB
import proofs.«412808_j68015102100189_2_alg».proof.Proof.RefChunksC
import proofs.«412808_j68015102100189_2_alg».proof.Proof.RefBridge
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

theorem after_opsP_v39 (V : Valuation τ sig (Elt F)) (x0 : Vec F S16384x64 .f32) (x1 : Vec F S16384 .i32)
    (h0 : V (Proc.devRef .tc main_arg0) = x0) (h1 : V (Proc.devRef .tc main_arg1) = x1) :
    after opsP V (Proc.devRef .tc main_v39) = ReadP.val_main_v39 x0 x1 := by
  simp only [opsP, StableHlo.after_append]
  have a1A := (cA_keep_arg1 V).trans h1
  have v2A := cA_v2 V x0 h0
  generalize after cA V = V1 at a1A v2A ⊢
  have a1B := (cB_keep_arg1 V1).trans a1A
  have v2B := (cB_keep_v2 V1).trans v2A
  have v3B := cB_v3 V1 x0 v2A
  generalize after cB V1 = V2 at a1B v2B v3B ⊢
  have a1C := (cC1_keep_arg1 V2).trans a1B
  have v2C := (cC1_keep_v2 V2).trans v2B
  have v3C := (cC1_keep_v3 V2).trans v3B
  have c5C := cC1_c5 V2 x1 a1B
  generalize after cC1 V2 = V3 at a1C v2C v3C c5C ⊢
  have a1D := (cC2_keep_arg1 V3).trans a1C
  have v2D := (cC2_keep_v2 V3).trans v2C
  have v5D := cC2_v5 V3 x0 x1 c5C v3C
  generalize after cC2 V3 = V4 at a1D v2D v5D ⊢
  have a1E := (cD_keep_arg1 V4).trans a1D
  have v2E := (cD_keep_v2 V4).trans v2D
  have v8E := cD_v8 V4 x0 x1 v5D
  generalize after cD V4 = V5 at a1E v2E v8E ⊢
  have v8F := (cE_keep_v8 V5).trans v8E
  have v10F := cE_v10 V5 x0 v2E
  have v15F := cE_v15 V5 x1 a1E
  generalize after cE V5 = V6 at v8F v10F v15F ⊢
  have v8G := (cF_keep_v8 V6).trans v8F
  have v17G := cF_v17 V6 x0 x1 v15F v10F
  have v19G := cF_v19 V6 x0 x1 v15F v10F
  generalize after cF V6 = V7 at v8G v17G v19G ⊢
  have v8H := (cG_keep_v8 V7).trans v8G
  have v17H := (cG_keep_v17 V7).trans v17G
  have v19H := (cG_keep_v19 V7).trans v19G
  have v25H := cG_v25 V7 x0 x1 v17G v19G
  generalize after cG V7 = V8 at v8H v17H v19H v25H ⊢
  have v8I := (cH_keep_v8 V8).trans v8H
  have v25I := (cH_keep_v25 V8).trans v25H
  have v28I := cH_v28 V8 x0 x1 v17H
  have v31I := cH_v31 V8 x0 x1 v19H
  generalize after cH V8 = V9 at v8I v25I v28I v31I ⊢
  exact cI_v39 V9 x0 x1 v31I v28I v25I v8I

theorem after_opsP_arg0 (V : Valuation τ sig (Elt F)) : after opsP V (Proc.devRef .tc main_arg0) = V (Proc.devRef .tc main_arg0) := by
  simp only [opsP, cA, cB, cC1, cC2, cD, cE, cF, cG, cH, cI, List.cons_append, List.nil_append]; after_results_simp

theorem after_opsP_arg1 (V : Valuation τ sig (Elt F)) : after opsP V (Proc.devRef .tc main_arg1) = V (Proc.devRef .tc main_arg1) := by
  simp only [opsP, cA, cB, cC1, cC2, cD, cE, cF, cG, cH, cI, List.cons_append, List.nil_append]; after_results_simp

theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = ReadP.val_main_v39 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v39).trans (after_opsP_v39 (launchContents m c) _ _ rfl rfl),
      (h c main_arg0).trans (after_opsP_arg0 (launchContents m c)),
      (h c main_arg1).trans (after_opsP_arg1 (launchContents m c))⟩)
    (run_afterP m ρ)

end Cert.ReferenceIdeal.ValueP

end
-- ==== Proof.PreDecode.lean ====
import proofs.«412808_j68015102100189_2_alg».proof.Pre_finite_inputs
import proofs.«412808_j68015102100189_2_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreDecode

open Idealize.ShloMosaic Idealize.ShloMosaic.ValueIdx Cert.Pre_finite_inputs

instance : Subsingleton S_.Idx := ⟨fun a b => funext fun d => d.elim0⟩

theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

theorem toNat_lt_of_signed (w : BitVec 32) (h0 : IntOp.cmpi .sge w 0#32 = 1#1) (h1 : IntOp.cmpi .slt w 64#32 = 1#1) :
    w.toNat < 64 := by
  simp only [IntOp.cmpi, StableHlo.Predicate.ofBool_eq_one_iff, BitVec.sle, BitVec.slt, decide_eq_true_eq] at h0 h1
  have e0 : (0#32 : BitVec 32).toInt = 0 := by decide
  have e64 : (64#32 : BitVec 32).toInt = 64 := by decide
  rw [e0] at h0
  rw [e64] at h1
  rw [BitVec.toInt_eq_toNat_cond] at h0 h1
  split at h0 <;> omega

section
variable (x : FVec Ideal S16384x64 .f32) (t : IVec S16384 32)
  (h : Cert.Pre_finite_inputs.fn (F := Ideal) x t = (fun _ => 1#1))
include h

theorem finite_of_pre : ∀ (i : Fin 16384) (k : Fin 64), ∃ r : ℝ, x (ix2 i k) = (r : EReal) := by
  intro i k
  have h0 := congrFun h ix0
  dsimp only [Cert.Pre_finite_inputs.fn] at h0
  obtain ⟨hx, -⟩ := IntOp.andi_eq_one.1 h0
  exact real_of_abs_lt_inf _ (Host.reduce_andi_all _ _ _ _ _ hx (ix2 i k))

theorem label_of_pre : ∀ i : Fin 16384, (t (ix1 i)).toNat < 64 := by
  intro i
  have h0 := congrFun h ix0
  dsimp only [Cert.Pre_finite_inputs.fn] at h0
  obtain ⟨-, ht⟩ := IntOp.andi_eq_one.1 h0
  obtain ⟨ha, hb⟩ := IntOp.andi_eq_one.1 (Host.reduce_andi_all _ _ _ _ _ ht (ix1 i))
  exact toNat_lt_of_signed _ ha hb

end

section
variable (x : (⟨2, ![16384, 64]⟩ : Shape).Idx → EReal) (t : (⟨1, ![16384]⟩ : Shape).Idx → BitVec 32)
  (h : Cert.Pre_finite_inputs.fn (F := Ideal) x t = (fun _ => 1#1))
include h

theorem finite_of_pre' : ∀ (i : Fin 16384) (k : Fin 64), ∃ r : ℝ, x (ix2 i k) = (r : EReal) :=
  finite_of_pre x t h

theorem label_of_pre' : ∀ i : Fin 16384, (t (ix1 i)).toNat < 64 :=
  label_of_pre x t h

theorem decode_pre :
    (∀ j : (⟨2, ![16384, 64]⟩ : Shape).Idx, ∃ r : ℝ, x j = (r : EReal))
      ∧ ∀ j : (⟨1, ![16384]⟩ : Shape).Idx, (t j).toNat < 64 :=
  ⟨fun j => by rw [eq_ix2 j]; exact finite_of_pre x t h _ _, fun j => by rw [eq_ix1 j]; exact label_of_pre x t h _⟩

end

end Cert.PreDecode
-- ==== Proof.lean ====
import proofs.«412808_j68015102100189_2_alg».proof.Defs
import proofs.«412808_j68015102100189_2_alg».proof.Proof.Gen.Kernel
import proofs.«412808_j68015102100189_2_alg».proof.Proof.Gen.KernelIdeal
import proofs.«412808_j68015102100189_2_alg».proof.Proof.Gen.ReferenceIdeal
import proofs.«412808_j68015102100189_2_alg».proof.Proof.Gen.Pre_finite_inputs
import proofs.«412808_j68015102100189_2_alg».proof.Proof.K.Launch
import proofs.«412808_j68015102100189_2_alg».proof.Proof.KI.Launch
import proofs.«412808_j68015102100189_2_alg».proof.Proof.KI.Result
import proofs.«412808_j68015102100189_2_alg».proof.Proof.KI.Value
import proofs.«412808_j68015102100189_2_alg».proof.Proof.RefValue
import proofs.«412808_j68015102100189_2_alg».proof.Proof.RefRunStages
import proofs.«412808_j68015102100189_2_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

attribute [local instance] Cert.Kernel.Gen.facts Cert.KernelIdeal.Gen.facts Cert.ReferenceIdeal.Gen.facts Cert.Pre_finite_inputs.Gen.facts

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.ValueP.run_stages (F := Ideal) m ρ)

/-- The named fill reads as the bottom element in both places where the kernel uses it, as the table of named constants says. -/
theorem preserves : Cert.preserves_Kernel_KernelIdeal :=
  ⟨IdealRules.named_const.statement Cert.KernelIdeal.κ "neg_fill" .f32 0xC0000000#32 ⊥ rfl,
   IdealRules.named_const.statement Cert.KernelIdeal.κ "neg_fill" .f32 0xC0000000#32 ⊥ rfl⟩

/-- Both results are one loss of the arguments: a mean does not see the order of the rows, and among sorted rows a block whose label range misses the row's label holds no row of that label. -/
theorem algebraic : Cert.algebraic_KernelIdeal_ReferenceIdeal := by
  intro m ρ m' ρ' hpre hagree
  refine ⟨fun c => Cert.KernelIdeal.Gen.V12 m (Cert.KernelIdeal.Run.outs m) c Cert.KernelIdeal.main_v53,
    Cert.KernelIdeal.Run.run_result (F := Ideal) m ρ, ?_⟩
  refine (θ_run Cert.ReferenceIdeal.defs _ _).mono (fun _ h c => ⟨(h c).1.trans ?_, (h c).2⟩)
    (Cert.ReferenceIdeal.ValueP.run_stages (F := Ideal) m' ρ')
  have hfin := Cert.PreDecode.finite_of_pre _ _ (hpre c)
  have hlab := Cert.PreDecode.label_of_pre _ _ (hpre c)
  have hlab' : ∀ i : Fin 16384, (m' ((c.tc : Thread Cert.ReferenceIdeal.nD Cert.ReferenceIdeal.τ).loc Cert.ReferenceIdeal.main_arg1) (ValueIdx.ix1 i)).toNat < 64 := by
    intro i; rw [(hagree c).2]; exact hlab i
  funext j
  obtain rfl := eq_ix0 j
  refine (Cert.ReferenceIdeal.RefValue.ref_value_args _ _ hlab').trans ?_
  refine Eq.trans ?_ (Cert.KernelIdeal.Value.kernel_value m c hfin hlab).symm
  simp only [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
